-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S8192x8192 : Shape := ⟨2, ![8192, 8192]⟩
abbrev S1 : Shape := ⟨1, ![1]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg7 : FVec F S64 .f32) (main_arg8 : FVec F S64 .f32) (main_arg9 : FVec F S32x64 .f32) (main_arg10 : FVec F S32 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S32x64 .f32 := Host.absf main_arg9
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg4 : FVec F S1 .f32) (main_arg5 : FVec F S64x64 .f32) (main_arg6 : FVec F S64 .f32) (main_arg7 : FVec F S64 .f32) (main_arg8 : FVec F S64 .f32) (main_arg9 : FVec F S32x64 .f32) (main_arg10 : FVec F S32 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x64 .f32) (main_arg1 : FVec F S8192 .f32) (main_arg2 : FVec F S8192x8192 .f32) (main_arg3 : FVec F S1 .f32) (main_arg4 : FVec F S1 .f32) (main_arg5 : FVec F S64x64 .f32) (main_arg6 : FVec F S64 .f32) (main_arg7 : FVec F S64 .f32) (main_arg8 : FVec F S64 .f32) (main_arg9 : FVec F S32x64 .f32) (main_arg10 : FVec F S32 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_arg10 main_v13 main_v16
-- ==== Kernel.lean ====
abbrev S8192x64 : Shape := ⟨2, ![8192, 64]⟩
abbrev S8192 : Shape := ⟨1, ![8192]⟩
abbrev S8192x8192 : Shape := ⟨2, ![8192, 8192]⟩
abbrev S1 : Shape := ⟨1, ![1]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩
abbrev S8192x1 : Shape := ⟨2, ![8192, 1]⟩
abbrev S256x8192 : Shape := ⟨2, ![256, 8192]⟩
abbrev S2048x2048 : Shape := ⟨2, ![2048, 2048]⟩
abbrev S2048x64 : Shape := ⟨2, ![2048, 64]⟩
abbrev S2048x1 : Shape := ⟨2, ![2048, 1]⟩
abbrev S1x64 : Shape := ⟨2, ![1, 64]⟩
abbrev S1x32 : Shape := ⟨2, ![1, 32]⟩
abbrev S8192x32 : Shape := ⟨2, ![8192, 32]⟩
abbrev S64x32 : Shape := ⟨2, ![64, 32]⟩

abbrev nBuf : Space → Nat
  | .hbm => 45
  | .vmem => 49
  | .smem => 0
  | _ => 0

abbrev bufTy : (tb : Table) → Fin (tcTables nBuf tb) → BufTy
  | .hbm, ⟨0, _⟩ => ⟨S8192x64, .f32⟩
  | .hbm, ⟨1, _⟩ => ⟨S8192, .f32⟩
  | .hbm, ⟨2, _⟩ => ⟨S8192x8192, .f32⟩
  | .hbm, ⟨3, _⟩ => ⟨S1, .f32⟩
  | .hbm, ⟨4, _⟩ => ⟨S1, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x64, .f32⟩
  | .hbm, ⟨10, _⟩ => ⟨S32, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x8192, .bf16⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x32, .f32⟩
  | .hbm, ⟨43, _⟩ => ⟨S8192x32, .f32⟩
  | .hbm, ⟨44, _⟩ => ⟨S8192x64, .f32⟩
  | .local _ .vmem, ⟨0, _⟩ => ⟨S256x8192, .f32⟩
  | .local _ .vmem, ⟨1, _⟩ => ⟨S256x8192, .f32⟩
  | .local _ .vmem, ⟨2, _⟩ => ⟨S256x8192, .bf16⟩
  | .local _ .vmem, ⟨3, _⟩ => ⟨S256x8192, .bf16⟩
  | .local _ .vmem, ⟨4, _⟩ => ⟨S2048x2048, .bf16⟩
  | .local _ .vmem, ⟨5, _⟩ => ⟨S2048x2048, .bf16⟩
  | .local _ .vmem, ⟨6, _⟩ => ⟨S2048x64, .f32⟩
  | .local _ .vmem, ⟨7, _⟩ => ⟨S2048x64, .f32⟩
  | .local _ .vmem, ⟨8, _⟩ => ⟨S2048x1, .f32⟩
  | .local _ .vmem, ⟨9, _⟩ => ⟨S2048x1, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x2048, .bf16⟩
  | .local _ .vmem, ⟨14, _⟩ => ⟨S2048x2048, .bf16⟩
  | .local _ .vmem, ⟨15, _⟩ => ⟨S2048x64, .f32⟩
  | .local _ .vmem, ⟨16, _⟩ => ⟨S2048x64, .f32⟩
  | .local _ .vmem, ⟨17, _⟩ => ⟨S2048x1, .f32⟩
  | .local _ .vmem, ⟨18, _⟩ => ⟨S2048x1, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x2048, .bf16⟩
  | .local _ .vmem, ⟨23, _⟩ => ⟨S2048x2048, .bf16⟩
  | .local _ .vmem, ⟨24, _⟩ => ⟨S2048x64, .f32⟩
  | .local _ .vmem, ⟨25, _⟩ => ⟨S2048x64, .f32⟩
  | .local _ .vmem, ⟨26, _⟩ => ⟨S2048x1, .f32⟩
  | .local _ .vmem, ⟨27, _⟩ => ⟨S2048x1, .f32⟩
  | .local _ .vmem, ⟨28, _⟩ => ⟨S2048x64, .f32⟩
  | .local _ .vmem, ⟨29, _⟩ => ⟨S2048x64, .f32⟩
  | .local _ .vmem, ⟨30, _⟩ => ⟨S2048x64, .f32⟩
  | .local _ .vmem, ⟨31, _⟩ => ⟨S2048x2048, .bf16⟩
  | .local _ .vmem, ⟨32, _⟩ => ⟨S2048x2048, .bf16⟩
  | .local _ .vmem, ⟨33, _⟩ => ⟨S2048x64, .f32⟩
  | .local _ .vmem, ⟨34, _⟩ => ⟨S2048x64, .f32⟩
  | .local _ .vmem, ⟨35, _⟩ => ⟨S2048x1, .f32⟩
  | .local _ .vmem, ⟨36, _⟩ => ⟨S2048x1, .f32⟩
  | .local _ .vmem, ⟨37, _⟩ => ⟨S2048x64, .f32⟩
  | .local _ .vmem, ⟨38, _⟩ => ⟨S2048x64, .f32⟩
  | .local _ .vmem, ⟨39, _⟩ => ⟨S2048x64, .f32⟩
  | .local _ .vmem, ⟨40, _⟩ => ⟨S8192x64, .f32⟩
  | .local _ .vmem, ⟨41, _⟩ => ⟨S64x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S32x64, .f32⟩
  | .local _ .vmem, ⟨46, _⟩ => ⟨S1x32, .f32⟩
  | .local _ .vmem, ⟨47, _⟩ => ⟨S8192x32, .f32⟩
  | .local _ .vmem, ⟨48, _⟩ => ⟨S8192x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_scratch0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg7_0 : Ref sig .tc := ⟨.vmem, 47, rfl⟩
abbrev cc5_stg8_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem7_0 : DmaSem sig := 43
abbrev cc5_sem8_0 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S8192x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S8192x32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S8192x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

class Facts₀ : Prop where
  shapeCasts_S1_S_ : S1.ShapeCasts S_
  bcast_S_S8192 : S_.BroadcastsInDim S8192 (![] : Fin 0 → Fin S8192.rank)
  shapeCasts_S8192_S8192x1 : S8192.ShapeCasts S8192x1
  bcast_S_S8192x1 : S_.BroadcastsInDim S8192x1 (![] : Fin 0 → Fin S8192x1.rank)
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  packedbf16_S256x8192_S256x8192_0_0 : (Rect.unit (s := S256x8192) ![0, 0] S256x8192.size inb_S256x8192_S256x8192_0_0).PackedRows (EltTy.packing .bf16)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  shapeCasts_S64_S1x64 : S64.ShapeCasts S1x64
  shapeCasts_S32_S1x32 : S32.ShapeCasts S1x32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S8192x64 : S1x64.Broadcasts S8192x64
  reduces_S8192x64_S64 : S8192x64.Reduces [0] S64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S32x64_p1_0_S64x32 : S32x64.Transposes [1, 0] S64x32
  broadcasts_S1x32_S8192x32 : S1x32.Broadcasts S8192x32
  reduces_S8192x32_S8192 : S8192x32.Reduces [1] S8192
  broadcasts_S8192x1_S8192x32 : S8192x1.Broadcasts S8192x32
  inb_S8192x32_S8192x32_0_0 : ∀ a, (![0, 0] : Fin 2 → Nat) a + S8192x32.size a ≤ S8192x32.size a
  h_S8192x32 : 0 < S8192x32.numel
  dot_S2048x2048_S2048x64_S2048x64_0_0_1_1_n_n_wf : DotDims.WF S2048x2048 S2048x64 S2048x64 [0] [0] [1] [1] [] []
  dot_S2048x2048_S2048x64_S2048x64_1_0_0_1_n_n_wf : DotDims.WF S2048x2048 S2048x64 S2048x64 [1] [0] [0] [1] [] []
  dot_S8192x64_S64x64_S8192x64_1_0_0_1_n_n_wf : DotDims.WF S8192x64 S64x64 S8192x64 [1] [0] [0] [1] [] []
  dot_S8192x64_S64x32_S8192x32_1_0_0_1_n_n_wf : DotDims.WF S8192x64 S64x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .bf16 = 32 ∨ (Rect.block (s := S8192x8192) S256x8192.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S8192x64.size a
  hwx1_3 : ∀ i : grid1.Coords, EltTy.bits .f32 = 32 ∨ (Rect.block (s := S8192x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .f32 = 32 ∨ (Rect.block (s := S8192x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S8192x64.size a
  hwx2_3 : ∀ i : grid2.Coords, EltTy.bits .f32 = 32 ∨ (Rect.block (s := S8192x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x8192.size a
  hwx3_0 : ∀ i : grid3.Coords, EltTy.bits .bf16 = 32 ∨ (Rect.block (s := S8192x8192) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S8192x64.size a
  hwx3_1 : ∀ i : grid3.Coords, EltTy.bits .f32 = 32 ∨ (Rect.block (s := S8192x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S8192x1.size a
  hwx3_2 : ∀ i : grid3.Coords, EltTy.bits .f32 = 32 ∨ (Rect.block (s := S8192x1) S2048x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S8192x64.size a
  hwx3_3 : ∀ i : grid3.Coords, EltTy.bits .f32 = 32 ∨ (Rect.block (s := S8192x64) S2048x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S8192x8192.size a
  hwx4_0 : ∀ i : grid4.Coords, EltTy.bits .bf16 = 32 ∨ (Rect.block (s := S8192x8192) S2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S8192x64.size a
  hwx4_1 : ∀ i : grid4.Coords, EltTy.bits .f32 = 32 ∨ (Rect.block (s := S8192x64) S2048x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S8192x1.size a
  hwx4_2 : ∀ i : grid4.Coords, EltTy.bits .f32 = 32 ∨ (Rect.block (s := S8192x1) S2048x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x64.size a ≤ S8192x64.size a
  hwx4_3 : ∀ i : grid4.Coords, EltTy.bits .f32 = 32 ∨ (Rect.block (s := S8192x64) S2048x64.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S8192x64.size a
  hwx5_0 : ∀ i : grid5.Coords, EltTy.bits .f32 = 32 ∨ (Rect.block (s := S8192x64) S8192x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x64.size a ≤ S32x64.size a
  hwx5_5 : ∀ i : grid5.Coords, EltTy.bits .f32 = 32 ∨ (Rect.block (s := S32x64) S32x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x32.size a ≤ S1x32.size a
  hwx5_6 : ∀ i : grid5.Coords, EltTy.bits .f32 = 32 ∨ (Rect.block (s := S1x32) S1x32.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S8192x32.size a ≤ S8192x32.size a
  hwx5_7 : ∀ i : grid5.Coords, EltTy.bits .f32 = 32 ∨ (Rect.block (s := S8192x32) S8192x32.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S8192x64.size a ≤ S8192x64.size a
  hwx5_8 : ∀ i : grid5.Coords, EltTy.bits .f32 = 32 ∨ (Rect.block (s := S8192x64) S8192x64.size (cc5_transform_8 i) (hinb5_8 i)).WholeWords (EltTy.packing .f32)

variable [Facts₀]

def dot_S2048x2048_S2048x64_S2048x64_0_0_1_1_n_n : DotDims S2048x2048 S2048x64 S2048x64 where
  lhsContracting := [0]
  rhsContracting := [0]
  lhsNonContracting := [1]
  rhsNonContracting := [1]
  lhsBatch := []
  rhsBatch := []
  wf := dot_S2048x2048_S2048x64_S2048x64_0_0_1_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

abbrev win0_0 : Pipeline.Window sig grid0 :=
  Pipeline.Window.ofSpec (Memref.whole main_arg2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v18) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v18) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v18) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v18) S2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v17) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v22) S2048x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v22) S8192x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v23) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v24) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v25) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg9) S32x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v26) S1x32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v27_0) S8192x32.size cc5_transform_7 reads5_7 true true 1 stage5_7 sem5_7
    hrank5 hreads5_7 hinb5_7 nbuf5_7 (Memref.isWhole_whole _) hwx5_7 hstage5_7

abbrev win5_8 : Pipeline.Window sig grid5 :=
  Pipeline.Window.ofSpec (Memref.whole main_v27_1) S8192x64.size cc5_transform_8 reads5_8 true true 1 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S8192x64 : Shape := ⟨2, ![8192, 64]⟩
abbrev S8192 : Shape := ⟨1, ![8192]⟩
abbrev S8192x8192 : Shape := ⟨2, ![8192, 8192]⟩
abbrev S1 : Shape := ⟨1, ![1]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩
abbrev S8192x1 : Shape := ⟨2, ![8192, 1]⟩
abbrev S1x64 : Shape := ⟨2, ![1, 64]⟩
abbrev S64x32 : Shape := ⟨2, ![64, 32]⟩
abbrev S8192x32 : Shape := ⟨2, ![8192, 32]⟩
abbrev S1x32 : Shape := ⟨2, ![1, 32]⟩

abbrev nBuf : Space → Nat
  | .hbm => 100
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .f32⟩
  | .hbm, ⟨2, _⟩ => ⟨S8192x8192, .f32⟩
  | .hbm, ⟨3, _⟩ => ⟨S1, .f32⟩
  | .hbm, ⟨4, _⟩ => ⟨S1, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S32x64, .f32⟩
  | .hbm, ⟨10, _⟩ => ⟨S32, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x1, .f32⟩
  | .hbm, ⟨37, _⟩ => ⟨S8192x8192, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S64x64, .f32⟩
  | .hbm, ⟨43, _⟩ => ⟨S8192x64, .f32⟩
  | .hbm, ⟨44, _⟩ => ⟨S1x64, .f32⟩
  | .hbm, ⟨45, _⟩ => ⟨S8192x64, .f32⟩
  | .hbm, ⟨46, _⟩ => ⟨S8192x64, .f32⟩
  | .hbm, ⟨47, _⟩ => ⟨S_, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S8192x64, .f32⟩
  | .hbm, ⟨56, _⟩ => ⟨S_, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S1x64, .f32⟩
  | .hbm, ⟨69, _⟩ => ⟨S8192x64, .f32⟩
  | .hbm, ⟨70, _⟩ => ⟨S8192x64, .f32⟩
  | .hbm, ⟨71, _⟩ => ⟨S1x64, .f32⟩
  | .hbm, ⟨72, _⟩ => ⟨S8192x64, .f32⟩
  | .hbm, ⟨73, _⟩ => ⟨S8192x64, .f32⟩
  | .hbm, ⟨74, _⟩ => ⟨S1x64, .f32⟩
  | .hbm, ⟨75, _⟩ => ⟨S8192x64, .f32⟩
  | .hbm, ⟨76, _⟩ => ⟨S8192x64, .f32⟩
  | .hbm, ⟨77, _⟩ => ⟨S_, .f32⟩
  | .hbm, ⟨78, _⟩ => ⟨S8192x64, .f32⟩
  | .hbm, ⟨79, _⟩ => ⟨S8192x64, .f32⟩
  | .hbm, ⟨80, _⟩ => ⟨S64x32, .f32⟩
  | .hbm, ⟨81, _⟩ => ⟨S8192x32, .f32⟩
  | .hbm, ⟨82, _⟩ => ⟨S1x32, .f32⟩
  | .hbm, ⟨83, _⟩ => ⟨S8192x32, .f32⟩
  | .hbm, ⟨84, _⟩ => ⟨S8192x32, .f32⟩
  | .hbm, ⟨85, _⟩ => ⟨S_, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S8192x1, .f32⟩
  | .hbm, ⟨91, _⟩ => ⟨S8192x32, .f32⟩
  | .hbm, ⟨92, _⟩ => ⟨S8192x32, .f32⟩
  | .hbm, ⟨93, _⟩ => ⟨S8192x32, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S8192x1, .f32⟩
  | .hbm, ⟨98, _⟩ => ⟨S8192x32, .f32⟩
  | .hbm, ⟨99, _⟩ => ⟨S8192x32, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call0_cst : Ref sig .tc := ⟨.hbm, 77, rfl⟩
abbrev main_call0_v0 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v63 : Ref sig .tc := ⟨.hbm, 99, rfl⟩

abbrev nD : Nat := 1
abbrev τ : Topo := Topo.v7x

variable {F : FTy → Type} [FloatOps F]

class Facts₀ : Prop where
  shapeCasts_S1_S_ : S1.ShapeCasts S_
  bcast_S_S8192 : S_.BroadcastsInDim S8192 (![] : Fin 0 → Fin S8192.rank)
  bcast_S8192_S8192x1_0 : S8192.BroadcastsInDim S8192x1 (![0] : Fin 1 → Fin S8192x1.rank)
  transposes_S8192x8192_S8192x8192_1_0 : S8192x8192.Transposes [1, 0] S8192x8192
  bcast_S8192x1_S8192x64_0_1 : S8192x1.BroadcastsInDim S8192x64 (![0, 1] : Fin 2 → Fin S8192x64.rank)
  transposes_S64x64_S64x64_1_0 : S64x64.Transposes [1, 0] S64x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S64_d0 : S8192x64.ReducesTo [0] S64
  h_S_ : 0 < S_.numel
  bcast_S_S64 : S_.BroadcastsInDim S64 (![] : Fin 0 → Fin S64.rank)
  bcast_S_S8192x64 : S_.BroadcastsInDim S8192x64 (![] : Fin 0 → Fin S8192x64.rank)
  transposes_S32x64_S64x32_1_0 : S32x64.Transposes [1, 0] S64x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  reducesTo_S8192x32_S8192_d1 : S8192x32.ReducesTo [1] S8192
  bcast_S8192x1_S8192x32_0_1 : S8192x1.BroadcastsInDim S8192x32 (![0, 1] : Fin 2 → Fin S8192x32.rank)
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []
  dot_S8192x64_S64x32_S8192x32_1_0_0_1_n_n_wf : DotDims.WF S8192x64 S64x32 S8192x32 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

class Facts : Prop extends Facts₀ where

variable [Facts]
-- ==== Proof.K.R0.lean ====
import proofs.«134441_j56014963474691_1_alg».proof.Proof.Gen.Kernel.Launch
import proofs.«134441_j56014963474691_1_alg».proof.Proof.Gen.Kernel.Skeleton
import proofs.«134441_j56014963474691_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S256x8192 := Rect.unit (s := S256x8192) ![0, 0] S256x8192.size inb_S256x8192_S256x8192_0_0

def out0_1 (x0 : Vec F S256x8192 .f32) : Vec F S256x8192 .bf16 :=
  View.canon [⟨r0_0, k0_pay1 (View.ld x0 r0_0)⟩]

theorem cover0_1 (p0 : Vec F S256x8192 .bf16) (y : S256x8192.Idx) :
    ∃ pc ∈ ([⟨r0_0, p0⟩] : List (View.Piece (Elt F) S256x8192 .bf16)), y ∈ pc.1.set :=
  View.cover_of_tiled [⟨r0_0, p0⟩] S256x8192.size (by rfl) y

set_option maxHeartbeats 1000000 in

theorem sound_kernel0 (c : Dev nD) (E : Set ℕ) (i : grid0.Coords) (arg1 : Memref sig .tc .vmem S256x8192 .f32) (harg1 : arg1.IsWhole)
    (arg2 : Memref sig .tc .vmem S256x8192 .bf16) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_kernel i arg1 harg1 arg2 harg2) K := by
  simp only [cc0__cast_kernel_eq_skeleton]; unfold cc0__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare (iblk0 V c 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_1]
  iintro ⟨HΦ, Ho, ⟨%d0, H0⟩, ⟨%d1, H1⟩⟩
  iapply (sound_kernel0 c Set.univ _ _ _ _ _ (iblk0 V c 0 t) _)
  iframe H0
  isplitl [H1]; · iexists _; iexact H1
  iintro ⟨H0, H1⟩
  iframe HΦ Ho H0
  iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  show (Pipeline.ΦA spec0 c : sProp 𝕄) ⊢ Pipeline.ΦA spec0 c
  exact BI.Entails.refl _

theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact BI.Entails.refl _

end Cert.Kernel.Hand

end
-- ==== Proof.LibBody.lean ====
import Idealize.ShloMosaic.Lib.Pipeline.FrameBody

noncomputable section

namespace Cert.LibBody

open Idealize.ShloMosaic Idealize.ShloMosaic.TcCoe Idealize.SL Idealize.SL.RA
open Idealize.SL.BI (sProp)
open scoped Idealize.SL.BI
open Idealize.SL.BI.BIBase Idealize.SL.BI.Laws Idealize.SL.ProofMode
open Idealize.ShloMosaic.Pipeline (Dat Cfg)

variable {nD : Nat} {τ : Topo} {sig : RefSig} {Val : EltTy → Type}
variable {Ix : Type} [DecidableEq Ix] {Name : Type} [DecidableEq Name] {U : Type} [URA U] {Lvl : Type}

/-- Reading through a whole memref is a bijection, so owning it at `X` is holding its buffer at the one contents that read `X`. -/
theorem owns_eq_unread (c : Thread nD τ) {sp : Space} {sh : Shape} {e : EltTy} {m : Memref sig c.2.kind sp sh e} (hm : m.IsWhole)
    (q : PosShare TreeShare) (X : sh.Idx → Val e) :
    (owns c m q X : sProp (MT nD τ sig Ix Val Name U Lvl)) = (m.view.loc c ↦[m.view.set]{q} hm.unread X) := by
  have h₁ : (owns c m q X : sProp (MT nD τ sig Ix Val Name U Lvl)) ⊢ (m.view.loc c ↦[m.view.set]{q} hm.unread X) := by
    unfold owns; iintro ⟨%f, %hf, H⟩; obtain rfl := hm.eq_unread hf; iexact H
  have h₂ : (m.view.loc c ↦[m.view.set]{q} hm.unread X : sProp (MT nD τ sig Ix Val Name U Lvl)) ⊢ owns c m q X := by
    unfold owns; iintro H; iexists hm.unread X; isplitr
    · ipureintro; exact hm.read_unread X
    iexact H
  exact BI.equiv_iff.mp ⟨h₁, h₂⟩

/-- Every index lies in some piece, so the last write to it fixes what is read there: neither the prior contents nor the view matter. -/
theorem owns_writes_of_cover (c : Thread nD τ) {sp : Space} {sh : Shape} {e : EltTy} (m : Memref sig c.2.kind sp sh e) (q : PosShare TreeShare)
    {sig' : RefSig} {κ' : Kind} {sp' : Space} (v' : View sig' κ' sp' sh e) (f' : v'.ty.Contents Val) (L : List (View.Piece Val sh e))
    (h : ∀ y, ∃ p ∈ L, y ∈ p.1.set) :
    (iprop(∃ f, m.view.loc c ↦[m.view.set]{q} m.view.writes Val f L) : sProp (MT nD τ sig Ix Val Name U Lvl)) ⊢ owns c m q (v'.read Val (v'.writes Val f' L)) := by
  unfold owns
  iintro ⟨%f, H⟩; iexists m.view.writes Val f L; isplitr
  · ipureintro; exact View.read_writes_of_cover _ _ _ _ _ h
  iexact H

theorem leavesExact_live {Λ₀ : Idealize.SL.Sem.Labels} {cfg : Cfg sig Λ₀} {c : Dev nD} (dat : Dat τ Val Ix Name U Lvl cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

end Cert.LibBody

end
-- ==== Proof.K.R1.lean ====
import proofs.«134441_j56014963474691_1_alg».proof.Proof.Gen.Kernel.Launch
import proofs.«134441_j56014963474691_1_alg».proof.Proof.Gen.Kernel.Skeleton
import proofs.«134441_j56014963474691_1_alg».proof.Proof.Gen.Kernel.Points
import proofs.«134441_j56014963474691_1_alg».proof.Proof.LibBody
import Idealize.ShloMosaic.Lib.Ring
import Idealize.ShloMosaic.Lib.Tactic

set_option maxRecDepth 16384

noncomputable section

namespace Cert.Kernel.Hand

open Cert.Kernel Cert.Kernel.Gen Cert.LibBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The output block is written only at the last step of each reduction. -/
theorem idleAt1_3 : ∀ t : Fin cfg1.N, ¬t.val % 4 = 3 → cfg1.idle 3 (grid1.coords t) = true := by decide +kernel
theorem liveAt1_3 : ∀ t : Fin cfg1.N, t.val % 4 = 3 → cfg1.idle 3 (grid1.coords t) = false := by decide +kernel

abbrev VO1_3 : View sig .tc .vmem S2048x64 .f32 := (Memref.whole cc1_stg3_0 : Memref sig .tc .vmem S2048x64 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
abbrev scM1_0 : Memref sig .tc .vmem S2048x64 .f32 := Memref.whole cc1_scratch0
abbrev VS1_0 : View sig .tc .vmem S2048x64 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns c scM1_0 fullShare d)) ∗ restBut1 (F := F) c) ∗ (∃ r, prngReg c r)) := by
  unfold Pipeline.ΦA; rw [scopedRest1_split]; simp only [scM1_0, owns_whole]; try rfl

section
variable (c : Dev nD) (i : grid1.Coords) (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole)

section
variable (hc0 : cond1_0 i) (hc1 : ¬cond1_1 i) (x0 : Vec F S2048x2048 .bf16) (x1 : Vec F S2048x64 .f32) (x2 : Vec F S2048x1 .f32)

set_option maxHeartbeats 1000000 in
def kernelRun1_A :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_eq_unread (c : Thread nD τ) harg2, owns_eq_unread (c : Thread nD τ) harg3, owns_eq_unread (c : Thread nD τ) harg4, owns_eq_unread (c : Thread nD τ) harg5]; unfold owns
    iintro ⟨H0, H1, H2, H3, ⟨%ds0, %fs0, -, HS0⟩, Hk⟩
    sl_exec (disch := first | exact hc0 | exact hc1)
    sl_step
    iapply Hk; iframe H0 H1 H2 H3
    iexists _; iexact HS0

def out1_A_3 : Vec F S2048x64 .f32 :=
  VO1_3.read (Elt F) (VO1_3.writes (Elt F) VO1_3.junk (kernelRun1_A c i arg2 harg2 arg3 harg3 arg4 harg4 arg5 harg5 arg6 harg6 hc0 hc1 x0 x1 x2).1)

theorem scover1_A_0 (y : S2048x64.Idx) : ∃ pc ∈ (kernelRun1_A c i arg2 harg2 arg3 harg3 arg4 harg4 arg5 harg5 arg6 harg6 hc0 hc1 x0 x1 x2).2.1, y ∈ pc.1.set :=
  View.cover_of_tiledL _ S2048x64.size (by sl_kernel_rfl) y

def sout1_A_0 : Vec F S2048x64 .f32 :=
  VS1_0.read (Elt F) (VS1_0.writes (Elt F) VS1_0.junk (kernelRun1_A c i arg2 harg2 arg3 harg3 arg4 harg4 arg5 harg5 arg6 harg6 hc0 hc1 x0 x1 x2).2.1)

end

section
variable (hc0 : ¬cond1_0 i) (hc1 : ¬cond1_1 i) (x0 : Vec F S2048x2048 .bf16) (x1 : Vec F S2048x64 .f32) (x2 : Vec F S2048x1 .f32) (xs0 : Vec F S2048x64 .f32)

set_option maxHeartbeats 1000000 in
def kernelRun1_B :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_eq_unread (c : Thread nD τ) harg2, owns_eq_unread (c : Thread nD τ) harg3, owns_eq_unread (c : Thread nD τ) harg4, owns_eq_unread (c : Thread nD τ) harg5, owns_eq_unread (c : Thread nD τ) harg6]
    iintro ⟨H0, H1, H2, H3, HS0, Hk⟩
    sl_exec (disch := first | exact hc0 | exact hc1)
    sl_step
    iapply Hk; iframe H0 H1 H2 H3
    iexists _; iexact HS0

def out1_B_3 : Vec F S2048x64 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (y : S2048x64.Idx) : ∃ pc ∈ (kernelRun1_B c i arg2 harg2 arg3 harg3 arg4 harg4 arg5 harg5 arg6 harg6 hc0 hc1 x0 x1 x2 xs0).2.1, y ∈ pc.1.set :=
  View.cover_of_tiledL _ S2048x64.size (by sl_kernel_rfl) y

def sout1_B_0 : Vec F S2048x64 .f32 :=
  VS1_0.read (Elt F) (VS1_0.writes (Elt F) VS1_0.junk (kernelRun1_B c i arg2 harg2 arg3 harg3 arg4 harg4 arg5 harg5 arg6 harg6 hc0 hc1 x0 x1 x2 xs0).2.1)

end

section
variable (hc0 : ¬cond1_0 i) (hc1 : cond1_1 i) (x0 : Vec F S2048x2048 .bf16) (x1 : Vec F S2048x64 .f32) (x2 : Vec F S2048x1 .f32) (xs0 : Vec F S2048x64 .f32)

set_option maxHeartbeats 1000000 in
def kernelRun1_C :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    rw [owns_eq_unread (c : Thread nD τ) harg2, owns_eq_unread (c : Thread nD τ) harg3, owns_eq_unread (c : Thread nD τ) harg4, owns_eq_unread (c : Thread nD τ) harg6]; unfold owns
    iintro ⟨H0, H1, H2, ⟨%d3, %f3, -, H3⟩, HS0, Hk⟩
    sl_exec (disch := first | exact hc0 | exact hc1)
    sl_step
    iapply Hk; iframe H0 H1 H2
    isplitl [H3]; · iexists _; iexact H3
    iexists _; iexact HS0

def out1_C_3 : Vec F S2048x64 .f32 :=
  VO1_3.read (Elt F) (VO1_3.writes (Elt F) VO1_3.junk (kernelRun1_C c i arg2 harg2 arg3 harg3 arg4 harg4 arg5 harg5 arg6 harg6 hc0 hc1 x0 x1 x2 xs0).1)

theorem cover1_C_3 (y : S2048x64.Idx) : ∃ pc ∈ (kernelRun1_C c i arg2 harg2 arg3 harg3 arg4 harg4 arg5 harg5 arg6 harg6 hc0 hc1 x0 x1 x2 xs0).1, y ∈ pc.1.set :=
  View.cover_of_tiledL _ S2048x64.size (by sl_kernel_rfl) y

theorem scover1_C_0 (y : S2048x64.Idx) : ∃ pc ∈ (kernelRun1_C c i arg2 harg2 arg3 harg3 arg4 harg4 arg5 harg5 arg6 harg6 hc0 hc1 x0 x1 x2 xs0).2.1, y ∈ pc.1.set :=
  View.cover_of_tiledL _ S2048x64.size (by sl_kernel_rfl) y

def sout1_C_0 : Vec F S2048x64 .f32 :=
  VS1_0.read (Elt F) (VS1_0.writes (Elt F) VS1_0.junk (kernelRun1_C c i arg2 harg2 arg3 harg3 arg4 harg4 arg5 harg5 arg6 harg6 hc0 hc1 x0 x1 x2 xs0).2.1)

end

end

/-- What a point leaves in the output block and in the accumulator, given what the accumulator held before it. -/
def step1 (c : Dev nD) (t : Fin cfg1.N) (xs : Vec F S2048x64 .f32) : Vec F S2048x64 .f32 × Vec F S2048x64 .f32 :=
  if h0 : t.val % 4 = 0 then (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t))
  else if h1 : t.val % 4 = 3 then (out1_C_3 c (grid1.coords t) (ms1_0 t) (hs1_0 t) (ms1_1 t) (hs1_1 t) (ms1_2 t) (hs1_2 t) (ms1_3 t) (hs1_3 t) scM1_0 (Memref.isWhole_whole _) (mt (hcond1_0 t).mp h0) ((hcond1_1 t).mpr h1) (iblk1 V c 0 t) (iblk1 V c 1 t) (iblk1 V c 2 t) xs, sout1_C_0 c (grid1.coords t) (ms1_0 t) (hs1_0 t) (ms1_1 t) (hs1_1 t) (ms1_2 t) (hs1_2 t) (ms1_3 t) (hs1_3 t) scM1_0 (Memref.isWhole_whole _) (mt (hcond1_0 t).mp h0) ((hcond1_1 t).mpr h1) (iblk1 V c 0 t) (iblk1 V c 1 t) (iblk1 V c 2 t) xs)
  else (out1_B_3 c (grid1.coords t) (ms1_0 t) (hs1_0 t) (ms1_1 t) (hs1_1 t) (ms1_2 t) (hs1_2 t) (ms1_3 t) (hs1_3 t) scM1_0 (Memref.isWhole_whole _) (mt (hcond1_0 t).mp h0) (mt (hcond1_1 t).mp h1) (iblk1 V c 0 t) (iblk1 V c 1 t) (iblk1 V c 2 t) xs, sout1_B_0 c (grid1.coords t) (ms1_0 t) (hs1_0 t) (ms1_1 t) (hs1_1 t) (ms1_2 t) (hs1_2 t) (ms1_3 t) (hs1_3 t) scM1_0 (Memref.isWhole_whole _) (mt (hcond1_0 t).mp h0) (mt (hcond1_1 t).mp h1) (iblk1 V c 0 t) (iblk1 V c 1 t) (iblk1 V c 2 t) xs)

def outsAt1 (c : Dev nD) : (n : ℕ) → n < cfg1.N → Vec F S2048x64 .f32 × Vec F S2048x64 .f32
  | 0, hn => step1 V c ⟨0, hn⟩ (VS1_0.read (Elt F) VS1_0.junk)
  | n + 1, hn => step1 V c ⟨n + 1, hn⟩ (outsAt1 c n (Nat.lt_of_succ_lt hn)).2

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- Before point `n + 1` the accumulator holds what point `n` left in it. -/
def PhiS1 (c : Dev nD) : (n : ℕ) → n ≤ cfg1.N → sProp 𝕄
  | 0, _ => Pipeline.ΦA spec1 c
  | n + 1, hn => iprop(iprop(iprop(owns c scM1_0 fullShare ((outsAt1 V c n hn).2)) ∗ restBut1 (F := F) c) ∗ (∃ r, prngReg c r))

theorem PhiS1_pos (c : Dev nD) : ∀ (n : ℕ) (h : n ≤ cfg1.N) (hz : n ≠ 0),
    PhiS1 V c n h = iprop(iprop(iprop(owns c scM1_0 fullShare ((outsAt1 V c (n - 1) (by omega)).2)) ∗ restBut1 (F := F) c) ∗ (∃ r, prngReg c r))
  | 0, _, hz => absurd rfl hz
  | _ + 1, _, _ => rfl

theorem PhiS1_out (c : Dev nD) : ∀ (n : ℕ) (h : n ≤ cfg1.N), PhiS1 V c n h ⊢ (Pipeline.ΦA spec1 c : sProp 𝕄)
  | 0, _ => Entails.refl _
  | n + 1, h => by
    rw [PhiA1_eq]; unfold PhiS1
    iintro ⟨⟨HS0, Hr⟩, Hg⟩; iframe Hr Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop(PhiS1 V c t.val (Nat.le_of_lt t.isLt) ∗ (dat1 V c).owesAt () t.castSucc
    ∗ (∃ d, owns c (ms1_0 t) fullShare ((dat1 V c).before 0 t d))
    ∗ (∃ d, owns c (ms1_1 t) fullShare ((dat1 V c).before 1 t d))
    ∗ (∃ d, owns c (ms1_2 t) fullShare ((dat1 V c).before 2 t d))
    ∗ (∃ d, owns c (ms1_3 t) fullShare ((dat1 V c).before 3 t d)))

def bodyPost1 (c : Dev nD) (t : Fin cfg1.N) : sProp 𝕄 :=
  iprop(iprop(iprop(iprop(owns c scM1_0 fullShare ((outsAt1 V c t.val t.isLt).2)) ∗ restBut1 (F := F) c) ∗ (∃ r, prngReg c r)) ∗ (dat1 V c).owesAt () t.castSucc
    ∗ owns c (ms1_0 t) fullShare (iblk1 V c 0 t)
    ∗ owns c (ms1_1 t) fullShare (iblk1 V c 1 t)
    ∗ owns c (ms1_2 t) fullShare (iblk1 V c 2 t)
    ∗ (dat1 V c).leavesExact 3 t)

set_option maxHeartbeats 400000 in
/-- `t % 4` selects the case: the accumulator restarts at 0, adds the product of the point's two blocks, and at 3 is scaled into the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  by_cases h1 : t.val % 4 = 3
  · have h0 : ¬t.val % 4 = 0 := by omega
    have hz : t.val ≠ 0 := by omega
    rw [leavesExact_live (dat1 V c) 3 t (liveAt1_3 t h1), after1_3, outsAt1_C V c t h0 h1, PhiS1_pos V c _ _ hz]
    unfold out1_C_3 sout1_C_0; dsimp only
    iintro ⟨⟨⟨HS0, Hr⟩, Hg⟩, Ho, ⟨%d0, H0⟩, ⟨%d1, H1⟩, ⟨%d2, H2⟩, ⟨%d3, H3⟩⟩
    iapply ((kernelRun1_C c (grid1.coords t) _ _ _ _ _ _ _ _ _ _ (mt (hcond1_0 t).mp h0) ((hcond1_1 t).mpr h1) (iblk1 V c 0 t) (iblk1 V c 1 t) (iblk1 V c 2 t) _).2.2 Set.univ _)
    iframe H0 H1 H2
    isplitl [H3]; · iexists _; iexact H3
    isplitl [HS0]; · iexact HS0
    iintro ⟨H0, H1, H2, H3, HS0⟩
    iframe Hr Hg Ho H0 H1 H2
    isplitl [HS0]; · iapply owns_writes_of_cover _ _ _ _ _ _ (scover1_C_0 _ _ _ _ _ _ _ _ _ _ _ _ _ _ _ _ _ _); iexact HS0
    iapply owns_writes_of_cover _ _ _ _ _ _ (cover1_C_3 _ _ _ _ _ _ _ _ _ _ _ _ _ _ _ _ _ _); iexact H3
  rw [Dat.leavesExact_idle (dat1 V c) 3 t (idleAt1_3 t h1) (Bool.eq_false_iff.mpr fun h => h1 ((flush1_3 t).mp h))]
  by_cases h0 : t.val % 4 = 0
  · refine (sep_mono_left (PhiS1_out V c _ _)).trans ?_
    rw [PhiA1_eq, outsAt1_A V c t h0 h1]
    unfold sout1_A_0; dsimp only
    iintro ⟨⟨⟨HS0, Hr⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (mt (hcond1_1 t).mp h1) (iblk1 V c 0 t) (iblk1 V c 1 t) (iblk1 V c 2 t)).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover1_A_0 _ _ _ _ _ _ _ _ _ _ _ _ _ _ _ _ _); iexact HS0
    iexists _; iexact H3
  · have hz : t.val ≠ 0 := fun h => h0 (by rw [h])
    rw [outsAt1_B V c t h0 h1, PhiS1_pos V c _ _ hz]
    unfold sout1_B_0; dsimp only
    iintro ⟨⟨⟨HS0, Hr⟩, Hg⟩, Ho, ⟨%d0, H0⟩, ⟨%d1, H1⟩, ⟨%d2, H2⟩, ⟨%d3, H3⟩⟩
    iapply ((kernelRun1_B c (grid1.coords t) _ _ _ _ _ _ _ _ _ _ (mt (hcond1_0 t).mp h0) (mt (hcond1_1 t).mp h1) (iblk1 V c 0 t) (iblk1 V c 1 t) (iblk1 V c 2 t) _).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover1_B_0 _ _ _ _ _ _ _ _ _ _ _ _ _ _ _ _ _ _); iexact HS0
    iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := Entails.refl _

theorem hout1 (c : Dev nD) : (dat1 V c).Φ (Fin.last cfg1.N) ⊢ (Pipeline.ΦA spec1 c : sProp 𝕄) := PhiS1_out V c _ (Nat.le_refl _)

end Cert.Kernel.Hand

end
-- ==== Proof.K.R2.lean ====
import proofs.«134441_j56014963474691_1_alg».proof.Proof.Gen.Kernel.Launch
import proofs.«134441_j56014963474691_1_alg».proof.Proof.Gen.Kernel.Skeleton
import proofs.«134441_j56014963474691_1_alg».proof.Proof.Gen.Kernel.Points
import proofs.«134441_j56014963474691_1_alg».proof.Proof.LibBody
import Idealize.ShloMosaic.Lib.Ring
import Idealize.ShloMosaic.Lib.Tactic

set_option maxRecDepth 16384

noncomputable section

namespace Cert.Kernel.Hand

open Cert.Kernel Cert.Kernel.Gen Cert.LibBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The output block is written only at the last step of each reduction. -/
theorem idleAt2_3 : ∀ t : Fin cfg2.N, ¬t.val % 4 = 3 → cfg2.idle 3 (grid2.coords t) = true := by decide +kernel
theorem liveAt2_3 : ∀ t : Fin cfg2.N, t.val % 4 = 3 → cfg2.idle 3 (grid2.coords t) = false := by decide +kernel

abbrev VO2_3 : View sig .tc .vmem S2048x64 .f32 := (Memref.whole cc2_stg3_0 : Memref sig .tc .vmem S2048x64 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x64 .f32 := win2_3.stage (cfg2.slots t 3)
abbrev hs2_3 (t : Fin cfg2.N) : (ms2_3 t).IsWhole := hstage2_3 ((cfg2.slots t 3).cast nbuf2_3)
abbrev scM2_0 : Memref sig .tc .vmem S2048x64 .f32 := Memref.whole cc2_scratch0
abbrev VS2_0 : View sig .tc .vmem S2048x64 .f32 := scM2_0.view

abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns c scM2_0 fullShare d)) ∗ restBut2 (F := F) c) ∗ (∃ r, prngReg c r)) := by
  unfold Pipeline.ΦA; rw [scopedRest2_split]; simp only [scM2_0, owns_whole]; try rfl

section
variable (c : Dev nD) (i : grid2.Coords) (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole)

section
variable (hc0 : cond2_0 i) (hc1 : ¬cond2_1 i) (x0 : Vec F S2048x2048 .bf16) (x1 : Vec F S2048x64 .f32) (x2 : Vec F S2048x1 .f32)

set_option maxHeartbeats 1000000 in
def kernelRun2_A :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    rw [owns_eq_unread (c : Thread nD τ) harg2, owns_eq_unread (c : Thread nD τ) harg3, owns_eq_unread (c : Thread nD τ) harg4, owns_eq_unread (c : Thread nD τ) harg5]; unfold owns
    iintro ⟨H0, H1, H2, H3, ⟨%ds0, %fs0, -, HS0⟩, Hk⟩
    sl_exec (disch := first | exact hc0 | exact hc1)
    sl_step
    iapply Hk; iframe H0 H1 H2 H3
    iexists _; iexact HS0

def out2_A_3 : Vec F S2048x64 .f32 :=
  VO2_3.read (Elt F) (VO2_3.writes (Elt F) VO2_3.junk (kernelRun2_A c i arg2 harg2 arg3 harg3 arg4 harg4 arg5 harg5 arg6 harg6 hc0 hc1 x0 x1 x2).1)

theorem scover2_A_0 (y : S2048x64.Idx) : ∃ pc ∈ (kernelRun2_A c i arg2 harg2 arg3 harg3 arg4 harg4 arg5 harg5 arg6 harg6 hc0 hc1 x0 x1 x2).2.1, y ∈ pc.1.set :=
  View.cover_of_tiledL _ S2048x64.size (by sl_kernel_rfl) y

def sout2_A_0 : Vec F S2048x64 .f32 :=
  VS2_0.read (Elt F) (VS2_0.writes (Elt F) VS2_0.junk (kernelRun2_A c i arg2 harg2 arg3 harg3 arg4 harg4 arg5 harg5 arg6 harg6 hc0 hc1 x0 x1 x2).2.1)

end

section
variable (hc0 : ¬cond2_0 i) (hc1 : ¬cond2_1 i) (x0 : Vec F S2048x2048 .bf16) (x1 : Vec F S2048x64 .f32) (x2 : Vec F S2048x1 .f32) (xs0 : Vec F S2048x64 .f32)

set_option maxHeartbeats 1000000 in
def kernelRun2_B :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    rw [owns_eq_unread (c : Thread nD τ) harg2, owns_eq_unread (c : Thread nD τ) harg3, owns_eq_unread (c : Thread nD τ) harg4, owns_eq_unread (c : Thread nD τ) harg5, owns_eq_unread (c : Thread nD τ) harg6]
    iintro ⟨H0, H1, H2, H3, HS0, Hk⟩
    sl_exec (disch := first | exact hc0 | exact hc1)
    sl_step
    iapply Hk; iframe H0 H1 H2 H3
    iexists _; iexact HS0

def out2_B_3 : Vec F S2048x64 .f32 :=
  VO2_3.read (Elt F) (VO2_3.writes (Elt F) VO2_3.junk (kernelRun2_B c i arg2 harg2 arg3 harg3 arg4 harg4 arg5 harg5 arg6 harg6 hc0 hc1 x0 x1 x2 xs0).1)

theorem scover2_B_0 (y : S2048x64.Idx) : ∃ pc ∈ (kernelRun2_B c i arg2 harg2 arg3 harg3 arg4 harg4 arg5 harg5 arg6 harg6 hc0 hc1 x0 x1 x2 xs0).2.1, y ∈ pc.1.set :=
  View.cover_of_tiledL _ S2048x64.size (by sl_kernel_rfl) y

def sout2_B_0 : Vec F S2048x64 .f32 :=
  VS2_0.read (Elt F) (VS2_0.writes (Elt F) VS2_0.junk (kernelRun2_B c i arg2 harg2 arg3 harg3 arg4 harg4 arg5 harg5 arg6 harg6 hc0 hc1 x0 x1 x2 xs0).2.1)

end

section
variable (hc0 : ¬cond2_0 i) (hc1 : cond2_1 i) (x0 : Vec F S2048x2048 .bf16) (x1 : Vec F S2048x64 .f32) (x2 : Vec F S2048x1 .f32) (xs0 : Vec F S2048x64 .f32)

set_option maxHeartbeats 1000000 in
def kernelRun2_C :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    rw [owns_eq_unread (c : Thread nD τ) harg2, owns_eq_unread (c : Thread nD τ) harg3, owns_eq_unread (c : Thread nD τ) harg4, owns_eq_unread (c : Thread nD τ) harg6]; unfold owns
    iintro ⟨H0, H1, H2, ⟨%d3, %f3, -, H3⟩, HS0, Hk⟩
    sl_exec (disch := first | exact hc0 | exact hc1)
    sl_step
    iapply Hk; iframe H0 H1 H2
    isplitl [H3]; · iexists _; iexact H3
    iexists _; iexact HS0

def out2_C_3 : Vec F S2048x64 .f32 :=
  VO2_3.read (Elt F) (VO2_3.writes (Elt F) VO2_3.junk (kernelRun2_C c i arg2 harg2 arg3 harg3 arg4 harg4 arg5 harg5 arg6 harg6 hc0 hc1 x0 x1 x2 xs0).1)

theorem cover2_C_3 (y : S2048x64.Idx) : ∃ pc ∈ (kernelRun2_C c i arg2 harg2 arg3 harg3 arg4 harg4 arg5 harg5 arg6 harg6 hc0 hc1 x0 x1 x2 xs0).1, y ∈ pc.1.set :=
  View.cover_of_tiledL _ S2048x64.size (by sl_kernel_rfl) y

theorem scover2_C_0 (y : S2048x64.Idx) : ∃ pc ∈ (kernelRun2_C c i arg2 harg2 arg3 harg3 arg4 harg4 arg5 harg5 arg6 harg6 hc0 hc1 x0 x1 x2 xs0).2.1, y ∈ pc.1.set :=
  View.cover_of_tiledL _ S2048x64.size (by sl_kernel_rfl) y

def sout2_C_0 : Vec F S2048x64 .f32 :=
  VS2_0.read (Elt F) (VS2_0.writes (Elt F) VS2_0.junk (kernelRun2_C c i arg2 harg2 arg3 harg3 arg4 harg4 arg5 harg5 arg6 harg6 hc0 hc1 x0 x1 x2 xs0).2.1)

end

end

/-- What a point leaves in the output block and in the accumulator, given what the accumulator held before it. -/
def step2 (c : Dev nD) (t : Fin cfg2.N) (xs : Vec F S2048x64 .f32) : Vec F S2048x64 .f32 × Vec F S2048x64 .f32 :=
  if h0 : t.val % 4 = 0 then (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => by have := (hcond2_1 t).mp h; omega) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => by have := (hcond2_1 t).mp h; omega) (iblk2 V c 0 t) (iblk2 V c 1 t) (iblk2 V c 2 t))
  else if h1 : t.val % 4 = 3 then (out2_C_3 c (grid2.coords t) (ms2_0 t) (hs2_0 t) (ms2_1 t) (hs2_1 t) (ms2_2 t) (hs2_2 t) (ms2_3 t) (hs2_3 t) scM2_0 (Memref.isWhole_whole _) (mt (hcond2_0 t).mp h0) ((hcond2_1 t).mpr h1) (iblk2 V c 0 t) (iblk2 V c 1 t) (iblk2 V c 2 t) xs, sout2_C_0 c (grid2.coords t) (ms2_0 t) (hs2_0 t) (ms2_1 t) (hs2_1 t) (ms2_2 t) (hs2_2 t) (ms2_3 t) (hs2_3 t) scM2_0 (Memref.isWhole_whole _) (mt (hcond2_0 t).mp h0) ((hcond2_1 t).mpr h1) (iblk2 V c 0 t) (iblk2 V c 1 t) (iblk2 V c 2 t) xs)
  else (out2_B_3 c (grid2.coords t) (ms2_0 t) (hs2_0 t) (ms2_1 t) (hs2_1 t) (ms2_2 t) (hs2_2 t) (ms2_3 t) (hs2_3 t) scM2_0 (Memref.isWhole_whole _) (mt (hcond2_0 t).mp h0) (mt (hcond2_1 t).mp h1) (iblk2 V c 0 t) (iblk2 V c 1 t) (iblk2 V c 2 t) xs, sout2_B_0 c (grid2.coords t) (ms2_0 t) (hs2_0 t) (ms2_1 t) (hs2_1 t) (ms2_2 t) (hs2_2 t) (ms2_3 t) (hs2_3 t) scM2_0 (Memref.isWhole_whole _) (mt (hcond2_0 t).mp h0) (mt (hcond2_1 t).mp h1) (iblk2 V c 0 t) (iblk2 V c 1 t) (iblk2 V c 2 t) xs)

def outsAt2 (c : Dev nD) : (n : ℕ) → n < cfg2.N → Vec F S2048x64 .f32 × Vec F S2048x64 .f32
  | 0, hn => step2 V c ⟨0, hn⟩ (VS2_0.read (Elt F) VS2_0.junk)
  | n + 1, hn => step2 V c ⟨n + 1, hn⟩ (outsAt2 c n (Nat.lt_of_succ_lt hn)).2

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => rfl
  | succ n => exact (dif_pos h0).trans rfl

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- Before point `n + 1` the accumulator holds what point `n` left in it. -/
def PhiS2 (c : Dev nD) : (n : ℕ) → n ≤ cfg2.N → sProp 𝕄
  | 0, _ => Pipeline.ΦA spec2 c
  | n + 1, hn => iprop(iprop(iprop(owns c scM2_0 fullShare ((outsAt2 V c n hn).2)) ∗ restBut2 (F := F) c) ∗ (∃ r, prngReg c r))

theorem PhiS2_pos (c : Dev nD) : ∀ (n : ℕ) (h : n ≤ cfg2.N) (hz : n ≠ 0),
    PhiS2 V c n h = iprop(iprop(iprop(owns c scM2_0 fullShare ((outsAt2 V c (n - 1) (by omega)).2)) ∗ restBut2 (F := F) c) ∗ (∃ r, prngReg c r))
  | 0, _, hz => absurd rfl hz
  | _ + 1, _, _ => rfl

theorem PhiS2_out (c : Dev nD) : ∀ (n : ℕ) (h : n ≤ cfg2.N), PhiS2 V c n h ⊢ (Pipeline.ΦA spec2 c : sProp 𝕄)
  | 0, _ => Entails.refl _
  | n + 1, h => by
    rw [PhiA2_eq]; unfold PhiS2
    iintro ⟨⟨HS0, Hr⟩, Hg⟩; iframe Hr Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = (outsAt2 V c t.val t.isLt).1 := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop(PhiS2 V c t.val (Nat.le_of_lt t.isLt) ∗ (dat2 V c).owesAt () t.castSucc
    ∗ (∃ d, owns c (ms2_0 t) fullShare ((dat2 V c).before 0 t d))
    ∗ (∃ d, owns c (ms2_1 t) fullShare ((dat2 V c).before 1 t d))
    ∗ (∃ d, owns c (ms2_2 t) fullShare ((dat2 V c).before 2 t d))
    ∗ (∃ d, owns c (ms2_3 t) fullShare ((dat2 V c).before 3 t d)))

def bodyPost2 (c : Dev nD) (t : Fin cfg2.N) : sProp 𝕄 :=
  iprop(iprop(iprop(iprop(owns c scM2_0 fullShare ((outsAt2 V c t.val t.isLt).2)) ∗ restBut2 (F := F) c) ∗ (∃ r, prngReg c r)) ∗ (dat2 V c).owesAt () t.castSucc
    ∗ owns c (ms2_0 t) fullShare (iblk2 V c 0 t)
    ∗ owns c (ms2_1 t) fullShare (iblk2 V c 1 t)
    ∗ owns c (ms2_2 t) fullShare (iblk2 V c 2 t)
    ∗ (dat2 V c).leavesExact 3 t)

set_option maxHeartbeats 400000 in
/-- `t % 4` selects the case: the accumulator restarts at 0, adds the product of the point's two blocks, and at 3 is scaled into the output block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  by_cases h1 : t.val % 4 = 3
  · have h0 : ¬t.val % 4 = 0 := by omega
    have hz : t.val ≠ 0 := by omega
    rw [leavesExact_live (dat2 V c) 3 t (liveAt2_3 t h1), after2_3, outsAt2_C V c t h0 h1, PhiS2_pos V c _ _ hz]
    unfold out2_C_3 sout2_C_0; dsimp only
    iintro ⟨⟨⟨HS0, Hr⟩, Hg⟩, Ho, ⟨%d0, H0⟩, ⟨%d1, H1⟩, ⟨%d2, H2⟩, ⟨%d3, H3⟩⟩
    iapply ((kernelRun2_C c (grid2.coords t) _ _ _ _ _ _ _ _ _ _ (mt (hcond2_0 t).mp h0) ((hcond2_1 t).mpr h1) (iblk2 V c 0 t) (iblk2 V c 1 t) (iblk2 V c 2 t) _).2.2 Set.univ _)
    iframe H0 H1 H2
    isplitl [H3]; · iexists _; iexact H3
    isplitl [HS0]; · iexact HS0
    iintro ⟨H0, H1, H2, H3, HS0⟩
    iframe Hr Hg Ho H0 H1 H2
    isplitl [HS0]; · iapply owns_writes_of_cover _ _ _ _ _ _ (scover2_C_0 _ _ _ _ _ _ _ _ _ _ _ _ _ _ _ _ _ _); iexact HS0
    iapply owns_writes_of_cover _ _ _ _ _ _ (cover2_C_3 _ _ _ _ _ _ _ _ _ _ _ _ _ _ _ _ _ _); iexact H3
  rw [Dat.leavesExact_idle (dat2 V c) 3 t (idleAt2_3 t h1) (Bool.eq_false_iff.mpr fun h => h1 ((flush2_3 t).mp h))]
  by_cases h0 : t.val % 4 = 0
  · refine (sep_mono_left (PhiS2_out V c _ _)).trans ?_
    rw [PhiA2_eq, outsAt2_A V c t h0 h1]
    unfold sout2_A_0; dsimp only
    iintro ⟨⟨⟨HS0, Hr⟩, Hg⟩, Ho, ⟨%d0, H0⟩, ⟨%d1, H1⟩, ⟨%d2, H2⟩, ⟨%d3, H3⟩⟩
    iapply ((kernelRun2_A c (grid2.coords t) _ _ _ _ _ _ _ _ _ _ ((hcond2_0 t).mpr h0) (mt (hcond2_1 t).mp h1) (iblk2 V c 0 t) (iblk2 V c 1 t) (iblk2 V c 2 t)).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover2_A_0 _ _ _ _ _ _ _ _ _ _ _ _ _ _ _ _ _); iexact HS0
    iexists _; iexact H3
  · have hz : t.val ≠ 0 := fun h => h0 (by rw [h])
    rw [outsAt2_B V c t h0 h1, PhiS2_pos V c _ _ hz]
    unfold sout2_B_0; dsimp only
    iintro ⟨⟨⟨HS0, Hr⟩, Hg⟩, Ho, ⟨%d0, H0⟩, ⟨%d1, H1⟩, ⟨%d2, H2⟩, ⟨%d3, H3⟩⟩
    iapply ((kernelRun2_B c (grid2.coords t) _ _ _ _ _ _ _ _ _ _ (mt (hcond2_0 t).mp h0) (mt (hcond2_1 t).mp h1) (iblk2 V c 0 t) (iblk2 V c 1 t) (iblk2 V c 2 t) _).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover2_B_0 _ _ _ _ _ _ _ _ _ _ _ _ _ _ _ _ _ _); iexact HS0
    iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Entails.refl _

theorem hout2 (c : Dev nD) : (dat2 V c).Φ (Fin.last cfg2.N) ⊢ (Pipeline.ΦA spec2 c : sProp 𝕄) := PhiS2_out V c _ (Nat.le_refl _)

end Cert.Kernel.Hand

end
-- ==== Proof.K.R3.lean ====
import proofs.«134441_j56014963474691_1_alg».proof.Proof.Gen.Kernel.Launch
import proofs.«134441_j56014963474691_1_alg».proof.Proof.Gen.Kernel.Skeleton
import proofs.«134441_j56014963474691_1_alg».proof.Proof.Gen.Kernel.Points
import proofs.«134441_j56014963474691_1_alg».proof.Proof.LibBody
import Idealize.ShloMosaic.Lib.Ring
import Idealize.ShloMosaic.Lib.Tactic

set_option maxRecDepth 16384

noncomputable section

namespace Cert.Kernel.Hand

open Cert.Kernel Cert.Kernel.Gen Cert.LibBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-- The output block is written only at the last step of each reduction. -/
theorem idleAt3_3 : ∀ t : Fin cfg3.N, ¬t.val % 4 = 3 → cfg3.idle 3 (grid3.coords t) = true := by decide +kernel
theorem liveAt3_3 : ∀ t : Fin cfg3.N, t.val % 4 = 3 → cfg3.idle 3 (grid3.coords t) = false := by decide +kernel

abbrev VO3_3 : View sig .tc .vmem S2048x64 .f32 := (Memref.whole cc3_stg3_0 : Memref sig .tc .vmem S2048x64 .f32).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x64 .f32 := win3_3.stage (cfg3.slots t 3)
abbrev hs3_3 (t : Fin cfg3.N) : (ms3_3 t).IsWhole := hstage3_3 ((cfg3.slots t 3).cast nbuf3_3)
abbrev scM3_0 : Memref sig .tc .vmem S2048x64 .f32 := Memref.whole cc3_scratch0
abbrev VS3_0 : View sig .tc .vmem S2048x64 .f32 := scM3_0.view

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns c scM3_0 fullShare d)) ∗ restBut3 (F := F) c) ∗ (∃ r, prngReg c r)) := by
  unfold Pipeline.ΦA; rw [scopedRest3_split]; simp only [scM3_0, owns_whole]; try rfl

section
variable (c : Dev nD) (i : grid3.Coords) (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole)

section
variable (hc0 : cond3_0 i) (hc1 : ¬cond3_1 i) (x0 : Vec F S2048x2048 .bf16) (x1 : Vec F S2048x64 .f32) (x2 : Vec F S2048x1 .f32)

set_option maxHeartbeats 1000000 in
def kernelRun3_A :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    rw [owns_eq_unread (c : Thread nD τ) harg2, owns_eq_unread (c : Thread nD τ) harg3, owns_eq_unread (c : Thread nD τ) harg4, owns_eq_unread (c : Thread nD τ) harg5]; unfold owns
    iintro ⟨H0, H1, H2, H3, ⟨%ds0, %fs0, -, HS0⟩, Hk⟩
    sl_exec (disch := first | exact hc0 | exact hc1)
    sl_step
    iapply Hk; iframe H0 H1 H2 H3
    iexists _; iexact HS0

def out3_A_3 : Vec F S2048x64 .f32 :=
  VO3_3.read (Elt F) (VO3_3.writes (Elt F) VO3_3.junk (kernelRun3_A c i arg2 harg2 arg3 harg3 arg4 harg4 arg5 harg5 arg6 harg6 hc0 hc1 x0 x1 x2).1)

theorem scover3_A_0 (y : S2048x64.Idx) : ∃ pc ∈ (kernelRun3_A c i arg2 harg2 arg3 harg3 arg4 harg4 arg5 harg5 arg6 harg6 hc0 hc1 x0 x1 x2).2.1, y ∈ pc.1.set :=
  View.cover_of_tiledL _ S2048x64.size (by sl_kernel_rfl) y

def sout3_A_0 : Vec F S2048x64 .f32 :=
  VS3_0.read (Elt F) (VS3_0.writes (Elt F) VS3_0.junk (kernelRun3_A c i arg2 harg2 arg3 harg3 arg4 harg4 arg5 harg5 arg6 harg6 hc0 hc1 x0 x1 x2).2.1)

end

section
variable (hc0 : ¬cond3_0 i) (hc1 : ¬cond3_1 i) (x0 : Vec F S2048x2048 .bf16) (x1 : Vec F S2048x64 .f32) (x2 : Vec F S2048x1 .f32) (xs0 : Vec F S2048x64 .f32)

set_option maxHeartbeats 1000000 in
def kernelRun3_B :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    rw [owns_eq_unread (c : Thread nD τ) harg2, owns_eq_unread (c : Thread nD τ) harg3, owns_eq_unread (c : Thread nD τ) harg4, owns_eq_unread (c : Thread nD τ) harg5, owns_eq_unread (c : Thread nD τ) harg6]
    iintro ⟨H0, H1, H2, H3, HS0, Hk⟩
    sl_exec (disch := first | exact hc0 | exact hc1)
    sl_step
    iapply Hk; iframe H0 H1 H2 H3
    iexists _; iexact HS0

def out3_B_3 : Vec F S2048x64 .f32 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (y : S2048x64.Idx) : ∃ pc ∈ (kernelRun3_B c i arg2 harg2 arg3 harg3 arg4 harg4 arg5 harg5 arg6 harg6 hc0 hc1 x0 x1 x2 xs0).2.1, y ∈ pc.1.set :=
  View.cover_of_tiledL _ S2048x64.size (by sl_kernel_rfl) y

def sout3_B_0 : Vec F S2048x64 .f32 :=
  VS3_0.read (Elt F) (VS3_0.writes (Elt F) VS3_0.junk (kernelRun3_B c i arg2 harg2 arg3 harg3 arg4 harg4 arg5 harg5 arg6 harg6 hc0 hc1 x0 x1 x2 xs0).2.1)

end

section
variable (hc0 : ¬cond3_0 i) (hc1 : cond3_1 i) (x0 : Vec F S2048x2048 .bf16) (x1 : Vec F S2048x64 .f32) (x2 : Vec F S2048x1 .f32) (xs0 : Vec F S2048x64 .f32)

set_option maxHeartbeats 1000000 in
def kernelRun3_C :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    rw [owns_eq_unread (c : Thread nD τ) harg2, owns_eq_unread (c : Thread nD τ) harg3, owns_eq_unread (c : Thread nD τ) harg4, owns_eq_unread (c : Thread nD τ) harg6]; unfold owns
    iintro ⟨H0, H1, H2, ⟨%d3, %f3, -, H3⟩, HS0, Hk⟩
    sl_exec (disch := first | exact hc0 | exact hc1)
    sl_step
    iapply Hk; iframe H0 H1 H2
    isplitl [H3]; · iexists _; iexact H3
    iexists _; iexact HS0

def out3_C_3 : Vec F S2048x64 .f32 :=
  VO3_3.read (Elt F) (VO3_3.writes (Elt F) VO3_3.junk (kernelRun3_C c i arg2 harg2 arg3 harg3 arg4 harg4 arg5 harg5 arg6 harg6 hc0 hc1 x0 x1 x2 xs0).1)

theorem cover3_C_3 (y : S2048x64.Idx) : ∃ pc ∈ (kernelRun3_C c i arg2 harg2 arg3 harg3 arg4 harg4 arg5 harg5 arg6 harg6 hc0 hc1 x0 x1 x2 xs0).1, y ∈ pc.1.set :=
  View.cover_of_tiledL _ S2048x64.size (by sl_kernel_rfl) y

theorem scover3_C_0 (y : S2048x64.Idx) : ∃ pc ∈ (kernelRun3_C c i arg2 harg2 arg3 harg3 arg4 harg4 arg5 harg5 arg6 harg6 hc0 hc1 x0 x1 x2 xs0).2.1, y ∈ pc.1.set :=
  View.cover_of_tiledL _ S2048x64.size (by sl_kernel_rfl) y

def sout3_C_0 : Vec F S2048x64 .f32 :=
  VS3_0.read (Elt F) (VS3_0.writes (Elt F) VS3_0.junk (kernelRun3_C c i arg2 harg2 arg3 harg3 arg4 harg4 arg5 harg5 arg6 harg6 hc0 hc1 x0 x1 x2 xs0).2.1)

end

end

/-- What a point leaves in the output block and in the accumulator, given what the accumulator held before it. -/
def step3 (c : Dev nD) (t : Fin cfg3.N) (xs : Vec F S2048x64 .f32) : Vec F S2048x64 .f32 × Vec F S2048x64 .f32 :=
  if h0 : t.val % 4 = 0 then (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => by have := (hcond3_1 t).mp h; omega) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => by have := (hcond3_1 t).mp h; omega) (iblk3 V c 0 t) (iblk3 V c 1 t) (iblk3 V c 2 t))
  else if h1 : t.val % 4 = 3 then (out3_C_3 c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) xs, sout3_C_0 c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) xs)
  else (out3_B_3 c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) xs, sout3_B_0 c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) xs)

def outsAt3 (c : Dev nD) : (n : ℕ) → n < cfg3.N → Vec F S2048x64 .f32 × Vec F S2048x64 .f32
  | 0, hn => step3 V c ⟨0, hn⟩ (VS3_0.read (Elt F) VS3_0.junk)
  | n + 1, hn => step3 V c ⟨n + 1, hn⟩ (outsAt3 c n (Nat.lt_of_succ_lt hn)).2

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => rfl
  | succ n => exact (dif_pos h0).trans rfl

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- Before point `n + 1` the accumulator holds what point `n` left in it. -/
def PhiS3 (c : Dev nD) : (n : ℕ) → n ≤ cfg3.N → sProp 𝕄
  | 0, _ => Pipeline.ΦA spec3 c
  | n + 1, hn => iprop(iprop(iprop(owns c scM3_0 fullShare ((outsAt3 V c n hn).2)) ∗ restBut3 (F := F) c) ∗ (∃ r, prngReg c r))

theorem PhiS3_pos (c : Dev nD) : ∀ (n : ℕ) (h : n ≤ cfg3.N) (hz : n ≠ 0),
    PhiS3 V c n h = iprop(iprop(iprop(owns c scM3_0 fullShare ((outsAt3 V c (n - 1) (by omega)).2)) ∗ restBut3 (F := F) c) ∗ (∃ r, prngReg c r))
  | 0, _, hz => absurd rfl hz
  | _ + 1, _, _ => rfl

theorem PhiS3_out (c : Dev nD) : ∀ (n : ℕ) (h : n ≤ cfg3.N), PhiS3 V c n h ⊢ (Pipeline.ΦA spec3 c : sProp 𝕄)
  | 0, _ => Entails.refl _
  | n + 1, h => by
    rw [PhiA3_eq]; unfold PhiS3
    iintro ⟨⟨HS0, Hr⟩, Hg⟩; iframe Hr Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop(PhiS3 V c t.val (Nat.le_of_lt t.isLt) ∗ (dat3 V c).owesAt () t.castSucc
    ∗ (∃ d, owns c (ms3_0 t) fullShare ((dat3 V c).before 0 t d))
    ∗ (∃ d, owns c (ms3_1 t) fullShare ((dat3 V c).before 1 t d))
    ∗ (∃ d, owns c (ms3_2 t) fullShare ((dat3 V c).before 2 t d))
    ∗ (∃ d, owns c (ms3_3 t) fullShare ((dat3 V c).before 3 t d)))

def bodyPost3 (c : Dev nD) (t : Fin cfg3.N) : sProp 𝕄 :=
  iprop(iprop(iprop(iprop(owns c scM3_0 fullShare ((outsAt3 V c t.val t.isLt).2)) ∗ restBut3 (F := F) c) ∗ (∃ r, prngReg c r)) ∗ (dat3 V c).owesAt () t.castSucc
    ∗ owns c (ms3_0 t) fullShare (iblk3 V c 0 t)
    ∗ owns c (ms3_1 t) fullShare (iblk3 V c 1 t)
    ∗ owns c (ms3_2 t) fullShare (iblk3 V c 2 t)
    ∗ (dat3 V c).leavesExact 3 t)

set_option maxHeartbeats 400000 in
/-- `t % 4` selects the case: the accumulator restarts at 0, adds the product of the point's two blocks, and at 3 is scaled into the output block. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  by_cases h1 : t.val % 4 = 3
  · have h0 : ¬t.val % 4 = 0 := by omega
    have hz : t.val ≠ 0 := by omega
    rw [leavesExact_live (dat3 V c) 3 t (liveAt3_3 t h1), after3_3, outsAt3_C V c t h0 h1, PhiS3_pos V c _ _ hz]
    unfold out3_C_3 sout3_C_0; dsimp only
    iintro ⟨⟨⟨HS0, Hr⟩, Hg⟩, Ho, ⟨%d0, H0⟩, ⟨%d1, H1⟩, ⟨%d2, H2⟩, ⟨%d3, H3⟩⟩
    iapply ((kernelRun3_C c (grid3.coords t) _ _ _ _ _ _ _ _ _ _ (mt (hcond3_0 t).mp h0) ((hcond3_1 t).mpr h1) (iblk3 V c 0 t) (iblk3 V c 1 t) (iblk3 V c 2 t) _).2.2 Set.univ _)
    iframe H0 H1 H2
    isplitl [H3]; · iexists _; iexact H3
    isplitl [HS0]; · iexact HS0
    iintro ⟨H0, H1, H2, H3, HS0⟩
    iframe Hr Hg Ho H0 H1 H2
    isplitl [HS0]; · iapply owns_writes_of_cover _ _ _ _ _ _ (scover3_C_0 _ _ _ _ _ _ _ _ _ _ _ _ _ _ _ _ _ _); iexact HS0
    iapply owns_writes_of_cover _ _ _ _ _ _ (cover3_C_3 _ _ _ _ _ _ _ _ _ _ _ _ _ _ _ _ _ _); iexact H3
  rw [Dat.leavesExact_idle (dat3 V c) 3 t (idleAt3_3 t h1) (Bool.eq_false_iff.mpr fun h => h1 ((flush3_3 t).mp h))]
  by_cases h0 : t.val % 4 = 0
  · refine (sep_mono_left (PhiS3_out V c _ _)).trans ?_
    rw [PhiA3_eq, outsAt3_A V c t h0 h1]
    unfold sout3_A_0; dsimp only
    iintro ⟨⟨⟨HS0, Hr⟩, Hg⟩, Ho, ⟨%d0, H0⟩, ⟨%d1, H1⟩, ⟨%d2, H2⟩, ⟨%d3, H3⟩⟩
    iapply ((kernelRun3_A c (grid3.coords t) _ _ _ _ _ _ _ _ _ _ ((hcond3_0 t).mpr h0) (mt (hcond3_1 t).mp h1) (iblk3 V c 0 t) (iblk3 V c 1 t) (iblk3 V c 2 t)).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover3_A_0 _ _ _ _ _ _ _ _ _ _ _ _ _ _ _ _ _); iexact HS0
    iexists _; iexact H3
  · have hz : t.val ≠ 0 := fun h => h0 (by rw [h])
    rw [outsAt3_B V c t h0 h1, PhiS3_pos V c _ _ hz]
    unfold sout3_B_0; dsimp only
    iintro ⟨⟨⟨HS0, Hr⟩, Hg⟩, Ho, ⟨%d0, H0⟩, ⟨%d1, H1⟩, ⟨%d2, H2⟩, ⟨%d3, H3⟩⟩
    iapply ((kernelRun3_B c (grid3.coords t) _ _ _ _ _ _ _ _ _ _ (mt (hcond3_0 t).mp h0) (mt (hcond3_1 t).mp h1) (iblk3 V c 0 t) (iblk3 V c 1 t) (iblk3 V c 2 t) _).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover3_B_0 _ _ _ _ _ _ _ _ _ _ _ _ _ _ _ _ _ _); iexact HS0
    iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := Entails.refl _

theorem hout3 (c : Dev nD) : (dat3 V c).Φ (Fin.last cfg3.N) ⊢ (Pipeline.ΦA spec3 c : sProp 𝕄) := PhiS3_out V c _ (Nat.le_refl _)

end Cert.Kernel.Hand

end
-- ==== Proof.K.R4.lean ====
import proofs.«134441_j56014963474691_1_alg».proof.Proof.Gen.Kernel.Launch
import proofs.«134441_j56014963474691_1_alg».proof.Proof.Gen.Kernel.Skeleton
import proofs.«134441_j56014963474691_1_alg».proof.Proof.Gen.Kernel.Points
import proofs.«134441_j56014963474691_1_alg».proof.Proof.LibBody
import Idealize.ShloMosaic.Lib.Ring
import Idealize.ShloMosaic.Lib.Tactic

set_option maxRecDepth 16384

noncomputable section

namespace Cert.Kernel.Hand

open Cert.Kernel Cert.Kernel.Gen Cert.LibBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-- The output block is written only at the last step of each reduction. -/
theorem idleAt4_3 : ∀ t : Fin cfg4.N, ¬t.val % 4 = 3 → cfg4.idle 3 (grid4.coords t) = true := by decide +kernel
theorem liveAt4_3 : ∀ t : Fin cfg4.N, t.val % 4 = 3 → cfg4.idle 3 (grid4.coords t) = false := by decide +kernel

abbrev VO4_3 : View sig .tc .vmem S2048x64 .f32 := (Memref.whole cc4_stg3_0 : Memref sig .tc .vmem S2048x64 .f32).view
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x64 .f32 := win4_3.stage (cfg4.slots t 3)
abbrev hs4_3 (t : Fin cfg4.N) : (ms4_3 t).IsWhole := hstage4_3 ((cfg4.slots t 3).cast nbuf4_3)
abbrev scM4_0 : Memref sig .tc .vmem S2048x64 .f32 := Memref.whole cc4_scratch0
abbrev VS4_0 : View sig .tc .vmem S2048x64 .f32 := scM4_0.view

abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns c scM4_0 fullShare d)) ∗ restBut4 (F := F) c) ∗ (∃ r, prngReg c r)) := by
  unfold Pipeline.ΦA; rw [scopedRest4_split]; simp only [scM4_0, owns_whole]; try rfl

section
variable (c : Dev nD) (i : grid4.Coords) (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole)

section
variable (hc0 : cond4_0 i) (hc1 : ¬cond4_1 i) (x0 : Vec F S2048x2048 .bf16) (x1 : Vec F S2048x64 .f32) (x2 : Vec F S2048x1 .f32)

set_option maxHeartbeats 1000000 in
def kernelRun4_A :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_kernel i arg2 harg2 arg3 harg3 arg4 harg4 arg5 harg5 arg6 harg6) K } := by
  refine ⟨[], ?_, fun xi3 E K => ?run⟩
  case run =>
    simp only [cc4_kernel_eq_skeleton]; unfold cc4_kernel_skel
    rw [owns_eq_unread (c : Thread nD τ) harg2, owns_eq_unread (c : Thread nD τ) harg3, owns_eq_unread (c : Thread nD τ) harg4, owns_eq_unread (c : Thread nD τ) harg5]; unfold owns
    iintro ⟨H0, H1, H2, H3, ⟨%ds0, %fs0, -, HS0⟩, Hk⟩
    sl_exec (disch := first | exact hc0 | exact hc1)
    sl_step
    iapply Hk; iframe H0 H1 H2 H3
    iexists _; iexact HS0

def out4_A_3 : Vec F S2048x64 .f32 :=
  VO4_3.read (Elt F) (VO4_3.writes (Elt F) VO4_3.junk (kernelRun4_A c i arg2 harg2 arg3 harg3 arg4 harg4 arg5 harg5 arg6 harg6 hc0 hc1 x0 x1 x2).1)

theorem scover4_A_0 (y : S2048x64.Idx) : ∃ pc ∈ (kernelRun4_A c i arg2 harg2 arg3 harg3 arg4 harg4 arg5 harg5 arg6 harg6 hc0 hc1 x0 x1 x2).2.1, y ∈ pc.1.set :=
  View.cover_of_tiledL _ S2048x64.size (by sl_kernel_rfl) y

def sout4_A_0 : Vec F S2048x64 .f32 :=
  VS4_0.read (Elt F) (VS4_0.writes (Elt F) VS4_0.junk (kernelRun4_A c i arg2 harg2 arg3 harg3 arg4 harg4 arg5 harg5 arg6 harg6 hc0 hc1 x0 x1 x2).2.1)

end

section
variable (hc0 : ¬cond4_0 i) (hc1 : ¬cond4_1 i) (x0 : Vec F S2048x2048 .bf16) (x1 : Vec F S2048x64 .f32) (x2 : Vec F S2048x1 .f32) (xs0 : Vec F S2048x64 .f32)

set_option maxHeartbeats 1000000 in
def kernelRun4_B :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_kernel i arg2 harg2 arg3 harg3 arg4 harg4 arg5 harg5 arg6 harg6) K } := by
  refine ⟨[], ?_, fun xi3 E K => ?run⟩
  case run =>
    simp only [cc4_kernel_eq_skeleton]; unfold cc4_kernel_skel
    rw [owns_eq_unread (c : Thread nD τ) harg2, owns_eq_unread (c : Thread nD τ) harg3, owns_eq_unread (c : Thread nD τ) harg4, owns_eq_unread (c : Thread nD τ) harg5, owns_eq_unread (c : Thread nD τ) harg6]
    iintro ⟨H0, H1, H2, H3, HS0, Hk⟩
    sl_exec (disch := first | exact hc0 | exact hc1)
    sl_step
    iapply Hk; iframe H0 H1 H2 H3
    iexists _; iexact HS0

def out4_B_3 : Vec F S2048x64 .f32 :=
  VO4_3.read (Elt F) (VO4_3.writes (Elt F) VO4_3.junk (kernelRun4_B c i arg2 harg2 arg3 harg3 arg4 harg4 arg5 harg5 arg6 harg6 hc0 hc1 x0 x1 x2 xs0).1)

theorem scover4_B_0 (y : S2048x64.Idx) : ∃ pc ∈ (kernelRun4_B c i arg2 harg2 arg3 harg3 arg4 harg4 arg5 harg5 arg6 harg6 hc0 hc1 x0 x1 x2 xs0).2.1, y ∈ pc.1.set :=
  View.cover_of_tiledL _ S2048x64.size (by sl_kernel_rfl) y

def sout4_B_0 : Vec F S2048x64 .f32 :=
  VS4_0.read (Elt F) (VS4_0.writes (Elt F) VS4_0.junk (kernelRun4_B c i arg2 harg2 arg3 harg3 arg4 harg4 arg5 harg5 arg6 harg6 hc0 hc1 x0 x1 x2 xs0).2.1)

end

section
variable (hc0 : ¬cond4_0 i) (hc1 : cond4_1 i) (x0 : Vec F S2048x2048 .bf16) (x1 : Vec F S2048x64 .f32) (x2 : Vec F S2048x1 .f32) (xs0 : Vec F S2048x64 .f32)

set_option maxHeartbeats 1000000 in
def kernelRun4_C :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4_kernel i arg2 harg2 arg3 harg3 arg4 harg4 arg5 harg5 arg6 harg6) K } := by
  refine ⟨?_, ?_, fun E K => ?run⟩
  case run =>
    simp only [cc4_kernel_eq_skeleton]; unfold cc4_kernel_skel
    rw [owns_eq_unread (c : Thread nD τ) harg2, owns_eq_unread (c : Thread nD τ) harg3, owns_eq_unread (c : Thread nD τ) harg4, owns_eq_unread (c : Thread nD τ) harg6]; unfold owns
    iintro ⟨H0, H1, H2, ⟨%d3, %f3, -, H3⟩, HS0, Hk⟩
    sl_exec (disch := first | exact hc0 | exact hc1)
    sl_step
    iapply Hk; iframe H0 H1 H2
    isplitl [H3]; · iexists _; iexact H3
    iexists _; iexact HS0

def out4_C_3 : Vec F S2048x64 .f32 :=
  VO4_3.read (Elt F) (VO4_3.writes (Elt F) VO4_3.junk (kernelRun4_C c i arg2 harg2 arg3 harg3 arg4 harg4 arg5 harg5 arg6 harg6 hc0 hc1 x0 x1 x2 xs0).1)

theorem cover4_C_3 (y : S2048x64.Idx) : ∃ pc ∈ (kernelRun4_C c i arg2 harg2 arg3 harg3 arg4 harg4 arg5 harg5 arg6 harg6 hc0 hc1 x0 x1 x2 xs0).1, y ∈ pc.1.set :=
  View.cover_of_tiledL _ S2048x64.size (by sl_kernel_rfl) y

theorem scover4_C_0 (y : S2048x64.Idx) : ∃ pc ∈ (kernelRun4_C c i arg2 harg2 arg3 harg3 arg4 harg4 arg5 harg5 arg6 harg6 hc0 hc1 x0 x1 x2 xs0).2.1, y ∈ pc.1.set :=
  View.cover_of_tiledL _ S2048x64.size (by sl_kernel_rfl) y

def sout4_C_0 : Vec F S2048x64 .f32 :=
  VS4_0.read (Elt F) (VS4_0.writes (Elt F) VS4_0.junk (kernelRun4_C c i arg2 harg2 arg3 harg3 arg4 harg4 arg5 harg5 arg6 harg6 hc0 hc1 x0 x1 x2 xs0).2.1)

end

end

/-- What a point leaves in the output block and in the accumulator, given what the accumulator held before it. -/
def step4 (c : Dev nD) (t : Fin cfg4.N) (xs : Vec F S2048x64 .f32) : Vec F S2048x64 .f32 × Vec F S2048x64 .f32 :=
  if h0 : t.val % 4 = 0 then (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => by have := (hcond4_1 t).mp h; omega) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => by have := (hcond4_1 t).mp h; omega) (iblk4 V c 0 t) (iblk4 V c 1 t) (iblk4 V c 2 t))
  else if h1 : t.val % 4 = 3 then (out4_C_3 c (grid4.coords t) (ms4_0 t) (hs4_0 t) (ms4_1 t) (hs4_1 t) (ms4_2 t) (hs4_2 t) (ms4_3 t) (hs4_3 t) scM4_0 (Memref.isWhole_whole _) (mt (hcond4_0 t).mp h0) ((hcond4_1 t).mpr h1) (iblk4 V c 0 t) (iblk4 V c 1 t) (iblk4 V c 2 t) xs, sout4_C_0 c (grid4.coords t) (ms4_0 t) (hs4_0 t) (ms4_1 t) (hs4_1 t) (ms4_2 t) (hs4_2 t) (ms4_3 t) (hs4_3 t) scM4_0 (Memref.isWhole_whole _) (mt (hcond4_0 t).mp h0) ((hcond4_1 t).mpr h1) (iblk4 V c 0 t) (iblk4 V c 1 t) (iblk4 V c 2 t) xs)
  else (out4_B_3 c (grid4.coords t) (ms4_0 t) (hs4_0 t) (ms4_1 t) (hs4_1 t) (ms4_2 t) (hs4_2 t) (ms4_3 t) (hs4_3 t) scM4_0 (Memref.isWhole_whole _) (mt (hcond4_0 t).mp h0) (mt (hcond4_1 t).mp h1) (iblk4 V c 0 t) (iblk4 V c 1 t) (iblk4 V c 2 t) xs, sout4_B_0 c (grid4.coords t) (ms4_0 t) (hs4_0 t) (ms4_1 t) (hs4_1 t) (ms4_2 t) (hs4_2 t) (ms4_3 t) (hs4_3 t) scM4_0 (Memref.isWhole_whole _) (mt (hcond4_0 t).mp h0) (mt (hcond4_1 t).mp h1) (iblk4 V c 0 t) (iblk4 V c 1 t) (iblk4 V c 2 t) xs)

def outsAt4 (c : Dev nD) : (n : ℕ) → n < cfg4.N → Vec F S2048x64 .f32 × Vec F S2048x64 .f32
  | 0, hn => step4 V c ⟨0, hn⟩ (VS4_0.read (Elt F) VS4_0.junk)
  | n + 1, hn => step4 V c ⟨n + 1, hn⟩ (outsAt4 c n (Nat.lt_of_succ_lt hn)).2

theorem outsAt4_A (c : Dev nD) (t : Fin cfg4.N) (h0 : t.val % 4 = 0) (h1 : ¬t.val % 4 = 3) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => rfl
  | succ n => exact (dif_pos h0).trans rfl

theorem outsAt4_B (c : Dev nD) (t : Fin cfg4.N) (h0 : ¬t.val % 4 = 0) (h1 : ¬t.val % 4 = 3) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- Before point `n + 1` the accumulator holds what point `n` left in it. -/
def PhiS4 (c : Dev nD) : (n : ℕ) → n ≤ cfg4.N → sProp 𝕄
  | 0, _ => Pipeline.ΦA spec4 c
  | n + 1, hn => iprop(iprop(iprop(owns c scM4_0 fullShare ((outsAt4 V c n hn).2)) ∗ restBut4 (F := F) c) ∗ (∃ r, prngReg c r))

theorem PhiS4_pos (c : Dev nD) : ∀ (n : ℕ) (h : n ≤ cfg4.N) (hz : n ≠ 0),
    PhiS4 V c n h = iprop(iprop(iprop(owns c scM4_0 fullShare ((outsAt4 V c (n - 1) (by omega)).2)) ∗ restBut4 (F := F) c) ∗ (∃ r, prngReg c r))
  | 0, _, hz => absurd rfl hz
  | _ + 1, _, _ => rfl

theorem PhiS4_out (c : Dev nD) : ∀ (n : ℕ) (h : n ≤ cfg4.N), PhiS4 V c n h ⊢ (Pipeline.ΦA spec4 c : sProp 𝕄)
  | 0, _ => Entails.refl _
  | n + 1, h => by
    rw [PhiA4_eq]; unfold PhiS4
    iintro ⟨⟨HS0, Hr⟩, Hg⟩; iframe Hr Hg
    iexists _; iexact HS0

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl
theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = (outsAt4 V c t.val t.isLt).1 := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

def bodyPre4 (c : Dev nD) (t : Fin cfg4.N) : sProp 𝕄 :=
  iprop(PhiS4 V c t.val (Nat.le_of_lt t.isLt) ∗ (dat4 V c).owesAt () t.castSucc
    ∗ (∃ d, owns c (ms4_0 t) fullShare ((dat4 V c).before 0 t d))
    ∗ (∃ d, owns c (ms4_1 t) fullShare ((dat4 V c).before 1 t d))
    ∗ (∃ d, owns c (ms4_2 t) fullShare ((dat4 V c).before 2 t d))
    ∗ (∃ d, owns c (ms4_3 t) fullShare ((dat4 V c).before 3 t d)))

def bodyPost4 (c : Dev nD) (t : Fin cfg4.N) : sProp 𝕄 :=
  iprop(iprop(iprop(iprop(owns c scM4_0 fullShare ((outsAt4 V c t.val t.isLt).2)) ∗ restBut4 (F := F) c) ∗ (∃ r, prngReg c r)) ∗ (dat4 V c).owesAt () t.castSucc
    ∗ owns c (ms4_0 t) fullShare (iblk4 V c 0 t)
    ∗ owns c (ms4_1 t) fullShare (iblk4 V c 1 t)
    ∗ owns c (ms4_2 t) fullShare (iblk4 V c 2 t)
    ∗ (dat4 V c).leavesExact 3 t)

set_option maxHeartbeats 400000 in
/-- `t % 4` selects the case: the accumulator restarts at 0, adds the product of the point's two blocks, and at 3 is scaled into the output block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  by_cases h1 : t.val % 4 = 3
  · have h0 : ¬t.val % 4 = 0 := by omega
    have hz : t.val ≠ 0 := by omega
    rw [leavesExact_live (dat4 V c) 3 t (liveAt4_3 t h1), after4_3, outsAt4_C V c t h0 h1, PhiS4_pos V c _ _ hz]
    unfold out4_C_3 sout4_C_0; dsimp only
    iintro ⟨⟨⟨HS0, Hr⟩, Hg⟩, Ho, ⟨%d0, H0⟩, ⟨%d1, H1⟩, ⟨%d2, H2⟩, ⟨%d3, H3⟩⟩
    iapply ((kernelRun4_C c (grid4.coords t) _ _ _ _ _ _ _ _ _ _ (mt (hcond4_0 t).mp h0) ((hcond4_1 t).mpr h1) (iblk4 V c 0 t) (iblk4 V c 1 t) (iblk4 V c 2 t) _).2.2 Set.univ _)
    iframe H0 H1 H2
    isplitl [H3]; · iexists _; iexact H3
    isplitl [HS0]; · iexact HS0
    iintro ⟨H0, H1, H2, H3, HS0⟩
    iframe Hr Hg Ho H0 H1 H2
    isplitl [HS0]; · iapply owns_writes_of_cover _ _ _ _ _ _ (scover4_C_0 _ _ _ _ _ _ _ _ _ _ _ _ _ _ _ _ _ _); iexact HS0
    iapply owns_writes_of_cover _ _ _ _ _ _ (cover4_C_3 _ _ _ _ _ _ _ _ _ _ _ _ _ _ _ _ _ _); iexact H3
  rw [Dat.leavesExact_idle (dat4 V c) 3 t (idleAt4_3 t h1) (Bool.eq_false_iff.mpr fun h => h1 ((flush4_3 t).mp h))]
  by_cases h0 : t.val % 4 = 0
  · refine (sep_mono_left (PhiS4_out V c _ _)).trans ?_
    rw [PhiA4_eq, outsAt4_A V c t h0 h1]
    unfold sout4_A_0; dsimp only
    iintro ⟨⟨⟨HS0, Hr⟩, Hg⟩, Ho, ⟨%d0, H0⟩, ⟨%d1, H1⟩, ⟨%d2, H2⟩, ⟨%d3, H3⟩⟩
    iapply ((kernelRun4_A c (grid4.coords t) _ _ _ _ _ _ _ _ _ _ ((hcond4_0 t).mpr h0) (mt (hcond4_1 t).mp h1) (iblk4 V c 0 t) (iblk4 V c 1 t) (iblk4 V c 2 t)).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover4_A_0 _ _ _ _ _ _ _ _ _ _ _ _ _ _ _ _ _); iexact HS0
    iexists _; iexact H3
  · have hz : t.val ≠ 0 := fun h => h0 (by rw [h])
    rw [outsAt4_B V c t h0 h1, PhiS4_pos V c _ _ hz]
    unfold sout4_B_0; dsimp only
    iintro ⟨⟨⟨HS0, Hr⟩, Hg⟩, Ho, ⟨%d0, H0⟩, ⟨%d1, H1⟩, ⟨%d2, H2⟩, ⟨%d3, H3⟩⟩
    iapply ((kernelRun4_B c (grid4.coords t) _ _ _ _ _ _ _ _ _ _ (mt (hcond4_0 t).mp h0) (mt (hcond4_1 t).mp h1) (iblk4 V c 0 t) (iblk4 V c 1 t) (iblk4 V c 2 t) _).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover4_B_0 _ _ _ _ _ _ _ _ _ _ _ _ _ _ _ _ _ _); iexact HS0
    iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := Entails.refl _

theorem hout4 (c : Dev nD) : (dat4 V c).Φ (Fin.last cfg4.N) ⊢ (Pipeline.ΦA spec4 c : sProp 𝕄) := PhiS4_out V c _ (Nat.le_refl _)

end Cert.Kernel.Hand

end
-- ==== Proof.K.R5.lean ====
import proofs.«134441_j56014963474691_1_alg».proof.Proof.Gen.Kernel.Launch
import proofs.«134441_j56014963474691_1_alg».proof.Proof.Gen.Kernel.Skeleton
import proofs.«134441_j56014963474691_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S8192x64 := Rect.unit (s := S8192x64) ![0, 0] S8192x64.size inb_S8192x64_S8192x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S32x64 := Rect.unit (s := S32x64) ![0, 0] S32x64.size inb_S32x64_S32x64_0_0
abbrev r5_4 : Rect S1x32 := Rect.unit (s := S1x32) ![0, 0] S1x32.size inb_S1x32_S1x32_0_0
abbrev r5_5 : Rect S8192x32 := Rect.unit (s := S8192x32) ![0, 0] S8192x32.size inb_S8192x32_S8192x32_0_0

def out5_8 (x0 : Vec F S8192x64 .f32) (x1 : Vec F S64x64 .f32) (x2 : Vec F S1x64 .f32) : Vec F S8192x64 .f32 :=
  View.canon [⟨r5_0, k5_pay2 (View.ld x0 r5_0) (View.ld x1 r5_1) (View.ld x2 r5_2)⟩]

def out5_7 (x0 : Vec F S8192x64 .f32) (x1 : Vec F S64x64 .f32) (x2 x3 x4 : Vec F S1x64 .f32) (x5 : Vec F S32x64 .f32)
    (x6 : Vec F S1x32 .f32) : Vec F S8192x32 .f32 :=
  View.canon [⟨r5_5, k5_pay1 (k5_pay3 (View.ld x0 r5_0) (View.ld x1 r5_1) (View.ld x2 r5_2) (View.ld x3 r5_2) (View.ld x4 r5_2))
    (View.ld x5 r5_3) (View.ld x6 r5_4)⟩]

theorem cover5_7 (p0 : Vec F S8192x32 .f32) (y : S8192x32.Idx) :
    ∃ pc ∈ ([⟨r5_5, p0⟩] : List (View.Piece (Elt F) S8192x32 .f32)), y ∈ pc.1.set :=
  View.cover_of_tiled [⟨r5_5, p0⟩] S8192x32.size (by rfl) y

theorem cover5_8 (p0 : Vec F S8192x64 .f32) (y : S8192x64.Idx) :
    ∃ pc ∈ ([⟨r5_0, p0⟩] : List (View.Piece (Elt F) S8192x64 .f32)), y ∈ pc.1.set :=
  View.cover_of_tiled [⟨r5_0, p0⟩] S8192x64.size (by rfl) y

set_option maxHeartbeats 4000000 in

theorem sound_kernel5 (c : Dev nD) (E : Set ℕ) (i : grid5.Coords)
    (arg1 : Memref sig .tc .vmem S8192x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S32x64 .f32) (harg6 : arg6.IsWhole)
    (arg7 : Memref sig .tc .vmem S1x32 .f32) (harg7 : arg7.IsWhole) (arg8 : Memref sig .tc .vmem S8192x32 .f32) (harg8 : arg8.IsWhole)
    (arg9 : Memref sig .tc .vmem S8192x64 .f32) (harg9 : arg9.IsWhole)
    (x0 : Vec F S8192x64 .f32) (x1 : Vec F S64x64 .f32) (x2 x3 x4 : Vec F S1x64 .f32) (x5 : Vec F S32x64 .f32) (x6 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out5_7 x0 x1 x2 x3 x4 x5 x6)
            ∗ owns (c : Thread nD τ) arg9 fullShare (out5_8 x0 x1 x2)) -∗ K ⟨⟩))
      ⊢ wp frame (wpE (defs₀ (F := F)) Variants.none c none) E
          (cc5__head_kernel i arg1 harg1 arg2 harg2 arg3 harg3 arg4 harg4 arg5 harg5 arg6 harg6 arg7 harg7 arg8 harg8 arg9 harg9) K := by
  simp only [cc5__head_kernel_eq_skeleton]; unfold cc5__head_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover5_7 _)
  iexists _; isplitr
  swap; · iexact H8
  ipureintro
  exact View.read_writes_eq_canon _ _ _ (cover5_8 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
    | ⟨8, _⟩ => out5_8 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]
theorem after5_8 (c : Dev nD) (t : Fin cfg5.N) : (dat5 V c).after 8 t = out5_8 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl
theorem before5_6 (c : Dev nD) (t : Fin cfg5.N) (d) : (dat5 V c).before 6 t d = iblk5 V c 6 t :=
  ((dat5 V c).before_in_eq_fetched 6 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

def bodyPost5 (c : Dev nD) (t : Fin cfg5.N) : sProp 𝕄 :=
  iprop((dat5 V c).Φ t.succ ∗ (dat5 V c).owesAt () t.succ
    ∗ owns (c : Thread nD τ) (st5_0 t) fullShare (iblk5 V c 0 t)
    ∗ owns (c : Thread nD τ) (st5_1 t) fullShare (iblk5 V c 1 t)
    ∗ owns (c : Thread nD τ) (st5_2 t) fullShare (iblk5 V c 2 t)
    ∗ owns (c : Thread nD τ) (st5_3 t) fullShare (iblk5 V c 3 t)
    ∗ owns (c : Thread nD τ) (st5_4 t) fullShare (iblk5 V c 4 t)
    ∗ owns (c : Thread nD τ) (st5_5 t) fullShare (iblk5 V c 5 t)
    ∗ owns (c : Thread nD τ) (st5_6 t) fullShare (iblk5 V c 6 t)
    ∗ owns (c : Thread nD τ) (st5_7 t) fullShare ((dat5 V c).after 7 t)
    ∗ owns (c : Thread nD τ) (st5_8 t) fullShare ((dat5 V c).after 8 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  isplitl [H8]; · iexists _; iexact H8
  iintro ⟨H0, H1, H2, H3, H4, H5, H6, H7, H8⟩
  iframe HΦ Ho H0 H1 H2 H3 H4 H5 H6 H7
  iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = Pipeline.ΦA spec5 c from rfl]

theorem hout5 (c : Dev nD) : (dat5 V c).Φ (Fin.last cfg5.N) ⊢ (Pipeline.ΦA spec5 c : sProp 𝕄) := by
  rw [show (dat5 V c).Φ (Fin.last cfg5.N) = Pipeline.ΦA spec5 c from rfl]

end Cert.Kernel.Hand

end
-- ==== Proof.LibRegion.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Λ₀ : Labels} {F : FTy → Type} [FloatOps F]

abbrev rd (W : Dev nD → Valuation τ sig (Elt F)) (c : Dev nD) (b : Ref sig .tc) : Buf (Elt F) ((c : Thread nD τ).loc b) := W c b

/-- `b` is no output array of the region `cfg`. -/
def inOnly (cfg : Cfg sig Λ₀) (b : Ref sig .tc) : Prop := ∀ w, Pipeline.arrRef cfg.spec w = b → (cfg.win w).isOut = false
instance (cfg : Cfg sig Λ₀) (b : Ref sig .tc) : Decidable (inOnly cfg b) := by unfold inOnly; infer_instance

section Region

variable {cfg : Cfg sig Λ₀} (W : Dev nD → Valuation τ sig (Elt F)) (dat : (c : Dev nD) → Dat τ (Elt F) Unit ℕ (UR sig nD τ) ℕ cfg c)

/-- The contents after a region: the entry contents updated at the region's arrays by their final values. -/
def exitW (c : Dev nD) : Valuation τ sig (Elt F) :=
  Pipeline.withArrays cfg.spec c (W c) fun w => (dat c).arrAt w cfg.N

theorem exitW_arr (hinj : Function.Injective (Pipeline.arrRef cfg.spec)) (c : Dev nD) (w : Fin cfg.W) :
    exitW W dat c (Proc.devRef .tc (Pipeline.arrRef cfg.spec w)) = (dat c).arrAt w cfg.N := by
  unfold exitW; exact Pipeline.withArrays_arr _ hinj c _ _ w
theorem exitW_of_ne (c : Dev nD) (b : Ref sig .tc) (hb : ∀ w, Pipeline.arrRef cfg.spec w ≠ b) :
    exitW W dat c (Proc.devRef .tc b) = W c (Proc.devRef .tc b) := by
  unfold exitW; exact Pipeline.withArrays_of_ne _ c _ _ b hb

/-- An array that is no output is never updated, so it keeps its entry value. -/
theorem exitW_in (c : Dev nD) (hA : ∀ w, (dat c).A w = rd W c (Pipeline.arrRef cfg.spec w))
    (hinj : Function.Injective (Pipeline.arrRef cfg.spec)) (b : Ref sig .tc) (hb : inOnly cfg b) :
    exitW W dat c (Proc.devRef .tc b) = W c (Proc.devRef .tc b) := by
  by_cases h : ∃ w, Pipeline.arrRef cfg.spec w = b
  · obtain ⟨w, rfl⟩ := h
    exact (exitW_arr W dat hinj c w).trans (((dat c).arrAt_in w (hb w rfl) _).trans (hA w))
  · exact exitW_of_ne W dat c b fun w e => h ⟨w, e⟩

variable {c : Dev nD} (d : Dat τ (Elt F) Unit ℕ (UR sig nD τ) ℕ cfg c) (t : Fin (cfg.N + 1)) (h0 : d.owed t = 0)
include h0

theorem owesAt_intro (hr : d.recorded t = Set.univ) :
    iprop(∃ W, owes (c : Thread nD τ) (0 : CellTallies nD τ sig Unit) W) ⊢ (d.owesAt () t : sProp (MT nD τ sig Unit (Elt F) ℕ (UR sig nD τ) ℕ)) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim :
    (d.owesAt () t : sProp (MT nD τ sig Unit (Elt F) ℕ (UR sig nD τ) ℕ)) ⊢ iprop(∃ W, owes (c : Thread nD τ) (0 : CellTallies nD τ sig Unit) W) := by
  unfold Pipeline.Dat.owesAt Pipeline.owesWithin; rw [h0]
  iintro ⟨%W, -, HO⟩; iexists W; iexact HO

end Region

abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)

set_option backward.isDefEq.respectTransparency.types false in
/-- One region as a step from the contents `Wi` to `exitW Wi`: its arrays are split from the other buffers at entry and joined back at exit. -/
def regSeg {P : Type} [Fintype P] [DecidableEq P] (cfgs : P → Cfg sig Λ₀) (defs₀ : Defs nD τ sig (Elt F) Λ₀)
    (pd : (p : P) → (c : Dev nD) → Dat τ (Elt F) Unit ℕ (UR sig nD τ) ℕ (cfgs p) c) (p : P)
    (ln : Pipeline.LaunchFacts (nD := nD) (τ := τ) cfgs p) (Wi : Dev nD → Valuation τ sig (Elt F))
    (hq : ∀ c w, (pd p c).q w = fullShare) (h0 : ∀ c t, (pd p c).owed t = 0) (hr : ∀ c, (pd p c).recorded 0 = Set.univ)
    (hA : ∀ c w, (pd p c).A w = rd Wi c (Pipeline.arrRef (cfgs p).spec w))
    (hb : ∀ c, BodyObligation (pd p c) defs₀ Variants.none () Set.univ)
    (hi : ∀ c, (Pipeline.ΦA (cfgs p).spec c : sProp (MT nD τ sig Unit (Elt F) ℕ (UR sig nD τ) ℕ)) ⊢ (pd p c).Φ 0)
    (ho : ∀ c, (pd p c).Φ (Fin.last (cfgs p).N) ⊢ (Pipeline.ΦA (cfgs p).spec c : sProp (MT nD τ sig Unit (Elt F) ℕ (UR sig nD τ) ℕ))) :
    Pipeline.RegionSeg (fun p => (cfgs p).toPCfg) (fun p => (cfgs p).toPCfg_adm) pd () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (exitW Wi (pd p) c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Wi c)
  hentry c := by
    rw [Pipeline.ownSems0_none]
    have hsplit := Pipeline.arrays_of_unscopedBufs (p := p) (fun p => (cfgs p).toPCfg) (fun p => (cfgs p).toPCfg_adm) pd ln.win ln.arr_whole c
      ((pd p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply owesAt_intro (pd p c) 0 (h0 c 0) (hr c); iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (fun p => (cfgs p).toPCfg) (fun p => (cfgs p).toPCfg_adm) (Ix := Unit) (Name := ℕ) (U := UR sig nD τ) (Lvl := ℕ)
      ln.win ln.arr_whole c pd ((pd p c).share_full (hq c)) (rd Wi c) (rd (exitW Wi (pd p)) c) ((pd p c).arrAt · (cfgs p).N)
      (fun w => (exitW_arr Wi (pd p) ln.win.arr_inj c w).symm)
      (fun b hb => exitW_of_ne Wi (pd p) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply owesAt_elim (pd p c) _ (h0 c _); iexact HO

end Cert.LibRegion

end
-- ==== Proof.K.Run.lean ====
import proofs.«134441_j56014963474691_1_alg».proof.Proof.Gen.Kernel.Launch
import proofs.«134441_j56014963474691_1_alg».proof.Proof.Gen.Kernel.Skeleton
import proofs.«134441_j56014963474691_1_alg».proof.Proof.Gen.Kernel.Points
import proofs.«134441_j56014963474691_1_alg».proof.Proof.Gen.Kernel.Regions
import proofs.«134441_j56014963474691_1_alg».proof.Proof.K.R0
import proofs.«134441_j56014963474691_1_alg».proof.Proof.K.R1
import proofs.«134441_j56014963474691_1_alg».proof.Proof.K.R2
import proofs.«134441_j56014963474691_1_alg».proof.Proof.K.R3
import proofs.«134441_j56014963474691_1_alg».proof.Proof.K.R4
import proofs.«134441_j56014963474691_1_alg».proof.Proof.K.R5
import proofs.«134441_j56014963474691_1_alg».proof.Proof.LibRegion

set_option maxRecDepth 16384

noncomputable section

namespace Cert.Kernel.Hand

open Cert.Kernel Cert.Kernel.Gen Cert.LibRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := rd (W1 m ρ)

def W2 : Dev nD → Valuation τ sig (Elt F) := exitW (W1 m ρ) (dat0 (V1 m ρ))
abbrev V2 := rd (W2 m ρ)

def W3 : Dev nD → Valuation τ sig (Elt F) := exitW (W2 m ρ) (dat1 (V2 m ρ))
abbrev V3 := rd (W3 m ρ)

def W4 : Dev nD → Valuation τ sig (Elt F) := exitW (W3 m ρ) (dat2 (V3 m ρ))
abbrev V4 := rd (W4 m ρ)

def W5 : Dev nD → Valuation τ sig (Elt F) := exitW (W4 m ρ) (dat3 (V4 m ρ))
abbrev V5 := rd (W5 m ρ)

def W6 : Dev nD → Valuation τ sig (Elt F) := exitW (W5 m ρ) (dat4 (V5 m ρ))
abbrev V6 := rd (W6 m ρ)

abbrev W7 : Dev nD → Valuation τ sig (Elt F) := fun c => StableHlo.after hostOps5 (W6 m ρ c)
abbrev V7 := rd (W7 m ρ)

def W8 : Dev nD → Valuation τ sig (Elt F) := exitW (W7 m ρ) (dat5 (V7 m ρ))
abbrev V8 := rd (W8 m ρ)

/-- A buffer that no host operation writes and no region outputs holds its initial value at the end. -/
theorem W8_arg (c : Dev nD) (b : Ref sig .tc) (h : b ∉ hostOps0_W ∧ b ∉ hostOps5_W
      ∧ inOnly cfg0 b ∧ inOnly cfg1 b ∧ inOnly cfg2 b ∧ inOnly cfg3 b ∧ inOnly cfg4 b ∧ inOnly cfg5 b) :
    W8 m ρ c (Proc.devRef .tc b) = m ((c : Thread nD τ).loc b) :=
  (exitW_in (W7 m ρ) (dat5 (V7 m ρ)) c (A_eq5 (V7 m ρ) c) launch5.win.arr_inj b h.2.2.2.2.2.2.2).trans <|
  (StableHlo.after_of_writes_sub hostOps5 _ hostOps5_writes h.2.1).trans <|
  (exitW_in (W5 m ρ) (dat4 (V5 m ρ)) c (A_eq4 (V5 m ρ) c) launch4.win.arr_inj b h.2.2.2.2.2.2.1).trans <|
  (exitW_in (W4 m ρ) (dat3 (V4 m ρ)) c (A_eq3 (V4 m ρ) c) launch3.win.arr_inj b h.2.2.2.2.2.1).trans <|
  (exitW_in (W3 m ρ) (dat2 (V3 m ρ)) c (A_eq2 (V3 m ρ) c) launch2.win.arr_inj b h.2.2.2.2.1).trans <|
  (exitW_in (W2 m ρ) (dat1 (V2 m ρ)) c (A_eq1 (V2 m ρ) c) launch1.win.arr_inj b h.2.2.2.1).trans <|
  (exitW_in (W1 m ρ) (dat0 (V1 m ρ)) c (A_eq0 (V1 m ρ) c) launch0.win.arr_inj b h.2.2.1).trans <|
  StableHlo.after_of_writes_sub hostOps0 _ hostOps0_writes h.1

def pdats : (p : Fin 6) → (c : Dev nD) → Dat τ (Elt F) Unit ℕ (UR sig nD τ) ℕ (cfgs p) c
  | ⟨0, _⟩ => dat0 (V1 m ρ)
  | ⟨1, _⟩ => dat1 (V2 m ρ)
  | ⟨2, _⟩ => dat2 (V3 m ρ)
  | ⟨3, _⟩ => dat3 (V4 m ρ)
  | ⟨4, _⟩ => dat4 (V5 m ρ)
  | ⟨5, _⟩ => dat5 (V7 m ρ)

/-- A run of host operations as a step from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- The program as eight steps in order. -/
abbrev segs : List (Pipeline.Seg (pcfgs (F := F)) adm (pdats m ρ) () defs₀ 𝒱₀ L lv) :=
  [ .host (hseg hostOps0 hostOps0_sub hostOps0_fresh (W0 m ρ)),
    .region (regSeg cfgs defs₀ (pdats m ρ) 0 launch0 (W1 m ρ) (fun _ _ => rfl) (fun _ _ => rfl) (fun _ => rfl) (A_eq0 (V1 m ρ)) (body_obligation0 (V1 m ρ)) (hin0 (V1 m ρ)) (hout0 (V1 m ρ))),
    .region (regSeg cfgs defs₀ (pdats m ρ) 1 launch1 (W2 m ρ) (fun _ _ => rfl) (fun _ _ => rfl) (fun _ => rfl) (A_eq1 (V2 m ρ)) (body_obligation1 (V2 m ρ)) (hin1 (V2 m ρ)) (hout1 (V2 m ρ))),
    .region (regSeg cfgs defs₀ (pdats m ρ) 2 launch2 (W3 m ρ) (fun _ _ => rfl) (fun _ _ => rfl) (fun _ => rfl) (A_eq2 (V3 m ρ)) (body_obligation2 (V3 m ρ)) (hin2 (V3 m ρ)) (hout2 (V3 m ρ))),
    .region (regSeg cfgs defs₀ (pdats m ρ) 3 launch3 (W4 m ρ) (fun _ _ => rfl) (fun _ _ => rfl) (fun _ => rfl) (A_eq3 (V4 m ρ)) (body_obligation3 (V4 m ρ)) (hin3 (V4 m ρ)) (hout3 (V4 m ρ))),
    .region (regSeg cfgs defs₀ (pdats m ρ) 4 launch4 (W5 m ρ) (fun _ _ => rfl) (fun _ _ => rfl) (fun _ => rfl) (A_eq4 (V5 m ρ)) (body_obligation4 (V5 m ρ)) (hin4 (V5 m ρ)) (hout4 (V5 m ρ))),
    .host (hseg hostOps5 hostOps5_sub hostOps5_fresh (W6 m ρ)),
    .region (regSeg cfgs defs₀ (pdats m ρ) 5 launch5 (W7 m ρ) (fun _ _ => rfl) (fun _ _ => rfl) (fun _ => rfl) (A_eq5 (V7 m ρ)) (body_obligation5 (V7 m ρ)) (hin5 (V7 m ρ)) (hout5 (V7 m ρ))) ]
theorem main_run (c : Dev nD) : main (F := F) c = Pipeline.Seg.run (segs m ρ) := (main_chain c).trans (by chain_rfl)

set_option backward.isDefEq.respectTransparency.types false in
/-- Every fair execution terminates, and at its end the buffers hold `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- Every argument ends with its initial value. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W8_arg m ρ c _ (by decide)),
    (h c _ (mem_uc main_arg1 (by decide))).trans (W8_arg m ρ c _ (by decide)),
    (h c _ (mem_uc main_arg2 (by decide))).trans (W8_arg m ρ c _ (by decide)),
    (h c _ (mem_uc main_arg3 (by decide))).trans (W8_arg m ρ c _ (by decide)),
    (h c _ (mem_uc main_arg4 (by decide))).trans (W8_arg m ρ c _ (by decide)),
    (h c _ (mem_uc main_arg5 (by decide))).trans (W8_arg m ρ c _ (by decide)),
    (h c _ (mem_uc main_arg6 (by decide))).trans (W8_arg m ρ c _ (by decide)),
    (h c _ (mem_uc main_arg7 (by decide))).trans (W8_arg m ρ c _ (by decide)),
    (h c _ (mem_uc main_arg8 (by decide))).trans (W8_arg m ρ c _ (by decide)),
    (h c _ (mem_uc main_arg9 (by decide))).trans (W8_arg m ρ c _ (by decide)),
    (h c _ (mem_uc main_arg10 (by decide))).trans (W8_arg m ρ c _ (by decide))⟩) (run_main m ρ)

end Cert.Kernel.Hand

end
-- ==== Proof.KI.R0.lean ====
import proofs.«134441_j56014963474691_1_alg».proof.Proof.Gen.KernelIdeal.Launch
import proofs.«134441_j56014963474691_1_alg».proof.Proof.Gen.KernelIdeal.Skeleton
import proofs.«134441_j56014963474691_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S256x8192 := Rect.unit (s := S256x8192) ![0, 0] S256x8192.size inb_S256x8192_S256x8192_0_0

def out0_1 (x0 : Vec F S256x8192 .f32) : Vec F S256x8192 .bf16 :=
  View.canon [⟨r0_0, k0_pay1 (View.ld x0 r0_0)⟩]

theorem cover0_1 (p0 : Vec F S256x8192 .bf16) (y : S256x8192.Idx) :
    ∃ pc ∈ ([⟨r0_0, p0⟩] : List (View.Piece (Elt F) S256x8192 .bf16)), y ∈ pc.1.set :=
  View.cover_of_tiled [⟨r0_0, p0⟩] S256x8192.size (by rfl) y

set_option maxHeartbeats 1000000 in

theorem sound_kernel0 (c : Dev nD) (E : Set ℕ) (i : grid0.Coords) (arg1 : Memref sig .tc .vmem S256x8192 .f32) (harg1 : arg1.IsWhole)
    (arg2 : Memref sig .tc .vmem S256x8192 .bf16) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_kernel i arg1 harg1 arg2 harg2) K := by
  simp only [cc0__cast_kernel_eq_skeleton]; unfold cc0__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare (iblk0 V c 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_1]
  iintro ⟨HΦ, Ho, ⟨%d0, H0⟩, ⟨%d1, H1⟩⟩
  iapply (sound_kernel0 c Set.univ _ _ _ _ _ (iblk0 V c 0 t) _)
  iframe H0
  isplitl [H1]; · iexists _; iexact H1
  iintro ⟨H0, H1⟩
  iframe HΦ Ho H0
  iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  show (Pipeline.ΦA spec0 c : sProp 𝕄) ⊢ Pipeline.ΦA spec0 c
  exact BI.Entails.refl _

theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact BI.Entails.refl _

end Cert.KernelIdeal.Hand

end
-- ==== Proof.KI.R1.lean ====
import proofs.«134441_j56014963474691_1_alg».proof.Proof.Gen.KernelIdeal.Launch
import proofs.«134441_j56014963474691_1_alg».proof.Proof.Gen.KernelIdeal.Skeleton
import proofs.«134441_j56014963474691_1_alg».proof.Proof.Gen.KernelIdeal.Points
import proofs.«134441_j56014963474691_1_alg».proof.Proof.LibBody
import Idealize.ShloMosaic.Lib.Ring
import Idealize.ShloMosaic.Lib.Tactic

set_option maxRecDepth 16384

noncomputable section

namespace Cert.KernelIdeal.Hand

open Cert.KernelIdeal Cert.KernelIdeal.Gen Cert.LibBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The output block is written only at the last step of each reduction. -/
theorem idleAt1_3 : ∀ t : Fin cfg1.N, ¬t.val % 4 = 3 → cfg1.idle 3 (grid1.coords t) = true := by decide +kernel
theorem liveAt1_3 : ∀ t : Fin cfg1.N, t.val % 4 = 3 → cfg1.idle 3 (grid1.coords t) = false := by decide +kernel

abbrev VO1_3 : View sig .tc .vmem S2048x64 .f32 := (Memref.whole cc1_stg3_0 : Memref sig .tc .vmem S2048x64 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
abbrev scM1_0 : Memref sig .tc .vmem S2048x64 .f32 := Memref.whole cc1_scratch0
abbrev VS1_0 : View sig .tc .vmem S2048x64 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns c scM1_0 fullShare d)) ∗ restBut1 (F := F) c) ∗ (∃ r, prngReg c r)) := by
  unfold Pipeline.ΦA; rw [scopedRest1_split]; simp only [scM1_0, owns_whole]; try rfl

section
variable (c : Dev nD) (i : grid1.Coords) (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole)

section
variable (hc0 : cond1_0 i) (hc1 : ¬cond1_1 i) (x0 : Vec F S2048x2048 .bf16) (x1 : Vec F S2048x64 .f32) (x2 : Vec F S2048x1 .f32)

set_option maxHeartbeats 1000000 in
def kernelRun1_A :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_eq_unread (c : Thread nD τ) harg2, owns_eq_unread (c : Thread nD τ) harg3, owns_eq_unread (c : Thread nD τ) harg4, owns_eq_unread (c : Thread nD τ) harg5]; unfold owns
    iintro ⟨H0, H1, H2, H3, ⟨%ds0, %fs0, -, HS0⟩, Hk⟩
    sl_exec (disch := first | exact hc0 | exact hc1)
    sl_step
    iapply Hk; iframe H0 H1 H2 H3
    iexists _; iexact HS0

def out1_A_3 : Vec F S2048x64 .f32 :=
  VO1_3.read (Elt F) (VO1_3.writes (Elt F) VO1_3.junk (kernelRun1_A c i arg2 harg2 arg3 harg3 arg4 harg4 arg5 harg5 arg6 harg6 hc0 hc1 x0 x1 x2).1)

theorem scover1_A_0 (y : S2048x64.Idx) : ∃ pc ∈ (kernelRun1_A c i arg2 harg2 arg3 harg3 arg4 harg4 arg5 harg5 arg6 harg6 hc0 hc1 x0 x1 x2).2.1, y ∈ pc.1.set :=
  View.cover_of_tiledL _ S2048x64.size (by sl_kernel_rfl) y

def sout1_A_0 : Vec F S2048x64 .f32 :=
  VS1_0.read (Elt F) (VS1_0.writes (Elt F) VS1_0.junk (kernelRun1_A c i arg2 harg2 arg3 harg3 arg4 harg4 arg5 harg5 arg6 harg6 hc0 hc1 x0 x1 x2).2.1)

end

section
variable (hc0 : ¬cond1_0 i) (hc1 : ¬cond1_1 i) (x0 : Vec F S2048x2048 .bf16) (x1 : Vec F S2048x64 .f32) (x2 : Vec F S2048x1 .f32) (xs0 : Vec F S2048x64 .f32)

set_option maxHeartbeats 1000000 in
def kernelRun1_B :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    rw [owns_eq_unread (c : Thread nD τ) harg2, owns_eq_unread (c : Thread nD τ) harg3, owns_eq_unread (c : Thread nD τ) harg4, owns_eq_unread (c : Thread nD τ) harg5, owns_eq_unread (c : Thread nD τ) harg6]
    iintro ⟨H0, H1, H2, H3, HS0, Hk⟩
    sl_exec (disch := first | exact hc0 | exact hc1)
    sl_step
    iapply Hk; iframe H0 H1 H2 H3
    iexists _; iexact HS0

def out1_B_3 : Vec F S2048x64 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (y : S2048x64.Idx) : ∃ pc ∈ (kernelRun1_B c i arg2 harg2 arg3 harg3 arg4 harg4 arg5 harg5 arg6 harg6 hc0 hc1 x0 x1 x2 xs0).2.1, y ∈ pc.1.set :=
  View.cover_of_tiledL _ S2048x64.size (by sl_kernel_rfl) y

def sout1_B_0 : Vec F S2048x64 .f32 :=
  VS1_0.read (Elt F) (VS1_0.writes (Elt F) VS1_0.junk (kernelRun1_B c i arg2 harg2 arg3 harg3 arg4 harg4 arg5 harg5 arg6 harg6 hc0 hc1 x0 x1 x2 xs0).2.1)

end

section
variable (hc0 : ¬cond1_0 i) (hc1 : cond1_1 i) (x0 : Vec F S2048x2048 .bf16) (x1 : Vec F S2048x64 .f32) (x2 : Vec F S2048x1 .f32) (xs0 : Vec F S2048x64 .f32)

set_option maxHeartbeats 1000000 in
def kernelRun1_C :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    rw [owns_eq_unread (c : Thread nD τ) harg2, owns_eq_unread (c : Thread nD τ) harg3, owns_eq_unread (c : Thread nD τ) harg4, owns_eq_unread (c : Thread nD τ) harg6]; unfold owns
    iintro ⟨H0, H1, H2, ⟨%d3, %f3, -, H3⟩, HS0, Hk⟩
    sl_exec (disch := first | exact hc0 | exact hc1)
    sl_step
    iapply Hk; iframe H0 H1 H2
    isplitl [H3]; · iexists _; iexact H3
    iexists _; iexact HS0

def out1_C_3 : Vec F S2048x64 .f32 :=
  VO1_3.read (Elt F) (VO1_3.writes (Elt F) VO1_3.junk (kernelRun1_C c i arg2 harg2 arg3 harg3 arg4 harg4 arg5 harg5 arg6 harg6 hc0 hc1 x0 x1 x2 xs0).1)

theorem cover1_C_3 (y : S2048x64.Idx) : ∃ pc ∈ (kernelRun1_C c i arg2 harg2 arg3 harg3 arg4 harg4 arg5 harg5 arg6 harg6 hc0 hc1 x0 x1 x2 xs0).1, y ∈ pc.1.set :=
  View.cover_of_tiledL _ S2048x64.size (by sl_kernel_rfl) y

theorem scover1_C_0 (y : S2048x64.Idx) : ∃ pc ∈ (kernelRun1_C c i arg2 harg2 arg3 harg3 arg4 harg4 arg5 harg5 arg6 harg6 hc0 hc1 x0 x1 x2 xs0).2.1, y ∈ pc.1.set :=
  View.cover_of_tiledL _ S2048x64.size (by sl_kernel_rfl) y

def sout1_C_0 : Vec F S2048x64 .f32 :=
  VS1_0.read (Elt F) (VS1_0.writes (Elt F) VS1_0.junk (kernelRun1_C c i arg2 harg2 arg3 harg3 arg4 harg4 arg5 harg5 arg6 harg6 hc0 hc1 x0 x1 x2 xs0).2.1)

end

end

/-- What a point leaves in the output block and in the accumulator, given what the accumulator held before it. -/
def step1 (c : Dev nD) (t : Fin cfg1.N) (xs : Vec F S2048x64 .f32) : Vec F S2048x64 .f32 × Vec F S2048x64 .f32 :=
  if h0 : t.val % 4 = 0 then (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t))
  else if h1 : t.val % 4 = 3 then (out1_C_3 c (grid1.coords t) (ms1_0 t) (hs1_0 t) (ms1_1 t) (hs1_1 t) (ms1_2 t) (hs1_2 t) (ms1_3 t) (hs1_3 t) scM1_0 (Memref.isWhole_whole _) (mt (hcond1_0 t).mp h0) ((hcond1_1 t).mpr h1) (iblk1 V c 0 t) (iblk1 V c 1 t) (iblk1 V c 2 t) xs, sout1_C_0 c (grid1.coords t) (ms1_0 t) (hs1_0 t) (ms1_1 t) (hs1_1 t) (ms1_2 t) (hs1_2 t) (ms1_3 t) (hs1_3 t) scM1_0 (Memref.isWhole_whole _) (mt (hcond1_0 t).mp h0) ((hcond1_1 t).mpr h1) (iblk1 V c 0 t) (iblk1 V c 1 t) (iblk1 V c 2 t) xs)
  else (out1_B_3 c (grid1.coords t) (ms1_0 t) (hs1_0 t) (ms1_1 t) (hs1_1 t) (ms1_2 t) (hs1_2 t) (ms1_3 t) (hs1_3 t) scM1_0 (Memref.isWhole_whole _) (mt (hcond1_0 t).mp h0) (mt (hcond1_1 t).mp h1) (iblk1 V c 0 t) (iblk1 V c 1 t) (iblk1 V c 2 t) xs, sout1_B_0 c (grid1.coords t) (ms1_0 t) (hs1_0 t) (ms1_1 t) (hs1_1 t) (ms1_2 t) (hs1_2 t) (ms1_3 t) (hs1_3 t) scM1_0 (Memref.isWhole_whole _) (mt (hcond1_0 t).mp h0) (mt (hcond1_1 t).mp h1) (iblk1 V c 0 t) (iblk1 V c 1 t) (iblk1 V c 2 t) xs)

def outsAt1 (c : Dev nD) : (n : ℕ) → n < cfg1.N → Vec F S2048x64 .f32 × Vec F S2048x64 .f32
  | 0, hn => step1 V c ⟨0, hn⟩ (VS1_0.read (Elt F) VS1_0.junk)
  | n + 1, hn => step1 V c ⟨n + 1, hn⟩ (outsAt1 c n (Nat.lt_of_succ_lt hn)).2

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- Before point `n + 1` the accumulator holds what point `n` left in it. -/
def PhiS1 (c : Dev nD) : (n : ℕ) → n ≤ cfg1.N → sProp 𝕄
  | 0, _ => Pipeline.ΦA spec1 c
  | n + 1, hn => iprop(iprop(iprop(owns c scM1_0 fullShare ((outsAt1 V c n hn).2)) ∗ restBut1 (F := F) c) ∗ (∃ r, prngReg c r))

theorem PhiS1_pos (c : Dev nD) : ∀ (n : ℕ) (h : n ≤ cfg1.N) (hz : n ≠ 0),
    PhiS1 V c n h = iprop(iprop(iprop(owns c scM1_0 fullShare ((outsAt1 V c (n - 1) (by omega)).2)) ∗ restBut1 (F := F) c) ∗ (∃ r, prngReg c r))
  | 0, _, hz => absurd rfl hz
  | _ + 1, _, _ => rfl

theorem PhiS1_out (c : Dev nD) : ∀ (n : ℕ) (h : n ≤ cfg1.N), PhiS1 V c n h ⊢ (Pipeline.ΦA spec1 c : sProp 𝕄)
  | 0, _ => Entails.refl _
  | n + 1, h => by
    rw [PhiA1_eq]; unfold PhiS1
    iintro ⟨⟨HS0, Hr⟩, Hg⟩; iframe Hr Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop(PhiS1 V c t.val (Nat.le_of_lt t.isLt) ∗ (dat1 V c).owesAt () t.castSucc
    ∗ (∃ d, owns c (ms1_0 t) fullShare ((dat1 V c).before 0 t d))
    ∗ (∃ d, owns c (ms1_1 t) fullShare ((dat1 V c).before 1 t d))
    ∗ (∃ d, owns c (ms1_2 t) fullShare ((dat1 V c).before 2 t d))
    ∗ (∃ d, owns c (ms1_3 t) fullShare ((dat1 V c).before 3 t d)))

def bodyPost1 (c : Dev nD) (t : Fin cfg1.N) : sProp 𝕄 :=
  iprop(iprop(iprop(iprop(owns c scM1_0 fullShare ((outsAt1 V c t.val t.isLt).2)) ∗ restBut1 (F := F) c) ∗ (∃ r, prngReg c r)) ∗ (dat1 V c).owesAt () t.castSucc
    ∗ owns c (ms1_0 t) fullShare (iblk1 V c 0 t)
    ∗ owns c (ms1_1 t) fullShare (iblk1 V c 1 t)
    ∗ owns c (ms1_2 t) fullShare (iblk1 V c 2 t)
    ∗ (dat1 V c).leavesExact 3 t)

set_option maxHeartbeats 400000 in
/-- `t % 4` selects the case: the accumulator restarts at 0, adds the product of the point's two blocks, and at 3 is scaled into the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  by_cases h1 : t.val % 4 = 3
  · have h0 : ¬t.val % 4 = 0 := by omega
    have hz : t.val ≠ 0 := by omega
    rw [leavesExact_live (dat1 V c) 3 t (liveAt1_3 t h1), after1_3, outsAt1_C V c t h0 h1, PhiS1_pos V c _ _ hz]
    unfold out1_C_3 sout1_C_0; dsimp only
    iintro ⟨⟨⟨HS0, Hr⟩, Hg⟩, Ho, ⟨%d0, H0⟩, ⟨%d1, H1⟩, ⟨%d2, H2⟩, ⟨%d3, H3⟩⟩
    iapply ((kernelRun1_C c (grid1.coords t) _ _ _ _ _ _ _ _ _ _ (mt (hcond1_0 t).mp h0) ((hcond1_1 t).mpr h1) (iblk1 V c 0 t) (iblk1 V c 1 t) (iblk1 V c 2 t) _).2.2 Set.univ _)
    iframe H0 H1 H2
    isplitl [H3]; · iexists _; iexact H3
    isplitl [HS0]; · iexact HS0
    iintro ⟨H0, H1, H2, H3, HS0⟩
    iframe Hr Hg Ho H0 H1 H2
    isplitl [HS0]; · iapply owns_writes_of_cover _ _ _ _ _ _ (scover1_C_0 _ _ _ _ _ _ _ _ _ _ _ _ _ _ _ _ _ _); iexact HS0
    iapply owns_writes_of_cover _ _ _ _ _ _ (cover1_C_3 _ _ _ _ _ _ _ _ _ _ _ _ _ _ _ _ _ _); iexact H3
  rw [Dat.leavesExact_idle (dat1 V c) 3 t (idleAt1_3 t h1) (Bool.eq_false_iff.mpr fun h => h1 ((flush1_3 t).mp h))]
  by_cases h0 : t.val % 4 = 0
  · refine (sep_mono_left (PhiS1_out V c _ _)).trans ?_
    rw [PhiA1_eq, outsAt1_A V c t h0 h1]
    unfold sout1_A_0; dsimp only
    iintro ⟨⟨⟨HS0, Hr⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (mt (hcond1_1 t).mp h1) (iblk1 V c 0 t) (iblk1 V c 1 t) (iblk1 V c 2 t)).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover1_A_0 _ _ _ _ _ _ _ _ _ _ _ _ _ _ _ _ _); iexact HS0
    iexists _; iexact H3
  · have hz : t.val ≠ 0 := fun h => h0 (by rw [h])
    rw [outsAt1_B V c t h0 h1, PhiS1_pos V c _ _ hz]
    unfold sout1_B_0; dsimp only
    iintro ⟨⟨⟨HS0, Hr⟩, Hg⟩, Ho, ⟨%d0, H0⟩, ⟨%d1, H1⟩, ⟨%d2, H2⟩, ⟨%d3, H3⟩⟩
    iapply ((kernelRun1_B c (grid1.coords t) _ _ _ _ _ _ _ _ _ _ (mt (hcond1_0 t).mp h0) (mt (hcond1_1 t).mp h1) (iblk1 V c 0 t) (iblk1 V c 1 t) (iblk1 V c 2 t) _).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover1_B_0 _ _ _ _ _ _ _ _ _ _ _ _ _ _ _ _ _ _); iexact HS0
    iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := Entails.refl _

theorem hout1 (c : Dev nD) : (dat1 V c).Φ (Fin.last cfg1.N) ⊢ (Pipeline.ΦA spec1 c : sProp 𝕄) := PhiS1_out V c _ (Nat.le_refl _)

end Cert.KernelIdeal.Hand

end
-- ==== Proof.KI.R2.lean ====
import proofs.«134441_j56014963474691_1_alg».proof.Proof.Gen.KernelIdeal.Launch
import proofs.«134441_j56014963474691_1_alg».proof.Proof.Gen.KernelIdeal.Skeleton
import proofs.«134441_j56014963474691_1_alg».proof.Proof.Gen.KernelIdeal.Points
import proofs.«134441_j56014963474691_1_alg».proof.Proof.LibBody
import Idealize.ShloMosaic.Lib.Ring
import Idealize.ShloMosaic.Lib.Tactic

set_option maxRecDepth 16384

noncomputable section

namespace Cert.KernelIdeal.Hand

open Cert.KernelIdeal Cert.KernelIdeal.Gen Cert.LibBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The output block is written only at the last step of each reduction. -/
theorem idleAt2_3 : ∀ t : Fin cfg2.N, ¬t.val % 4 = 3 → cfg2.idle 3 (grid2.coords t) = true := by decide +kernel
theorem liveAt2_3 : ∀ t : Fin cfg2.N, t.val % 4 = 3 → cfg2.idle 3 (grid2.coords t) = false := by decide +kernel

abbrev VO2_3 : View sig .tc .vmem S2048x64 .f32 := (Memref.whole cc2_stg3_0 : Memref sig .tc .vmem S2048x64 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x64 .f32 := win2_3.stage (cfg2.slots t 3)
abbrev hs2_3 (t : Fin cfg2.N) : (ms2_3 t).IsWhole := hstage2_3 ((cfg2.slots t 3).cast nbuf2_3)
abbrev scM2_0 : Memref sig .tc .vmem S2048x64 .f32 := Memref.whole cc2_scratch0
abbrev VS2_0 : View sig .tc .vmem S2048x64 .f32 := scM2_0.view

abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns c scM2_0 fullShare d)) ∗ restBut2 (F := F) c) ∗ (∃ r, prngReg c r)) := by
  unfold Pipeline.ΦA; rw [scopedRest2_split]; simp only [scM2_0, owns_whole]; try rfl

section
variable (c : Dev nD) (i : grid2.Coords) (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole)

section
variable (hc0 : cond2_0 i) (hc1 : ¬cond2_1 i) (x0 : Vec F S2048x2048 .bf16) (x1 : Vec F S2048x64 .f32) (x2 : Vec F S2048x1 .f32)

set_option maxHeartbeats 1000000 in
def kernelRun2_A :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    rw [owns_eq_unread (c : Thread nD τ) harg2, owns_eq_unread (c : Thread nD τ) harg3, owns_eq_unread (c : Thread nD τ) harg4, owns_eq_unread (c : Thread nD τ) harg5]; unfold owns
    iintro ⟨H0, H1, H2, H3, ⟨%ds0, %fs0, -, HS0⟩, Hk⟩
    sl_exec (disch := first | exact hc0 | exact hc1)
    sl_step
    iapply Hk; iframe H0 H1 H2 H3
    iexists _; iexact HS0

def out2_A_3 : Vec F S2048x64 .f32 :=
  VO2_3.read (Elt F) (VO2_3.writes (Elt F) VO2_3.junk (kernelRun2_A c i arg2 harg2 arg3 harg3 arg4 harg4 arg5 harg5 arg6 harg6 hc0 hc1 x0 x1 x2).1)

theorem scover2_A_0 (y : S2048x64.Idx) : ∃ pc ∈ (kernelRun2_A c i arg2 harg2 arg3 harg3 arg4 harg4 arg5 harg5 arg6 harg6 hc0 hc1 x0 x1 x2).2.1, y ∈ pc.1.set :=
  View.cover_of_tiledL _ S2048x64.size (by sl_kernel_rfl) y

def sout2_A_0 : Vec F S2048x64 .f32 :=
  VS2_0.read (Elt F) (VS2_0.writes (Elt F) VS2_0.junk (kernelRun2_A c i arg2 harg2 arg3 harg3 arg4 harg4 arg5 harg5 arg6 harg6 hc0 hc1 x0 x1 x2).2.1)

end

section
variable (hc0 : ¬cond2_0 i) (hc1 : ¬cond2_1 i) (x0 : Vec F S2048x2048 .bf16) (x1 : Vec F S2048x64 .f32) (x2 : Vec F S2048x1 .f32) (xs0 : Vec F S2048x64 .f32)

set_option maxHeartbeats 1000000 in
def kernelRun2_B :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    rw [owns_eq_unread (c : Thread nD τ) harg2, owns_eq_unread (c : Thread nD τ) harg3, owns_eq_unread (c : Thread nD τ) harg4, owns_eq_unread (c : Thread nD τ) harg5, owns_eq_unread (c : Thread nD τ) harg6]
    iintro ⟨H0, H1, H2, H3, HS0, Hk⟩
    sl_exec (disch := first | exact hc0 | exact hc1)
    sl_step
    iapply Hk; iframe H0 H1 H2 H3
    iexists _; iexact HS0

def out2_B_3 : Vec F S2048x64 .f32 :=
  VO2_3.read (Elt F) (VO2_3.writes (Elt F) VO2_3.junk (kernelRun2_B c i arg2 harg2 arg3 harg3 arg4 harg4 arg5 harg5 arg6 harg6 hc0 hc1 x0 x1 x2 xs0).1)

theorem scover2_B_0 (y : S2048x64.Idx) : ∃ pc ∈ (kernelRun2_B c i arg2 harg2 arg3 harg3 arg4 harg4 arg5 harg5 arg6 harg6 hc0 hc1 x0 x1 x2 xs0).2.1, y ∈ pc.1.set :=
  View.cover_of_tiledL _ S2048x64.size (by sl_kernel_rfl) y

def sout2_B_0 : Vec F S2048x64 .f32 :=
  VS2_0.read (Elt F) (VS2_0.writes (Elt F) VS2_0.junk (kernelRun2_B c i arg2 harg2 arg3 harg3 arg4 harg4 arg5 harg5 arg6 harg6 hc0 hc1 x0 x1 x2 xs0).2.1)

end

section
variable (hc0 : ¬cond2_0 i) (hc1 : cond2_1 i) (x0 : Vec F S2048x2048 .bf16) (x1 : Vec F S2048x64 .f32) (x2 : Vec F S2048x1 .f32) (xs0 : Vec F S2048x64 .f32)

set_option maxHeartbeats 1000000 in
def kernelRun2_C :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    rw [owns_eq_unread (c : Thread nD τ) harg2, owns_eq_unread (c : Thread nD τ) harg3, owns_eq_unread (c : Thread nD τ) harg4, owns_eq_unread (c : Thread nD τ) harg6]; unfold owns
    iintro ⟨H0, H1, H2, ⟨%d3, %f3, -, H3⟩, HS0, Hk⟩
    sl_exec (disch := first | exact hc0 | exact hc1)
    sl_step
    iapply Hk; iframe H0 H1 H2
    isplitl [H3]; · iexists _; iexact H3
    iexists _; iexact HS0

def out2_C_3 : Vec F S2048x64 .f32 :=
  VO2_3.read (Elt F) (VO2_3.writes (Elt F) VO2_3.junk (kernelRun2_C c i arg2 harg2 arg3 harg3 arg4 harg4 arg5 harg5 arg6 harg6 hc0 hc1 x0 x1 x2 xs0).1)

theorem cover2_C_3 (y : S2048x64.Idx) : ∃ pc ∈ (kernelRun2_C c i arg2 harg2 arg3 harg3 arg4 harg4 arg5 harg5 arg6 harg6 hc0 hc1 x0 x1 x2 xs0).1, y ∈ pc.1.set :=
  View.cover_of_tiledL _ S2048x64.size (by sl_kernel_rfl) y

theorem scover2_C_0 (y : S2048x64.Idx) : ∃ pc ∈ (kernelRun2_C c i arg2 harg2 arg3 harg3 arg4 harg4 arg5 harg5 arg6 harg6 hc0 hc1 x0 x1 x2 xs0).2.1, y ∈ pc.1.set :=
  View.cover_of_tiledL _ S2048x64.size (by sl_kernel_rfl) y

def sout2_C_0 : Vec F S2048x64 .f32 :=
  VS2_0.read (Elt F) (VS2_0.writes (Elt F) VS2_0.junk (kernelRun2_C c i arg2 harg2 arg3 harg3 arg4 harg4 arg5 harg5 arg6 harg6 hc0 hc1 x0 x1 x2 xs0).2.1)

end

end

/-- What a point leaves in the output block and in the accumulator, given what the accumulator held before it. -/
def step2 (c : Dev nD) (t : Fin cfg2.N) (xs : Vec F S2048x64 .f32) : Vec F S2048x64 .f32 × Vec F S2048x64 .f32 :=
  if h0 : t.val % 4 = 0 then (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => by have := (hcond2_1 t).mp h; omega) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => by have := (hcond2_1 t).mp h; omega) (iblk2 V c 0 t) (iblk2 V c 1 t) (iblk2 V c 2 t))
  else if h1 : t.val % 4 = 3 then (out2_C_3 c (grid2.coords t) (ms2_0 t) (hs2_0 t) (ms2_1 t) (hs2_1 t) (ms2_2 t) (hs2_2 t) (ms2_3 t) (hs2_3 t) scM2_0 (Memref.isWhole_whole _) (mt (hcond2_0 t).mp h0) ((hcond2_1 t).mpr h1) (iblk2 V c 0 t) (iblk2 V c 1 t) (iblk2 V c 2 t) xs, sout2_C_0 c (grid2.coords t) (ms2_0 t) (hs2_0 t) (ms2_1 t) (hs2_1 t) (ms2_2 t) (hs2_2 t) (ms2_3 t) (hs2_3 t) scM2_0 (Memref.isWhole_whole _) (mt (hcond2_0 t).mp h0) ((hcond2_1 t).mpr h1) (iblk2 V c 0 t) (iblk2 V c 1 t) (iblk2 V c 2 t) xs)
  else (out2_B_3 c (grid2.coords t) (ms2_0 t) (hs2_0 t) (ms2_1 t) (hs2_1 t) (ms2_2 t) (hs2_2 t) (ms2_3 t) (hs2_3 t) scM2_0 (Memref.isWhole_whole _) (mt (hcond2_0 t).mp h0) (mt (hcond2_1 t).mp h1) (iblk2 V c 0 t) (iblk2 V c 1 t) (iblk2 V c 2 t) xs, sout2_B_0 c (grid2.coords t) (ms2_0 t) (hs2_0 t) (ms2_1 t) (hs2_1 t) (ms2_2 t) (hs2_2 t) (ms2_3 t) (hs2_3 t) scM2_0 (Memref.isWhole_whole _) (mt (hcond2_0 t).mp h0) (mt (hcond2_1 t).mp h1) (iblk2 V c 0 t) (iblk2 V c 1 t) (iblk2 V c 2 t) xs)

def outsAt2 (c : Dev nD) : (n : ℕ) → n < cfg2.N → Vec F S2048x64 .f32 × Vec F S2048x64 .f32
  | 0, hn => step2 V c ⟨0, hn⟩ (VS2_0.read (Elt F) VS2_0.junk)
  | n + 1, hn => step2 V c ⟨n + 1, hn⟩ (outsAt2 c n (Nat.lt_of_succ_lt hn)).2

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => rfl
  | succ n => exact (dif_pos h0).trans rfl

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- Before point `n + 1` the accumulator holds what point `n` left in it. -/
def PhiS2 (c : Dev nD) : (n : ℕ) → n ≤ cfg2.N → sProp 𝕄
  | 0, _ => Pipeline.ΦA spec2 c
  | n + 1, hn => iprop(iprop(iprop(owns c scM2_0 fullShare ((outsAt2 V c n hn).2)) ∗ restBut2 (F := F) c) ∗ (∃ r, prngReg c r))

theorem PhiS2_pos (c : Dev nD) : ∀ (n : ℕ) (h : n ≤ cfg2.N) (hz : n ≠ 0),
    PhiS2 V c n h = iprop(iprop(iprop(owns c scM2_0 fullShare ((outsAt2 V c (n - 1) (by omega)).2)) ∗ restBut2 (F := F) c) ∗ (∃ r, prngReg c r))
  | 0, _, hz => absurd rfl hz
  | _ + 1, _, _ => rfl

theorem PhiS2_out (c : Dev nD) : ∀ (n : ℕ) (h : n ≤ cfg2.N), PhiS2 V c n h ⊢ (Pipeline.ΦA spec2 c : sProp 𝕄)
  | 0, _ => Entails.refl _
  | n + 1, h => by
    rw [PhiA2_eq]; unfold PhiS2
    iintro ⟨⟨HS0, Hr⟩, Hg⟩; iframe Hr Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = (outsAt2 V c t.val t.isLt).1 := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop(PhiS2 V c t.val (Nat.le_of_lt t.isLt) ∗ (dat2 V c).owesAt () t.castSucc
    ∗ (∃ d, owns c (ms2_0 t) fullShare ((dat2 V c).before 0 t d))
    ∗ (∃ d, owns c (ms2_1 t) fullShare ((dat2 V c).before 1 t d))
    ∗ (∃ d, owns c (ms2_2 t) fullShare ((dat2 V c).before 2 t d))
    ∗ (∃ d, owns c (ms2_3 t) fullShare ((dat2 V c).before 3 t d)))

def bodyPost2 (c : Dev nD) (t : Fin cfg2.N) : sProp 𝕄 :=
  iprop(iprop(iprop(iprop(owns c scM2_0 fullShare ((outsAt2 V c t.val t.isLt).2)) ∗ restBut2 (F := F) c) ∗ (∃ r, prngReg c r)) ∗ (dat2 V c).owesAt () t.castSucc
    ∗ owns c (ms2_0 t) fullShare (iblk2 V c 0 t)
    ∗ owns c (ms2_1 t) fullShare (iblk2 V c 1 t)
    ∗ owns c (ms2_2 t) fullShare (iblk2 V c 2 t)
    ∗ (dat2 V c).leavesExact 3 t)

set_option maxHeartbeats 400000 in
/-- `t % 4` selects the case: the accumulator restarts at 0, adds the product of the point's two blocks, and at 3 is scaled into the output block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  by_cases h1 : t.val % 4 = 3
  · have h0 : ¬t.val % 4 = 0 := by omega
    have hz : t.val ≠ 0 := by omega
    rw [leavesExact_live (dat2 V c) 3 t (liveAt2_3 t h1), after2_3, outsAt2_C V c t h0 h1, PhiS2_pos V c _ _ hz]
    unfold out2_C_3 sout2_C_0; dsimp only
    iintro ⟨⟨⟨HS0, Hr⟩, Hg⟩, Ho, ⟨%d0, H0⟩, ⟨%d1, H1⟩, ⟨%d2, H2⟩, ⟨%d3, H3⟩⟩
    iapply ((kernelRun2_C c (grid2.coords t) _ _ _ _ _ _ _ _ _ _ (mt (hcond2_0 t).mp h0) ((hcond2_1 t).mpr h1) (iblk2 V c 0 t) (iblk2 V c 1 t) (iblk2 V c 2 t) _).2.2 Set.univ _)
    iframe H0 H1 H2
    isplitl [H3]; · iexists _; iexact H3
    isplitl [HS0]; · iexact HS0
    iintro ⟨H0, H1, H2, H3, HS0⟩
    iframe Hr Hg Ho H0 H1 H2
    isplitl [HS0]; · iapply owns_writes_of_cover _ _ _ _ _ _ (scover2_C_0 _ _ _ _ _ _ _ _ _ _ _ _ _ _ _ _ _ _); iexact HS0
    iapply owns_writes_of_cover _ _ _ _ _ _ (cover2_C_3 _ _ _ _ _ _ _ _ _ _ _ _ _ _ _ _ _ _); iexact H3
  rw [Dat.leavesExact_idle (dat2 V c) 3 t (idleAt2_3 t h1) (Bool.eq_false_iff.mpr fun h => h1 ((flush2_3 t).mp h))]
  by_cases h0 : t.val % 4 = 0
  · refine (sep_mono_left (PhiS2_out V c _ _)).trans ?_
    rw [PhiA2_eq, outsAt2_A V c t h0 h1]
    unfold sout2_A_0; dsimp only
    iintro ⟨⟨⟨HS0, Hr⟩, Hg⟩, Ho, ⟨%d0, H0⟩, ⟨%d1, H1⟩, ⟨%d2, H2⟩, ⟨%d3, H3⟩⟩
    iapply ((kernelRun2_A c (grid2.coords t) _ _ _ _ _ _ _ _ _ _ ((hcond2_0 t).mpr h0) (mt (hcond2_1 t).mp h1) (iblk2 V c 0 t) (iblk2 V c 1 t) (iblk2 V c 2 t)).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover2_A_0 _ _ _ _ _ _ _ _ _ _ _ _ _ _ _ _ _); iexact HS0
    iexists _; iexact H3
  · have hz : t.val ≠ 0 := fun h => h0 (by rw [h])
    rw [outsAt2_B V c t h0 h1, PhiS2_pos V c _ _ hz]
    unfold sout2_B_0; dsimp only
    iintro ⟨⟨⟨HS0, Hr⟩, Hg⟩, Ho, ⟨%d0, H0⟩, ⟨%d1, H1⟩, ⟨%d2, H2⟩, ⟨%d3, H3⟩⟩
    iapply ((kernelRun2_B c (grid2.coords t) _ _ _ _ _ _ _ _ _ _ (mt (hcond2_0 t).mp h0) (mt (hcond2_1 t).mp h1) (iblk2 V c 0 t) (iblk2 V c 1 t) (iblk2 V c 2 t) _).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover2_B_0 _ _ _ _ _ _ _ _ _ _ _ _ _ _ _ _ _ _); iexact HS0
    iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Entails.refl _

theorem hout2 (c : Dev nD) : (dat2 V c).Φ (Fin.last cfg2.N) ⊢ (Pipeline.ΦA spec2 c : sProp 𝕄) := PhiS2_out V c _ (Nat.le_refl _)

end Cert.KernelIdeal.Hand

end
-- ==== Proof.KI.R3.lean ====
import proofs.«134441_j56014963474691_1_alg».proof.Proof.Gen.KernelIdeal.Launch
import proofs.«134441_j56014963474691_1_alg».proof.Proof.Gen.KernelIdeal.Skeleton
import proofs.«134441_j56014963474691_1_alg».proof.Proof.Gen.KernelIdeal.Points
import proofs.«134441_j56014963474691_1_alg».proof.Proof.LibBody
import Idealize.ShloMosaic.Lib.Ring
import Idealize.ShloMosaic.Lib.Tactic

set_option maxRecDepth 16384

noncomputable section

namespace Cert.KernelIdeal.Hand

open Cert.KernelIdeal Cert.KernelIdeal.Gen Cert.LibBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-- The output block is written only at the last step of each reduction. -/
theorem idleAt3_3 : ∀ t : Fin cfg3.N, ¬t.val % 4 = 3 → cfg3.idle 3 (grid3.coords t) = true := by decide +kernel
theorem liveAt3_3 : ∀ t : Fin cfg3.N, t.val % 4 = 3 → cfg3.idle 3 (grid3.coords t) = false := by decide +kernel

abbrev VO3_3 : View sig .tc .vmem S2048x64 .f32 := (Memref.whole cc3_stg3_0 : Memref sig .tc .vmem S2048x64 .f32).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x64 .f32 := win3_3.stage (cfg3.slots t 3)
abbrev hs3_3 (t : Fin cfg3.N) : (ms3_3 t).IsWhole := hstage3_3 ((cfg3.slots t 3).cast nbuf3_3)
abbrev scM3_0 : Memref sig .tc .vmem S2048x64 .f32 := Memref.whole cc3_scratch0
abbrev VS3_0 : View sig .tc .vmem S2048x64 .f32 := scM3_0.view

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns c scM3_0 fullShare d)) ∗ restBut3 (F := F) c) ∗ (∃ r, prngReg c r)) := by
  unfold Pipeline.ΦA; rw [scopedRest3_split]; simp only [scM3_0, owns_whole]; try rfl

section
variable (c : Dev nD) (i : grid3.Coords) (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole)

section
variable (hc0 : cond3_0 i) (hc1 : ¬cond3_1 i) (x0 : Vec F S2048x2048 .bf16) (x1 : Vec F S2048x64 .f32) (x2 : Vec F S2048x1 .f32)

set_option maxHeartbeats 1000000 in
def kernelRun3_A :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    rw [owns_eq_unread (c : Thread nD τ) harg2, owns_eq_unread (c : Thread nD τ) harg3, owns_eq_unread (c : Thread nD τ) harg4, owns_eq_unread (c : Thread nD τ) harg5]; unfold owns
    iintro ⟨H0, H1, H2, H3, ⟨%ds0, %fs0, -, HS0⟩, Hk⟩
    sl_exec (disch := first | exact hc0 | exact hc1)
    sl_step
    iapply Hk; iframe H0 H1 H2 H3
    iexists _; iexact HS0

def out3_A_3 : Vec F S2048x64 .f32 :=
  VO3_3.read (Elt F) (VO3_3.writes (Elt F) VO3_3.junk (kernelRun3_A c i arg2 harg2 arg3 harg3 arg4 harg4 arg5 harg5 arg6 harg6 hc0 hc1 x0 x1 x2).1)

theorem scover3_A_0 (y : S2048x64.Idx) : ∃ pc ∈ (kernelRun3_A c i arg2 harg2 arg3 harg3 arg4 harg4 arg5 harg5 arg6 harg6 hc0 hc1 x0 x1 x2).2.1, y ∈ pc.1.set :=
  View.cover_of_tiledL _ S2048x64.size (by sl_kernel_rfl) y

def sout3_A_0 : Vec F S2048x64 .f32 :=
  VS3_0.read (Elt F) (VS3_0.writes (Elt F) VS3_0.junk (kernelRun3_A c i arg2 harg2 arg3 harg3 arg4 harg4 arg5 harg5 arg6 harg6 hc0 hc1 x0 x1 x2).2.1)

end

section
variable (hc0 : ¬cond3_0 i) (hc1 : ¬cond3_1 i) (x0 : Vec F S2048x2048 .bf16) (x1 : Vec F S2048x64 .f32) (x2 : Vec F S2048x1 .f32) (xs0 : Vec F S2048x64 .f32)

set_option maxHeartbeats 1000000 in
def kernelRun3_B :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    rw [owns_eq_unread (c : Thread nD τ) harg2, owns_eq_unread (c : Thread nD τ) harg3, owns_eq_unread (c : Thread nD τ) harg4, owns_eq_unread (c : Thread nD τ) harg5, owns_eq_unread (c : Thread nD τ) harg6]
    iintro ⟨H0, H1, H2, H3, HS0, Hk⟩
    sl_exec (disch := first | exact hc0 | exact hc1)
    sl_step
    iapply Hk; iframe H0 H1 H2 H3
    iexists _; iexact HS0

def out3_B_3 : Vec F S2048x64 .f32 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (y : S2048x64.Idx) : ∃ pc ∈ (kernelRun3_B c i arg2 harg2 arg3 harg3 arg4 harg4 arg5 harg5 arg6 harg6 hc0 hc1 x0 x1 x2 xs0).2.1, y ∈ pc.1.set :=
  View.cover_of_tiledL _ S2048x64.size (by sl_kernel_rfl) y

def sout3_B_0 : Vec F S2048x64 .f32 :=
  VS3_0.read (Elt F) (VS3_0.writes (Elt F) VS3_0.junk (kernelRun3_B c i arg2 harg2 arg3 harg3 arg4 harg4 arg5 harg5 arg6 harg6 hc0 hc1 x0 x1 x2 xs0).2.1)

end

section
variable (hc0 : ¬cond3_0 i) (hc1 : cond3_1 i) (x0 : Vec F S2048x2048 .bf16) (x1 : Vec F S2048x64 .f32) (x2 : Vec F S2048x1 .f32) (xs0 : Vec F S2048x64 .f32)

set_option maxHeartbeats 1000000 in
def kernelRun3_C :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    rw [owns_eq_unread (c : Thread nD τ) harg2, owns_eq_unread (c : Thread nD τ) harg3, owns_eq_unread (c : Thread nD τ) harg4, owns_eq_unread (c : Thread nD τ) harg6]; unfold owns
    iintro ⟨H0, H1, H2, ⟨%d3, %f3, -, H3⟩, HS0, Hk⟩
    sl_exec (disch := first | exact hc0 | exact hc1)
    sl_step
    iapply Hk; iframe H0 H1 H2
    isplitl [H3]; · iexists _; iexact H3
    iexists _; iexact HS0

def out3_C_3 : Vec F S2048x64 .f32 :=
  VO3_3.read (Elt F) (VO3_3.writes (Elt F) VO3_3.junk (kernelRun3_C c i arg2 harg2 arg3 harg3 arg4 harg4 arg5 harg5 arg6 harg6 hc0 hc1 x0 x1 x2 xs0).1)

theorem cover3_C_3 (y : S2048x64.Idx) : ∃ pc ∈ (kernelRun3_C c i arg2 harg2 arg3 harg3 arg4 harg4 arg5 harg5 arg6 harg6 hc0 hc1 x0 x1 x2 xs0).1, y ∈ pc.1.set :=
  View.cover_of_tiledL _ S2048x64.size (by sl_kernel_rfl) y

theorem scover3_C_0 (y : S2048x64.Idx) : ∃ pc ∈ (kernelRun3_C c i arg2 harg2 arg3 harg3 arg4 harg4 arg5 harg5 arg6 harg6 hc0 hc1 x0 x1 x2 xs0).2.1, y ∈ pc.1.set :=
  View.cover_of_tiledL _ S2048x64.size (by sl_kernel_rfl) y

def sout3_C_0 : Vec F S2048x64 .f32 :=
  VS3_0.read (Elt F) (VS3_0.writes (Elt F) VS3_0.junk (kernelRun3_C c i arg2 harg2 arg3 harg3 arg4 harg4 arg5 harg5 arg6 harg6 hc0 hc1 x0 x1 x2 xs0).2.1)

end

end

/-- What a point leaves in the output block and in the accumulator, given what the accumulator held before it. -/
def step3 (c : Dev nD) (t : Fin cfg3.N) (xs : Vec F S2048x64 .f32) : Vec F S2048x64 .f32 × Vec F S2048x64 .f32 :=
  if h0 : t.val % 4 = 0 then (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => by have := (hcond3_1 t).mp h; omega) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => by have := (hcond3_1 t).mp h; omega) (iblk3 V c 0 t) (iblk3 V c 1 t) (iblk3 V c 2 t))
  else if h1 : t.val % 4 = 3 then (out3_C_3 c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) xs, sout3_C_0 c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) xs)
  else (out3_B_3 c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) xs, sout3_B_0 c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) xs)

def outsAt3 (c : Dev nD) : (n : ℕ) → n < cfg3.N → Vec F S2048x64 .f32 × Vec F S2048x64 .f32
  | 0, hn => step3 V c ⟨0, hn⟩ (VS3_0.read (Elt F) VS3_0.junk)
  | n + 1, hn => step3 V c ⟨n + 1, hn⟩ (outsAt3 c n (Nat.lt_of_succ_lt hn)).2

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => rfl
  | succ n => exact (dif_pos h0).trans rfl

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- Before point `n + 1` the accumulator holds what point `n` left in it. -/
def PhiS3 (c : Dev nD) : (n : ℕ) → n ≤ cfg3.N → sProp 𝕄
  | 0, _ => Pipeline.ΦA spec3 c
  | n + 1, hn => iprop(iprop(iprop(owns c scM3_0 fullShare ((outsAt3 V c n hn).2)) ∗ restBut3 (F := F) c) ∗ (∃ r, prngReg c r))

theorem PhiS3_pos (c : Dev nD) : ∀ (n : ℕ) (h : n ≤ cfg3.N) (hz : n ≠ 0),
    PhiS3 V c n h = iprop(iprop(iprop(owns c scM3_0 fullShare ((outsAt3 V c (n - 1) (by omega)).2)) ∗ restBut3 (F := F) c) ∗ (∃ r, prngReg c r))
  | 0, _, hz => absurd rfl hz
  | _ + 1, _, _ => rfl

theorem PhiS3_out (c : Dev nD) : ∀ (n : ℕ) (h : n ≤ cfg3.N), PhiS3 V c n h ⊢ (Pipeline.ΦA spec3 c : sProp 𝕄)
  | 0, _ => Entails.refl _
  | n + 1, h => by
    rw [PhiA3_eq]; unfold PhiS3
    iintro ⟨⟨HS0, Hr⟩, Hg⟩; iframe Hr Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop(PhiS3 V c t.val (Nat.le_of_lt t.isLt) ∗ (dat3 V c).owesAt () t.castSucc
    ∗ (∃ d, owns c (ms3_0 t) fullShare ((dat3 V c).before 0 t d))
    ∗ (∃ d, owns c (ms3_1 t) fullShare ((dat3 V c).before 1 t d))
    ∗ (∃ d, owns c (ms3_2 t) fullShare ((dat3 V c).before 2 t d))
    ∗ (∃ d, owns c (ms3_3 t) fullShare ((dat3 V c).before 3 t d)))

def bodyPost3 (c : Dev nD) (t : Fin cfg3.N) : sProp 𝕄 :=
  iprop(iprop(iprop(iprop(owns c scM3_0 fullShare ((outsAt3 V c t.val t.isLt).2)) ∗ restBut3 (F := F) c) ∗ (∃ r, prngReg c r)) ∗ (dat3 V c).owesAt () t.castSucc
    ∗ owns c (ms3_0 t) fullShare (iblk3 V c 0 t)
    ∗ owns c (ms3_1 t) fullShare (iblk3 V c 1 t)
    ∗ owns c (ms3_2 t) fullShare (iblk3 V c 2 t)
    ∗ (dat3 V c).leavesExact 3 t)

set_option maxHeartbeats 400000 in
/-- `t % 4` selects the case: the accumulator restarts at 0, adds the product of the point's two blocks, and at 3 is scaled into the output block. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  by_cases h1 : t.val % 4 = 3
  · have h0 : ¬t.val % 4 = 0 := by omega
    have hz : t.val ≠ 0 := by omega
    rw [leavesExact_live (dat3 V c) 3 t (liveAt3_3 t h1), after3_3, outsAt3_C V c t h0 h1, PhiS3_pos V c _ _ hz]
    unfold out3_C_3 sout3_C_0; dsimp only
    iintro ⟨⟨⟨HS0, Hr⟩, Hg⟩, Ho, ⟨%d0, H0⟩, ⟨%d1, H1⟩, ⟨%d2, H2⟩, ⟨%d3, H3⟩⟩
    iapply ((kernelRun3_C c (grid3.coords t) _ _ _ _ _ _ _ _ _ _ (mt (hcond3_0 t).mp h0) ((hcond3_1 t).mpr h1) (iblk3 V c 0 t) (iblk3 V c 1 t) (iblk3 V c 2 t) _).2.2 Set.univ _)
    iframe H0 H1 H2
    isplitl [H3]; · iexists _; iexact H3
    isplitl [HS0]; · iexact HS0
    iintro ⟨H0, H1, H2, H3, HS0⟩
    iframe Hr Hg Ho H0 H1 H2
    isplitl [HS0]; · iapply owns_writes_of_cover _ _ _ _ _ _ (scover3_C_0 _ _ _ _ _ _ _ _ _ _ _ _ _ _ _ _ _ _); iexact HS0
    iapply owns_writes_of_cover _ _ _ _ _ _ (cover3_C_3 _ _ _ _ _ _ _ _ _ _ _ _ _ _ _ _ _ _); iexact H3
  rw [Dat.leavesExact_idle (dat3 V c) 3 t (idleAt3_3 t h1) (Bool.eq_false_iff.mpr fun h => h1 ((flush3_3 t).mp h))]
  by_cases h0 : t.val % 4 = 0
  · refine (sep_mono_left (PhiS3_out V c _ _)).trans ?_
    rw [PhiA3_eq, outsAt3_A V c t h0 h1]
    unfold sout3_A_0; dsimp only
    iintro ⟨⟨⟨HS0, Hr⟩, Hg⟩, Ho, ⟨%d0, H0⟩, ⟨%d1, H1⟩, ⟨%d2, H2⟩, ⟨%d3, H3⟩⟩
    iapply ((kernelRun3_A c (grid3.coords t) _ _ _ _ _ _ _ _ _ _ ((hcond3_0 t).mpr h0) (mt (hcond3_1 t).mp h1) (iblk3 V c 0 t) (iblk3 V c 1 t) (iblk3 V c 2 t)).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover3_A_0 _ _ _ _ _ _ _ _ _ _ _ _ _ _ _ _ _); iexact HS0
    iexists _; iexact H3
  · have hz : t.val ≠ 0 := fun h => h0 (by rw [h])
    rw [outsAt3_B V c t h0 h1, PhiS3_pos V c _ _ hz]
    unfold sout3_B_0; dsimp only
    iintro ⟨⟨⟨HS0, Hr⟩, Hg⟩, Ho, ⟨%d0, H0⟩, ⟨%d1, H1⟩, ⟨%d2, H2⟩, ⟨%d3, H3⟩⟩
    iapply ((kernelRun3_B c (grid3.coords t) _ _ _ _ _ _ _ _ _ _ (mt (hcond3_0 t).mp h0) (mt (hcond3_1 t).mp h1) (iblk3 V c 0 t) (iblk3 V c 1 t) (iblk3 V c 2 t) _).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover3_B_0 _ _ _ _ _ _ _ _ _ _ _ _ _ _ _ _ _ _); iexact HS0
    iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := Entails.refl _

theorem hout3 (c : Dev nD) : (dat3 V c).Φ (Fin.last cfg3.N) ⊢ (Pipeline.ΦA spec3 c : sProp 𝕄) := PhiS3_out V c _ (Nat.le_refl _)

end Cert.KernelIdeal.Hand

end
-- ==== Proof.KI.R4.lean ====
import proofs.«134441_j56014963474691_1_alg».proof.Proof.Gen.KernelIdeal.Launch
import proofs.«134441_j56014963474691_1_alg».proof.Proof.Gen.KernelIdeal.Skeleton
import proofs.«134441_j56014963474691_1_alg».proof.Proof.Gen.KernelIdeal.Points
import proofs.«134441_j56014963474691_1_alg».proof.Proof.LibBody
import Idealize.ShloMosaic.Lib.Ring
import Idealize.ShloMosaic.Lib.Tactic

set_option maxRecDepth 16384

noncomputable section

namespace Cert.KernelIdeal.Hand

open Cert.KernelIdeal Cert.KernelIdeal.Gen Cert.LibBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-- The output block is written only at the last step of each reduction. -/
theorem idleAt4_3 : ∀ t : Fin cfg4.N, ¬t.val % 4 = 3 → cfg4.idle 3 (grid4.coords t) = true := by decide +kernel
theorem liveAt4_3 : ∀ t : Fin cfg4.N, t.val % 4 = 3 → cfg4.idle 3 (grid4.coords t) = false := by decide +kernel

abbrev VO4_3 : View sig .tc .vmem S2048x64 .f32 := (Memref.whole cc4_stg3_0 : Memref sig .tc .vmem S2048x64 .f32).view
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x64 .f32 := win4_3.stage (cfg4.slots t 3)
abbrev hs4_3 (t : Fin cfg4.N) : (ms4_3 t).IsWhole := hstage4_3 ((cfg4.slots t 3).cast nbuf4_3)
abbrev scM4_0 : Memref sig .tc .vmem S2048x64 .f32 := Memref.whole cc4_scratch0
abbrev VS4_0 : View sig .tc .vmem S2048x64 .f32 := scM4_0.view

abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns c scM4_0 fullShare d)) ∗ restBut4 (F := F) c) ∗ (∃ r, prngReg c r)) := by
  unfold Pipeline.ΦA; rw [scopedRest4_split]; simp only [scM4_0, owns_whole]; try rfl

section
variable (c : Dev nD) (i : grid4.Coords) (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole) (arg6 : Memref sig .tc .vmem S2048x64 .f32) (harg6 : arg6.IsWhole)

section
variable (hc0 : cond4_0 i) (hc1 : ¬cond4_1 i) (x0 : Vec F S2048x2048 .bf16) (x1 : Vec F S2048x64 .f32) (x2 : Vec F S2048x1 .f32)

set_option maxHeartbeats 1000000 in
def kernelRun4_A :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_kernel i arg2 harg2 arg3 harg3 arg4 harg4 arg5 harg5 arg6 harg6) K } := by
  refine ⟨[], ?_, fun xi3 E K => ?run⟩
  case run =>
    simp only [cc4_kernel_eq_skeleton]; unfold cc4_kernel_skel
    rw [owns_eq_unread (c : Thread nD τ) harg2, owns_eq_unread (c : Thread nD τ) harg3, owns_eq_unread (c : Thread nD τ) harg4, owns_eq_unread (c : Thread nD τ) harg5]; unfold owns
    iintro ⟨H0, H1, H2, H3, ⟨%ds0, %fs0, -, HS0⟩, Hk⟩
    sl_exec (disch := first | exact hc0 | exact hc1)
    sl_step
    iapply Hk; iframe H0 H1 H2 H3
    iexists _; iexact HS0

def out4_A_3 : Vec F S2048x64 .f32 :=
  VO4_3.read (Elt F) (VO4_3.writes (Elt F) VO4_3.junk (kernelRun4_A c i arg2 harg2 arg3 harg3 arg4 harg4 arg5 harg5 arg6 harg6 hc0 hc1 x0 x1 x2).1)

theorem scover4_A_0 (y : S2048x64.Idx) : ∃ pc ∈ (kernelRun4_A c i arg2 harg2 arg3 harg3 arg4 harg4 arg5 harg5 arg6 harg6 hc0 hc1 x0 x1 x2).2.1, y ∈ pc.1.set :=
  View.cover_of_tiledL _ S2048x64.size (by sl_kernel_rfl) y

def sout4_A_0 : Vec F S2048x64 .f32 :=
  VS4_0.read (Elt F) (VS4_0.writes (Elt F) VS4_0.junk (kernelRun4_A c i arg2 harg2 arg3 harg3 arg4 harg4 arg5 harg5 arg6 harg6 hc0 hc1 x0 x1 x2).2.1)

end

section
variable (hc0 : ¬cond4_0 i) (hc1 : ¬cond4_1 i) (x0 : Vec F S2048x2048 .bf16) (x1 : Vec F S2048x64 .f32) (x2 : Vec F S2048x1 .f32) (xs0 : Vec F S2048x64 .f32)

set_option maxHeartbeats 1000000 in
def kernelRun4_B :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4_kernel i arg2 harg2 arg3 harg3 arg4 harg4 arg5 harg5 arg6 harg6) K } := by
  refine ⟨[], ?_, fun xi3 E K => ?run⟩
  case run =>
    simp only [cc4_kernel_eq_skeleton]; unfold cc4_kernel_skel
    rw [owns_eq_unread (c : Thread nD τ) harg2, owns_eq_unread (c : Thread nD τ) harg3, owns_eq_unread (c : Thread nD τ) harg4, owns_eq_unread (c : Thread nD τ) harg5, owns_eq_unread (c : Thread nD τ) harg6]
    iintro ⟨H0, H1, H2, H3, HS0, Hk⟩
    sl_exec (disch := first | exact hc0 | exact hc1)
    sl_step
    iapply Hk; iframe H0 H1 H2 H3
    iexists _; iexact HS0

def out4_B_3 : Vec F S2048x64 .f32 :=
  VO4_3.read (Elt F) (VO4_3.writes (Elt F) VO4_3.junk (kernelRun4_B c i arg2 harg2 arg3 harg3 arg4 harg4 arg5 harg5 arg6 harg6 hc0 hc1 x0 x1 x2 xs0).1)

theorem scover4_B_0 (y : S2048x64.Idx) : ∃ pc ∈ (kernelRun4_B c i arg2 harg2 arg3 harg3 arg4 harg4 arg5 harg5 arg6 harg6 hc0 hc1 x0 x1 x2 xs0).2.1, y ∈ pc.1.set :=
  View.cover_of_tiledL _ S2048x64.size (by sl_kernel_rfl) y

def sout4_B_0 : Vec F S2048x64 .f32 :=
  VS4_0.read (Elt F) (VS4_0.writes (Elt F) VS4_0.junk (kernelRun4_B c i arg2 harg2 arg3 harg3 arg4 harg4 arg5 harg5 arg6 harg6 hc0 hc1 x0 x1 x2 xs0).2.1)

end

section
variable (hc0 : ¬cond4_0 i) (hc1 : cond4_1 i) (x0 : Vec F S2048x2048 .bf16) (x1 : Vec F S2048x64 .f32) (x2 : Vec F S2048x1 .f32) (xs0 : Vec F S2048x64 .f32)

set_option maxHeartbeats 1000000 in
def kernelRun4_C :
    Σ' (L3 : List (View.Piece (Elt F) S2048x64 .f32)), { LS0 : List (View.Piece (Elt F) S2048x64 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4_kernel i arg2 harg2 arg3 harg3 arg4 harg4 arg5 harg5 arg6 harg6) K } := by
  refine ⟨?_, ?_, fun E K => ?run⟩
  case run =>
    simp only [cc4_kernel_eq_skeleton]; unfold cc4_kernel_skel
    rw [owns_eq_unread (c : Thread nD τ) harg2, owns_eq_unread (c : Thread nD τ) harg3, owns_eq_unread (c : Thread nD τ) harg4, owns_eq_unread (c : Thread nD τ) harg6]; unfold owns
    iintro ⟨H0, H1, H2, ⟨%d3, %f3, -, H3⟩, HS0, Hk⟩
    sl_exec (disch := first | exact hc0 | exact hc1)
    sl_step
    iapply Hk; iframe H0 H1 H2
    isplitl [H3]; · iexists _; iexact H3
    iexists _; iexact HS0

def out4_C_3 : Vec F S2048x64 .f32 :=
  VO4_3.read (Elt F) (VO4_3.writes (Elt F) VO4_3.junk (kernelRun4_C c i arg2 harg2 arg3 harg3 arg4 harg4 arg5 harg5 arg6 harg6 hc0 hc1 x0 x1 x2 xs0).1)

theorem cover4_C_3 (y : S2048x64.Idx) : ∃ pc ∈ (kernelRun4_C c i arg2 harg2 arg3 harg3 arg4 harg4 arg5 harg5 arg6 harg6 hc0 hc1 x0 x1 x2 xs0).1, y ∈ pc.1.set :=
  View.cover_of_tiledL _ S2048x64.size (by sl_kernel_rfl) y

theorem scover4_C_0 (y : S2048x64.Idx) : ∃ pc ∈ (kernelRun4_C c i arg2 harg2 arg3 harg3 arg4 harg4 arg5 harg5 arg6 harg6 hc0 hc1 x0 x1 x2 xs0).2.1, y ∈ pc.1.set :=
  View.cover_of_tiledL _ S2048x64.size (by sl_kernel_rfl) y

def sout4_C_0 : Vec F S2048x64 .f32 :=
  VS4_0.read (Elt F) (VS4_0.writes (Elt F) VS4_0.junk (kernelRun4_C c i arg2 harg2 arg3 harg3 arg4 harg4 arg5 harg5 arg6 harg6 hc0 hc1 x0 x1 x2 xs0).2.1)

end

end

/-- What a point leaves in the output block and in the accumulator, given what the accumulator held before it. -/
def step4 (c : Dev nD) (t : Fin cfg4.N) (xs : Vec F S2048x64 .f32) : Vec F S2048x64 .f32 × Vec F S2048x64 .f32 :=
  if h0 : t.val % 4 = 0 then (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => by have := (hcond4_1 t).mp h; omega) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => by have := (hcond4_1 t).mp h; omega) (iblk4 V c 0 t) (iblk4 V c 1 t) (iblk4 V c 2 t))
  else if h1 : t.val % 4 = 3 then (out4_C_3 c (grid4.coords t) (ms4_0 t) (hs4_0 t) (ms4_1 t) (hs4_1 t) (ms4_2 t) (hs4_2 t) (ms4_3 t) (hs4_3 t) scM4_0 (Memref.isWhole_whole _) (mt (hcond4_0 t).mp h0) ((hcond4_1 t).mpr h1) (iblk4 V c 0 t) (iblk4 V c 1 t) (iblk4 V c 2 t) xs, sout4_C_0 c (grid4.coords t) (ms4_0 t) (hs4_0 t) (ms4_1 t) (hs4_1 t) (ms4_2 t) (hs4_2 t) (ms4_3 t) (hs4_3 t) scM4_0 (Memref.isWhole_whole _) (mt (hcond4_0 t).mp h0) ((hcond4_1 t).mpr h1) (iblk4 V c 0 t) (iblk4 V c 1 t) (iblk4 V c 2 t) xs)
  else (out4_B_3 c (grid4.coords t) (ms4_0 t) (hs4_0 t) (ms4_1 t) (hs4_1 t) (ms4_2 t) (hs4_2 t) (ms4_3 t) (hs4_3 t) scM4_0 (Memref.isWhole_whole _) (mt (hcond4_0 t).mp h0) (mt (hcond4_1 t).mp h1) (iblk4 V c 0 t) (iblk4 V c 1 t) (iblk4 V c 2 t) xs, sout4_B_0 c (grid4.coords t) (ms4_0 t) (hs4_0 t) (ms4_1 t) (hs4_1 t) (ms4_2 t) (hs4_2 t) (ms4_3 t) (hs4_3 t) scM4_0 (Memref.isWhole_whole _) (mt (hcond4_0 t).mp h0) (mt (hcond4_1 t).mp h1) (iblk4 V c 0 t) (iblk4 V c 1 t) (iblk4 V c 2 t) xs)

def outsAt4 (c : Dev nD) : (n : ℕ) → n < cfg4.N → Vec F S2048x64 .f32 × Vec F S2048x64 .f32
  | 0, hn => step4 V c ⟨0, hn⟩ (VS4_0.read (Elt F) VS4_0.junk)
  | n + 1, hn => step4 V c ⟨n + 1, hn⟩ (outsAt4 c n (Nat.lt_of_succ_lt hn)).2

theorem outsAt4_A (c : Dev nD) (t : Fin cfg4.N) (h0 : t.val % 4 = 0) (h1 : ¬t.val % 4 = 3) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => rfl
  | succ n => exact (dif_pos h0).trans rfl

theorem outsAt4_B (c : Dev nD) (t : Fin cfg4.N) (h0 : ¬t.val % 4 = 0) (h1 : ¬t.val % 4 = 3) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- Before point `n + 1` the accumulator holds what point `n` left in it. -/
def PhiS4 (c : Dev nD) : (n : ℕ) → n ≤ cfg4.N → sProp 𝕄
  | 0, _ => Pipeline.ΦA spec4 c
  | n + 1, hn => iprop(iprop(iprop(owns c scM4_0 fullShare ((outsAt4 V c n hn).2)) ∗ restBut4 (F := F) c) ∗ (∃ r, prngReg c r))

theorem PhiS4_pos (c : Dev nD) : ∀ (n : ℕ) (h : n ≤ cfg4.N) (hz : n ≠ 0),
    PhiS4 V c n h = iprop(iprop(iprop(owns c scM4_0 fullShare ((outsAt4 V c (n - 1) (by omega)).2)) ∗ restBut4 (F := F) c) ∗ (∃ r, prngReg c r))
  | 0, _, hz => absurd rfl hz
  | _ + 1, _, _ => rfl

theorem PhiS4_out (c : Dev nD) : ∀ (n : ℕ) (h : n ≤ cfg4.N), PhiS4 V c n h ⊢ (Pipeline.ΦA spec4 c : sProp 𝕄)
  | 0, _ => Entails.refl _
  | n + 1, h => by
    rw [PhiA4_eq]; unfold PhiS4
    iintro ⟨⟨HS0, Hr⟩, Hg⟩; iframe Hr Hg
    iexists _; iexact HS0

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl
theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) : (dat4 V c).after 3 t = (outsAt4 V c t.val t.isLt).1 := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

def bodyPre4 (c : Dev nD) (t : Fin cfg4.N) : sProp 𝕄 :=
  iprop(PhiS4 V c t.val (Nat.le_of_lt t.isLt) ∗ (dat4 V c).owesAt () t.castSucc
    ∗ (∃ d, owns c (ms4_0 t) fullShare ((dat4 V c).before 0 t d))
    ∗ (∃ d, owns c (ms4_1 t) fullShare ((dat4 V c).before 1 t d))
    ∗ (∃ d, owns c (ms4_2 t) fullShare ((dat4 V c).before 2 t d))
    ∗ (∃ d, owns c (ms4_3 t) fullShare ((dat4 V c).before 3 t d)))

def bodyPost4 (c : Dev nD) (t : Fin cfg4.N) : sProp 𝕄 :=
  iprop(iprop(iprop(iprop(owns c scM4_0 fullShare ((outsAt4 V c t.val t.isLt).2)) ∗ restBut4 (F := F) c) ∗ (∃ r, prngReg c r)) ∗ (dat4 V c).owesAt () t.castSucc
    ∗ owns c (ms4_0 t) fullShare (iblk4 V c 0 t)
    ∗ owns c (ms4_1 t) fullShare (iblk4 V c 1 t)
    ∗ owns c (ms4_2 t) fullShare (iblk4 V c 2 t)
    ∗ (dat4 V c).leavesExact 3 t)

set_option maxHeartbeats 400000 in
/-- `t % 4` selects the case: the accumulator restarts at 0, adds the product of the point's two blocks, and at 3 is scaled into the output block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  by_cases h1 : t.val % 4 = 3
  · have h0 : ¬t.val % 4 = 0 := by omega
    have hz : t.val ≠ 0 := by omega
    rw [leavesExact_live (dat4 V c) 3 t (liveAt4_3 t h1), after4_3, outsAt4_C V c t h0 h1, PhiS4_pos V c _ _ hz]
    unfold out4_C_3 sout4_C_0; dsimp only
    iintro ⟨⟨⟨HS0, Hr⟩, Hg⟩, Ho, ⟨%d0, H0⟩, ⟨%d1, H1⟩, ⟨%d2, H2⟩, ⟨%d3, H3⟩⟩
    iapply ((kernelRun4_C c (grid4.coords t) _ _ _ _ _ _ _ _ _ _ (mt (hcond4_0 t).mp h0) ((hcond4_1 t).mpr h1) (iblk4 V c 0 t) (iblk4 V c 1 t) (iblk4 V c 2 t) _).2.2 Set.univ _)
    iframe H0 H1 H2
    isplitl [H3]; · iexists _; iexact H3
    isplitl [HS0]; · iexact HS0
    iintro ⟨H0, H1, H2, H3, HS0⟩
    iframe Hr Hg Ho H0 H1 H2
    isplitl [HS0]; · iapply owns_writes_of_cover _ _ _ _ _ _ (scover4_C_0 _ _ _ _ _ _ _ _ _ _ _ _ _ _ _ _ _ _); iexact HS0
    iapply owns_writes_of_cover _ _ _ _ _ _ (cover4_C_3 _ _ _ _ _ _ _ _ _ _ _ _ _ _ _ _ _ _); iexact H3
  rw [Dat.leavesExact_idle (dat4 V c) 3 t (idleAt4_3 t h1) (Bool.eq_false_iff.mpr fun h => h1 ((flush4_3 t).mp h))]
  by_cases h0 : t.val % 4 = 0
  · refine (sep_mono_left (PhiS4_out V c _ _)).trans ?_
    rw [PhiA4_eq, outsAt4_A V c t h0 h1]
    unfold sout4_A_0; dsimp only
    iintro ⟨⟨⟨HS0, Hr⟩, Hg⟩, Ho, ⟨%d0, H0⟩, ⟨%d1, H1⟩, ⟨%d2, H2⟩, ⟨%d3, H3⟩⟩
    iapply ((kernelRun4_A c (grid4.coords t) _ _ _ _ _ _ _ _ _ _ ((hcond4_0 t).mpr h0) (mt (hcond4_1 t).mp h1) (iblk4 V c 0 t) (iblk4 V c 1 t) (iblk4 V c 2 t)).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover4_A_0 _ _ _ _ _ _ _ _ _ _ _ _ _ _ _ _ _); iexact HS0
    iexists _; iexact H3
  · have hz : t.val ≠ 0 := fun h => h0 (by rw [h])
    rw [outsAt4_B V c t h0 h1, PhiS4_pos V c _ _ hz]
    unfold sout4_B_0; dsimp only
    iintro ⟨⟨⟨HS0, Hr⟩, Hg⟩, Ho, ⟨%d0, H0⟩, ⟨%d1, H1⟩, ⟨%d2, H2⟩, ⟨%d3, H3⟩⟩
    iapply ((kernelRun4_B c (grid4.coords t) _ _ _ _ _ _ _ _ _ _ (mt (hcond4_0 t).mp h0) (mt (hcond4_1 t).mp h1) (iblk4 V c 0 t) (iblk4 V c 1 t) (iblk4 V c 2 t) _).2.2 _ Set.univ _)
    iframe H0 H1 H2
    isplitl [H3]; · iexact H3
    isplitl [HS0]; · iexact HS0
    iintro ⟨H0, H1, H2, H3, HS0⟩
    iframe Hr Hg Ho H0 H1 H2
    isplitl [HS0]; · iapply owns_writes_of_cover _ _ _ _ _ _ (scover4_B_0 _ _ _ _ _ _ _ _ _ _ _ _ _ _ _ _ _ _); iexact HS0
    iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := Entails.refl _

theorem hout4 (c : Dev nD) : (dat4 V c).Φ (Fin.last cfg4.N) ⊢ (Pipeline.ΦA spec4 c : sProp 𝕄) := PhiS4_out V c _ (Nat.le_refl _)

end Cert.KernelIdeal.Hand

end
-- ==== Proof.KI.R5.lean ====
import proofs.«134441_j56014963474691_1_alg».proof.Proof.Gen.KernelIdeal.Launch
import proofs.«134441_j56014963474691_1_alg».proof.Proof.Gen.KernelIdeal.Skeleton
import proofs.«134441_j56014963474691_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S8192x64 := Rect.unit (s := S8192x64) ![0, 0] S8192x64.size inb_S8192x64_S8192x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0
abbrev r5_3 : Rect S32x64 := Rect.unit (s := S32x64) ![0, 0] S32x64.size inb_S32x64_S32x64_0_0
abbrev r5_4 : Rect S1x32 := Rect.unit (s := S1x32) ![0, 0] S1x32.size inb_S1x32_S1x32_0_0
abbrev r5_5 : Rect S8192x32 := Rect.unit (s := S8192x32) ![0, 0] S8192x32.size inb_S8192x32_S8192x32_0_0

def out5_8 (x0 : Vec F S8192x64 .f32) (x1 : Vec F S64x64 .f32) (x2 : Vec F S1x64 .f32) : Vec F S8192x64 .f32 :=
  View.canon [⟨r5_0, k5_pay2 (View.ld x0 r5_0) (View.ld x1 r5_1) (View.ld x2 r5_2)⟩]

def out5_7 (x0 : Vec F S8192x64 .f32) (x1 : Vec F S64x64 .f32) (x2 x3 x4 : Vec F S1x64 .f32) (x5 : Vec F S32x64 .f32)
    (x6 : Vec F S1x32 .f32) : Vec F S8192x32 .f32 :=
  View.canon [⟨r5_5, k5_pay1 (k5_pay3 (View.ld x0 r5_0) (View.ld x1 r5_1) (View.ld x2 r5_2) (View.ld x3 r5_2) (View.ld x4 r5_2))
    (View.ld x5 r5_3) (View.ld x6 r5_4)⟩]

theorem cover5_7 (p0 : Vec F S8192x32 .f32) (y : S8192x32.Idx) :
    ∃ pc ∈ ([⟨r5_5, p0⟩] : List (View.Piece (Elt F) S8192x32 .f32)), y ∈ pc.1.set :=
  View.cover_of_tiled [⟨r5_5, p0⟩] S8192x32.size (by rfl) y

theorem cover5_8 (p0 : Vec F S8192x64 .f32) (y : S8192x64.Idx) :
    ∃ pc ∈ ([⟨r5_0, p0⟩] : List (View.Piece (Elt F) S8192x64 .f32)), y ∈ pc.1.set :=
  View.cover_of_tiled [⟨r5_0, p0⟩] S8192x64.size (by rfl) y

set_option maxHeartbeats 4000000 in

theorem sound_kernel5 (c : Dev nD) (E : Set ℕ) (i : grid5.Coords)
    (arg1 : Memref sig .tc .vmem S8192x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S32x64 .f32) (harg6 : arg6.IsWhole)
    (arg7 : Memref sig .tc .vmem S1x32 .f32) (harg7 : arg7.IsWhole) (arg8 : Memref sig .tc .vmem S8192x32 .f32) (harg8 : arg8.IsWhole)
    (arg9 : Memref sig .tc .vmem S8192x64 .f32) (harg9 : arg9.IsWhole)
    (x0 : Vec F S8192x64 .f32) (x1 : Vec F S64x64 .f32) (x2 x3 x4 : Vec F S1x64 .f32) (x5 : Vec F S32x64 .f32) (x6 : Vec F S1x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out5_7 x0 x1 x2 x3 x4 x5 x6)
            ∗ owns (c : Thread nD τ) arg9 fullShare (out5_8 x0 x1 x2)) -∗ K ⟨⟩))
      ⊢ wp frame (wpE (defs₀ (F := F)) Variants.none c none) E
          (cc5__head_kernel i arg1 harg1 arg2 harg2 arg3 harg3 arg4 harg4 arg5 harg5 arg6 harg6 arg7 harg7 arg8 harg8 arg9 harg9) K := by
  simp only [cc5__head_kernel_eq_skeleton]; unfold cc5__head_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover5_7 _)
  iexists _; isplitr
  swap; · iexact H8
  ipureintro
  exact View.read_writes_eq_canon _ _ _ (cover5_8 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
    | ⟨8, _⟩ => out5_8 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]
theorem after5_8 (c : Dev nD) (t : Fin cfg5.N) : (dat5 V c).after 8 t = out5_8 (iblk5 V c 0 t) (iblk5 V c 1 t) (iblk5 V c 2 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl
theorem before5_6 (c : Dev nD) (t : Fin cfg5.N) (d) : (dat5 V c).before 6 t d = iblk5 V c 6 t :=
  ((dat5 V c).before_in_eq_fetched 6 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

def bodyPost5 (c : Dev nD) (t : Fin cfg5.N) : sProp 𝕄 :=
  iprop((dat5 V c).Φ t.succ ∗ (dat5 V c).owesAt () t.succ
    ∗ owns (c : Thread nD τ) (st5_0 t) fullShare (iblk5 V c 0 t)
    ∗ owns (c : Thread nD τ) (st5_1 t) fullShare (iblk5 V c 1 t)
    ∗ owns (c : Thread nD τ) (st5_2 t) fullShare (iblk5 V c 2 t)
    ∗ owns (c : Thread nD τ) (st5_3 t) fullShare (iblk5 V c 3 t)
    ∗ owns (c : Thread nD τ) (st5_4 t) fullShare (iblk5 V c 4 t)
    ∗ owns (c : Thread nD τ) (st5_5 t) fullShare (iblk5 V c 5 t)
    ∗ owns (c : Thread nD τ) (st5_6 t) fullShare (iblk5 V c 6 t)
    ∗ owns (c : Thread nD τ) (st5_7 t) fullShare ((dat5 V c).after 7 t)
    ∗ owns (c : Thread nD τ) (st5_8 t) fullShare ((dat5 V c).after 8 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  isplitl [H8]; · iexists _; iexact H8
  iintro ⟨H0, H1, H2, H3, H4, H5, H6, H7, H8⟩
  iframe HΦ Ho H0 H1 H2 H3 H4 H5 H6 H7
  iexact H8

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = Pipeline.ΦA spec5 c from rfl]

theorem hout5 (c : Dev nD) : (dat5 V c).Φ (Fin.last cfg5.N) ⊢ (Pipeline.ΦA spec5 c : sProp 𝕄) := by
  rw [show (dat5 V c).Φ (Fin.last cfg5.N) = Pipeline.ΦA spec5 c from rfl]

end Cert.KernelIdeal.Hand

end
-- ==== Proof.KI.Run.lean ====
import proofs.«134441_j56014963474691_1_alg».proof.Proof.Gen.KernelIdeal.Launch
import proofs.«134441_j56014963474691_1_alg».proof.Proof.Gen.KernelIdeal.Skeleton
import proofs.«134441_j56014963474691_1_alg».proof.Proof.Gen.KernelIdeal.Points
import proofs.«134441_j56014963474691_1_alg».proof.Proof.Gen.KernelIdeal.Regions
import proofs.«134441_j56014963474691_1_alg».proof.Proof.KI.R0
import proofs.«134441_j56014963474691_1_alg».proof.Proof.KI.R1
import proofs.«134441_j56014963474691_1_alg».proof.Proof.KI.R2
import proofs.«134441_j56014963474691_1_alg».proof.Proof.KI.R3
import proofs.«134441_j56014963474691_1_alg».proof.Proof.KI.R4
import proofs.«134441_j56014963474691_1_alg».proof.Proof.KI.R5
import proofs.«134441_j56014963474691_1_alg».proof.Proof.LibRegion

set_option maxRecDepth 16384

noncomputable section

namespace Cert.KernelIdeal.Hand

open Cert.KernelIdeal Cert.KernelIdeal.Gen Cert.LibRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 := rd (W1 m ρ)

def W2 : Dev nD → Valuation τ sig (Elt F) := exitW (W1 m ρ) (dat0 (V1 m ρ))
abbrev V2 := rd (W2 m ρ)

def W3 : Dev nD → Valuation τ sig (Elt F) := exitW (W2 m ρ) (dat1 (V2 m ρ))
abbrev V3 := rd (W3 m ρ)

def W4 : Dev nD → Valuation τ sig (Elt F) := exitW (W3 m ρ) (dat2 (V3 m ρ))
abbrev V4 := rd (W4 m ρ)

def W5 : Dev nD → Valuation τ sig (Elt F) := exitW (W4 m ρ) (dat3 (V4 m ρ))
abbrev V5 := rd (W5 m ρ)

def W6 : Dev nD → Valuation τ sig (Elt F) := exitW (W5 m ρ) (dat4 (V5 m ρ))
abbrev V6 := rd (W6 m ρ)

abbrev W7 : Dev nD → Valuation τ sig (Elt F) := fun c => StableHlo.after hostOps5 (W6 m ρ c)
abbrev V7 := rd (W7 m ρ)

def W8 : Dev nD → Valuation τ sig (Elt F) := exitW (W7 m ρ) (dat5 (V7 m ρ))
abbrev V8 := rd (W8 m ρ)

/-- A buffer that no host operation writes and no region outputs holds its initial value at the end. -/
theorem W8_arg (c : Dev nD) (b : Ref sig .tc) (h : b ∉ hostOps0_W ∧ b ∉ hostOps5_W
      ∧ inOnly cfg0 b ∧ inOnly cfg1 b ∧ inOnly cfg2 b ∧ inOnly cfg3 b ∧ inOnly cfg4 b ∧ inOnly cfg5 b) :
    W8 m ρ c (Proc.devRef .tc b) = m ((c : Thread nD τ).loc b) :=
  (exitW_in (W7 m ρ) (dat5 (V7 m ρ)) c (A_eq5 (V7 m ρ) c) launch5.win.arr_inj b h.2.2.2.2.2.2.2).trans <|
  (StableHlo.after_of_writes_sub hostOps5 _ hostOps5_writes h.2.1).trans <|
  (exitW_in (W5 m ρ) (dat4 (V5 m ρ)) c (A_eq4 (V5 m ρ) c) launch4.win.arr_inj b h.2.2.2.2.2.2.1).trans <|
  (exitW_in (W4 m ρ) (dat3 (V4 m ρ)) c (A_eq3 (V4 m ρ) c) launch3.win.arr_inj b h.2.2.2.2.2.1).trans <|
  (exitW_in (W3 m ρ) (dat2 (V3 m ρ)) c (A_eq2 (V3 m ρ) c) launch2.win.arr_inj b h.2.2.2.2.1).trans <|
  (exitW_in (W2 m ρ) (dat1 (V2 m ρ)) c (A_eq1 (V2 m ρ) c) launch1.win.arr_inj b h.2.2.2.1).trans <|
  (exitW_in (W1 m ρ) (dat0 (V1 m ρ)) c (A_eq0 (V1 m ρ) c) launch0.win.arr_inj b h.2.2.1).trans <|
  StableHlo.after_of_writes_sub hostOps0 _ hostOps0_writes h.1

def pdats : (p : Fin 6) → (c : Dev nD) → Dat τ (Elt F) Unit ℕ (UR sig nD τ) ℕ (cfgs p) c
  | ⟨0, _⟩ => dat0 (V1 m ρ)
  | ⟨1, _⟩ => dat1 (V2 m ρ)
  | ⟨2, _⟩ => dat2 (V3 m ρ)
  | ⟨3, _⟩ => dat3 (V4 m ρ)
  | ⟨4, _⟩ => dat4 (V5 m ρ)
  | ⟨5, _⟩ => dat5 (V7 m ρ)

/-- A run of host operations as a step from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- The program as eight steps in order. -/
abbrev segs : List (Pipeline.Seg (pcfgs (F := F)) adm (pdats m ρ) () defs₀ 𝒱₀ L lv) :=
  [ .host (hseg hostOps0 hostOps0_sub hostOps0_fresh (W0 m ρ)),
    .region (regSeg cfgs defs₀ (pdats m ρ) 0 launch0 (W1 m ρ) (fun _ _ => rfl) (fun _ _ => rfl) (fun _ => rfl) (A_eq0 (V1 m ρ)) (body_obligation0 (V1 m ρ)) (hin0 (V1 m ρ)) (hout0 (V1 m ρ))),
    .region (regSeg cfgs defs₀ (pdats m ρ) 1 launch1 (W2 m ρ) (fun _ _ => rfl) (fun _ _ => rfl) (fun _ => rfl) (A_eq1 (V2 m ρ)) (body_obligation1 (V2 m ρ)) (hin1 (V2 m ρ)) (hout1 (V2 m ρ))),
    .region (regSeg cfgs defs₀ (pdats m ρ) 2 launch2 (W3 m ρ) (fun _ _ => rfl) (fun _ _ => rfl) (fun _ => rfl) (A_eq2 (V3 m ρ)) (body_obligation2 (V3 m ρ)) (hin2 (V3 m ρ)) (hout2 (V3 m ρ))),
    .region (regSeg cfgs defs₀ (pdats m ρ) 3 launch3 (W4 m ρ) (fun _ _ => rfl) (fun _ _ => rfl) (fun _ => rfl) (A_eq3 (V4 m ρ)) (body_obligation3 (V4 m ρ)) (hin3 (V4 m ρ)) (hout3 (V4 m ρ))),
    .region (regSeg cfgs defs₀ (pdats m ρ) 4 launch4 (W5 m ρ) (fun _ _ => rfl) (fun _ _ => rfl) (fun _ => rfl) (A_eq4 (V5 m ρ)) (body_obligation4 (V5 m ρ)) (hin4 (V5 m ρ)) (hout4 (V5 m ρ))),
    .host (hseg hostOps5 hostOps5_sub hostOps5_fresh (W6 m ρ)),
    .region (regSeg cfgs defs₀ (pdats m ρ) 5 launch5 (W7 m ρ) (fun _ _ => rfl) (fun _ _ => rfl) (fun _ => rfl) (A_eq5 (V7 m ρ)) (body_obligation5 (V7 m ρ)) (hin5 (V7 m ρ)) (hout5 (V7 m ρ))) ]
theorem main_run (c : Dev nD) : main (F := F) c = Pipeline.Seg.run (segs m ρ) := (main_chain c).trans (by chain_rfl)

set_option backward.isDefEq.respectTransparency.types false in
/-- Every fair execution terminates, and at its end the buffers hold `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- Every argument ends with its initial value. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W8_arg m ρ c _ (by decide)),
    (h c _ (mem_uc main_arg1 (by decide))).trans (W8_arg m ρ c _ (by decide)),
    (h c _ (mem_uc main_arg2 (by decide))).trans (W8_arg m ρ c _ (by decide)),
    (h c _ (mem_uc main_arg3 (by decide))).trans (W8_arg m ρ c _ (by decide)),
    (h c _ (mem_uc main_arg4 (by decide))).trans (W8_arg m ρ c _ (by decide)),
    (h c _ (mem_uc main_arg5 (by decide))).trans (W8_arg m ρ c _ (by decide)),
    (h c _ (mem_uc main_arg6 (by decide))).trans (W8_arg m ρ c _ (by decide)),
    (h c _ (mem_uc main_arg7 (by decide))).trans (W8_arg m ρ c _ (by decide)),
    (h c _ (mem_uc main_arg8 (by decide))).trans (W8_arg m ρ c _ (by decide)),
    (h c _ (mem_uc main_arg9 (by decide))).trans (W8_arg m ρ c _ (by decide)),
    (h c _ (mem_uc main_arg10 (by decide))).trans (W8_arg m ρ c _ (by decide))⟩) (run_main m ρ)

end Cert.KernelIdeal.Hand

end
-- ==== Proof.Ref.Gen.lean ====
import proofs.«134441_j56014963474691_1_alg».proof.Proof.Ref.RunP
import proofs.«134441_j56014963474691_1_alg».proof.Proof.Ref.ReadP
-- ==== Proof.Val.Spec.lean ====
import Idealize.ShloMosaic.PureOps.Ideal
import Idealize.ShloMosaic.Lib.ValueIdx

noncomputable section

open scoped BigOperators

namespace Cert.Spec

open Idealize.ShloMosaic Idealize.ShloMosaic.ValueIdx

abbrev A2 (a b : Nat) : Type := Fin a → Fin b → EReal
abbrev A1 (a : Nat) : Type := Fin a → EReal

def arr2 {a b : Nat} (x : (⟨2, ![a, b]⟩ : Shape).Idx → EReal) : A2 a b := fun i j => x (ix2 i j)
def arr1 {a : Nat} (x : (⟨1, ![a]⟩ : Shape).Idx → EReal) : A1 a := fun i => x (ix1 i)

def cEpsLa : EReal := Ideal.ofBits .f32 0x322BCC77#32

def cTwo : EReal := Ideal.ofBits .f32 0x40000000#32

def cOne : EReal := Ideal.ofBits .f32 0x3F800000#32

def cRows : EReal := Ideal.ofBits .f32 0x46000000#32

def cEpsBn : EReal := Ideal.ofBits .f32 0x3727C5AC#32

def cZero : EReal := Ideal.ofBits .f32 0x00000000#32

def vla (La : A1 8192) (ve : EReal) : A1 8192 := fun j => Ideal.pow (La j) ve

def vla2 (La : A1 8192) (ve2 : EReal) : A1 8192 := fun j =>
  Ideal.pow ((cTwo * (La j - cEpsLa) - cOne) * (cTwo * (La j - cEpsLa) - cOne) + cOne) ve2

def mmT (U : A2 8192 8192) (Y : A2 8192 64) (v : A1 8192) : A2 8192 64 :=
  fun j d => v j * ∑ r : Fin 8192, U r j * Y r d

def mmN (U : A2 8192 8192) (Y : A2 8192 64) : A2 8192 64 :=
  fun i d => ∑ j : Fin 8192, U i j * Y j d

def filt (U : A2 8192 8192) (X : A2 8192 64) (La : A1 8192) (ve ve2 : EReal) : A2 8192 64 :=
  mmN U (mmT U (mmN U (mmT U X (vla La ve))) (vla2 La ve2))

def lin {n k o : Nat} (Y : A2 n k) (W : A2 o k) (b : A1 o) : A2 n o :=
  fun i h => (∑ q : Fin k, Y i q * W h q) + b h

def mean (x : A2 8192 64) : A1 64 := fun h => Ideal.div (∑ i : Fin 8192, x i h) cRows

def cen (x : A2 8192 64) : A2 8192 64 := fun i h => x i h - mean x h

def var (x : A2 8192 64) : A1 64 := fun h => Ideal.div (∑ i : Fin 8192, cen x i h * cen x i h) cRows

def bn (x : A2 8192 64) (g b : A1 64) : A2 8192 64 :=
  fun i h => cen x i h * Ideal.rsqrt (var x h + cEpsBn) * g h + b h

def relu {n k : Nat} (x : A2 n k) : A2 n k := fun i h => max (x i h) cZero

def rowmax (z : A2 8192 32) : A1 8192 := fun i => Finset.univ.sup fun o : Fin 32 => z i o

def lse (z : A2 8192 32) : A1 8192 := fun i => Ideal.log (∑ o : Fin 32, Ideal.exp (z i o - rowmax z i))

def lsmA (z : A2 8192 32) : A2 8192 32 := fun i o => z i o - (rowmax z i + lse z i)

def lsmB (z : A2 8192 32) : A2 8192 32 := fun i o => (z i o - rowmax z i) - lse z i

def hidden (U : A2 8192 8192) (X : A2 8192 64) (La : A1 8192) (ve ve2 : EReal) (Ww : A2 64 64) (Wb : A1 64) : A2 8192 64 :=
  lin (filt U X La ve ve2) Ww Wb

def logitsOf (hid : A2 8192 64) (g b : A1 64) (Mw : A2 32 64) (Mb : A1 32) : A2 8192 32 :=
  lin (relu (bn hid g b)) Mw Mb

end Cert.Spec

end
-- ==== Proof.Val.Math.lean ====
import proofs.«134441_j56014963474691_1_alg».proof.Proof.Val.Spec
import Mathlib.Algebra.BigOperators.Fin
import Mathlib.Data.EReal.Basic

noncomputable section

open scoped BigOperators

namespace Cert.Spec

open Idealize.ShloMosaic

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem cRows_eq : cRows = ((8192 : ℝ) : EReal) := by
  simp [cRows, Ideal.ofBits, Ideal.ieee, -EReal.coe_mul]; norm_num

theorem cEpsBn_eq : cEpsBn = ((10995116 * (2 : ℝ) ^ (-40 : ℤ) : ℝ) : EReal) := by
  simp [cEpsBn, Ideal.ofBits, Ideal.ieee, -EReal.coe_mul]

theorem cZero_eq : cZero = 0 := by
  simp [cZero, Ideal.ofBits, Ideal.ieee]

theorem sum_range_blocks4 (g : ℕ → EReal) :
    ∑ n ∈ Finset.range 8192, g n = ∑ s ∈ Finset.range 4, ∑ q ∈ Finset.range 2048, g (s * 2048 + q) := by
  have e1 : ∑ n ∈ Finset.range 8192, g n
      = ∑ n ∈ Finset.range 6144, g n + ∑ q ∈ Finset.range 2048, g (6144 + q) := Finset.sum_range_add g 6144 2048
  have e2 : ∑ n ∈ Finset.range 6144, g n
      = ∑ n ∈ Finset.range 4096, g n + ∑ q ∈ Finset.range 2048, g (4096 + q) := Finset.sum_range_add g 4096 2048
  have e3 : ∑ n ∈ Finset.range 4096, g n
      = ∑ n ∈ Finset.range 2048, g n + ∑ q ∈ Finset.range 2048, g (2048 + q) := Finset.sum_range_add g 2048 2048
  have h4 : ∀ F : ℕ → EReal, ∑ s ∈ Finset.range 4, F s = F 0 + F 1 + F 2 + F 3 := fun F => by
    simp [Finset.sum_range_succ]
  rw [e1, e2, e3, h4]
  norm_num

theorem sum_blocks4 (f : Fin 8192 → EReal) :
    ∑ r : Fin 8192, f r = ∑ s ∈ Finset.range 4, ∑ q : Fin 2048, (if h : s * 2048 + q.val < 8192 then f ⟨s * 2048 + q.val, h⟩ else 0) := by

  have hL : ∑ r : Fin 8192, f r
      = ∑ n ∈ Finset.range 8192, (if h : n < 8192 then f ⟨n, h⟩ else 0) := by
    rw [← Fin.sum_univ_eq_sum_range (fun n => if h : n < 8192 then f ⟨n, h⟩ else 0) 8192]
    exact Finset.sum_congr rfl fun r _ => by rw [dif_pos r.isLt]
  rw [hL, sum_range_blocks4]
  exact Finset.sum_congr rfl fun s _ =>
    (Fin.sum_univ_eq_sum_range (fun q => if h : s * 2048 + q < 8192 then f ⟨s * 2048 + q, h⟩ else 0) 2048).symm

theorem mul_self_nonneg_ereal (a : EReal) : 0 ≤ a * a := by
  induction a using EReal.rec with
  | bot => rw [EReal.bot_mul_bot]; exact le_top
  | coe r => rw [← EReal.coe_mul]; exact EReal.coe_nonneg.mpr (mul_self_nonneg r)
  | top => rw [EReal.top_mul_top]; exact le_top

theorem real_of_mul_self_ne_top (a : EReal) (h : a * a ≠ ⊤) : ∃ r : ℝ, a = r := by
  induction a using EReal.rec with
  | bot => exact absurd EReal.bot_mul_bot h
  | coe r => exact ⟨r, rfl⟩
  | top => exact absurd EReal.top_mul_top h

theorem bn_real (x : A2 8192 64) (g b : A1 64) (hg : ∀ h, ∃ r : ℝ, g h = r) (hb : ∀ h, ∃ r : ℝ, b h = r) :
    ∀ i h, ∃ r : ℝ, bn x g b i h = r := by
  intro i h
  obtain ⟨gr, hgr⟩ := hg h
  obtain ⟨br, hbr⟩ := hb h
  show ∃ r : ℝ, cen x i h * Ideal.rsqrt (var x h + cEpsBn) * g h + b h = r

  have hvar : var x h = (∑ j : Fin 8192, cen x j h * cen x j h) * ((1 / 8192 : ℝ) : EReal) := by
    show Ideal.div (∑ j : Fin 8192, cen x j h * cen x j h) cRows = _
    rw [cRows_eq, Ideal.div_coe (by norm_num)]
  have hS0 : 0 ≤ ∑ j : Fin 8192, cen x j h * cen x j h :=
    Finset.sum_nonneg fun j _ => mul_self_nonneg_ereal _
  by_cases hS : ∑ j : Fin 8192, cen x j h * cen x j h = ⊤
  ·
    have hr : Ideal.rsqrt (var x h + cEpsBn) = 0 := by
      rw [hvar, hS, EReal.top_mul_coe_of_pos (by norm_num), cEpsBn_eq, EReal.top_add_coe, Ideal.rsqrt_top]
    rw [hr, mul_zero, zero_mul, zero_add, hbr]
    exact ⟨br, rfl⟩
  ·
    have hSb : ∑ j : Fin 8192, cen x j h * cen x j h ≠ ⊥ := fun e => by
      rw [e] at hS0; exact absurd hS0 (by simp)
    obtain ⟨s, hs⟩ : ∃ s : ℝ, ∑ j : Fin 8192, cen x j h * cen x j h = s :=
      ⟨_, (EReal.coe_toReal hS hSb).symm⟩
    have hs0 : 0 ≤ s := by rw [hs] at hS0; exact EReal.coe_nonneg.mp hS0

    have hle : cen x i h * cen x i h ≤ ∑ j : Fin 8192, cen x j h * cen x j h :=
      Finset.single_le_sum (f := fun j => cen x j h * cen x j h) (fun j _ => mul_self_nonneg_ereal _)
        (Finset.mem_univ i)
    obtain ⟨d, hd⟩ := real_of_mul_self_ne_top (cen x i h) (fun e => hS (by rw [e] at hle; exact top_le_iff.mp hle))

    have hpos : 0 < s * (1 / 8192) + 10995116 * (2 : ℝ) ^ (-40 : ℤ) := by positivity
    rw [hvar, hs, cEpsBn_eq, ← EReal.coe_mul, ← EReal.coe_add, Ideal.rsqrt_coe, if_neg (not_lt.mpr hpos.le),
      if_neg hpos.ne', hd, hgr, hbr, ← EReal.coe_mul, ← EReal.coe_mul, ← EReal.coe_add]
    exact ⟨_, rfl⟩

theorem logitsOf_real (hid : A2 8192 64) (g b : A1 64) (Mw : A2 32 64) (Mb : A1 32)
    (hg : ∀ h, ∃ r : ℝ, g h = r) (hb : ∀ h, ∃ r : ℝ, b h = r)
    (hw : ∀ o q, ∃ r : ℝ, Mw o q = r) (hmb : ∀ o, ∃ r : ℝ, Mb o = r) :
    ∀ i o, ∃ r : ℝ, logitsOf hid g b Mw Mb i o = r := by
  intro i o
  choose nr hnr using bn_real hid g b hg hb
  choose wr hwr using hw
  obtain ⟨mb, hmb'⟩ := hmb o
  show ∃ r : ℝ, (∑ q : Fin 64, max (bn hid g b i q) cZero * Mw o q) + Mb o = r

  have hsum : ∑ q : Fin 64, max (bn hid g b i q) cZero * Mw o q
      = ((∑ q : Fin 64, max (nr i q) 0 * wr o q : ℝ) : EReal) := by
    rw [← coe_sum]
    refine Finset.sum_congr rfl fun q _ => ?_
    rw [hnr, hwr, cZero_eq, EReal.coe_mul, EReal.coe_strictMono.monotone.map_max, EReal.coe_zero]
  rw [hsum, hmb', ← EReal.coe_add]
  exact ⟨_, rfl⟩

theorem lsm_eq (z : A2 8192 32) (hz : ∀ i o, ∃ r : ℝ, z i o = r) : lsmA z = lsmB z := by
  choose zr hzr using hz
  funext i o

  obtain ⟨o₀, -, hm⟩ := Finset.exists_mem_eq_sup (Finset.univ : Finset (Fin 32)) Finset.univ_nonempty (fun o => z i o)
  have hmax : rowmax z i = ((zr i o₀ : ℝ) : EReal) := by
    show (Finset.univ.sup fun o : Fin 32 => z i o) = _
    rw [hm, hzr]

  have hsum : ∑ o : Fin 32, Ideal.exp (z i o - rowmax z i)
      = ((∑ o : Fin 32, Real.exp (zr i o - zr i o₀) : ℝ) : EReal) := by
    rw [← coe_sum]
    refine Finset.sum_congr rfl fun o _ => ?_
    rw [hmax, hzr, ← EReal.coe_sub, Ideal.exp_coe]
  have hpos : 0 < ∑ o : Fin 32, Real.exp (zr i o - zr i o₀) :=
    Finset.sum_pos (fun o _ => Real.exp_pos _) Finset.univ_nonempty

  have hlse : lse z i = ((Real.log (∑ o : Fin 32, Real.exp (zr i o - zr i o₀)) : ℝ) : EReal) := by
    show Ideal.log (∑ o : Fin 32, Ideal.exp (z i o - rowmax z i)) = _
    rw [hsum, Ideal.log_coe, if_neg (not_le.mpr hpos)]
  show z i o - (rowmax z i + lse z i) = (z i o - rowmax z i) - lse z i
  rw [hmax, hlse, hzr, ← EReal.coe_add, ← EReal.coe_sub, ← EReal.coe_sub, ← EReal.coe_sub, sub_add_eq_sub_sub]

end Cert.Spec

end
-- ==== Proof.LibColumn.lean ====
import Idealize.ShloMosaic.Lib.ValueLayout

namespace Cert.LibColumn

open Idealize.ShloMosaic Idealize.ShloMosaic.ValueIdx

variable {α : Type}

-- A rank-2 index is fixed by the values of its two coordinates, a rank-1 index by its one.
theorem eq_ix2_of {m n : ℕ} (x : (⟨2, ![m, n]⟩ : Shape).Idx) (a : Fin m) (b : Fin n) (h0 : (x 0).val = a.val) (h1 : (x 1).val = b.val) :
    x = ix2 a b :=
  funext fun d => Fin.ext (by match d with | ⟨0, _⟩ => exact h0 | ⟨1, _⟩ => exact h1)

theorem eq_ix1_of {m : ℕ} (x : (⟨1, ![m]⟩ : Shape).Idx) (a : Fin m) (h0 : (x 0).val = a.val) : x = ix1 a :=
  funext fun d => Fin.ext (by match d with | ⟨0, _⟩ => exact h0)

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Val.K0.lean ====
import proofs.«134441_j56014963474691_1_alg».proof.Proof.KI.R0
import proofs.«134441_j56014963474691_1_alg».proof.Proof.Val.Spec
import proofs.«134441_j56014963474691_1_alg».proof.Proof.Val.Math
import proofs.«134441_j56014963474691_1_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

namespace K0

theorem hz : (![0, 0] : Fin 2 → Nat) = fun _ => 0 := funext fun a => by fin_cases a <;> rfl

abbrev Uarr (c : Dev nD) : S8192x8192.Idx → EReal := V c main_arg2

theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem flushed_eq (c : Dev nD) (t : Fin cfg0.N) :
    (dat0 (F := Ideal) V c).flushed 1 t = ((cfg0.win 1).blk t).view.read (Elt Ideal) (Uarr V c) := by
  show (cfg0.win 1).cut (grid0.coords t) ((dat0 (F := Ideal) V c).after 1 t) = _
  rw [after0_1]
  unfold out0_1
  rw [View.canon_unit_zero hz]
  simp only [View.ld_unit_zero (S := S256x8192) hz]
  obtain ⟨e0, e1, e2, e3⟩ := idx_facts t
  funext j
  show V c main_arg2 (((cfg0.win 0).blk t).view.emb j) = V c main_arg2 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 8192 + 1 * (j 1).val = win0_1.index t (1 : Fin 2) * 8192 + 1 * (j 1).val; omega
  rw [h0]

theorem mem_blk (t : Fin cfg0.N) (i : S8192x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v18).slice (win0_1.rect t)).set ↔ _
  rw [View.set_slice_whole, Rect.mem_set_unit]
  exact Iff.rfl

theorem cover (i : S8192x8192.Idx) : ∃ t : Fin cfg0.N, (cfg0.win 1).flush t = true ∧ i ∈ ((cfg0.win 1).blk t).view.set := by
  have hi0 : (i 0).val < 8192 := (i 0).isLt
  have hi1 : (i 1).val < 8192 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨e0, e1, e2, e3⟩ := idx_facts t
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 8192 ≤ (i 1).val ∧ (i 1).val < win0_1.index t (1 : Fin 2) * 8192 + 8192; omega

theorem final (c : Dev nD) : (dat0 (F := Ideal) V c).arrAt 1 cfg0.N = Uarr V c :=
  (dat0 (F := Ideal) V c).arrAt_eq_of_cover 1 (Uarr V c) (fun t _ => flushed_eq V c t) cover

end K0

theorem val0 (c : Dev nD) : arr2 ((dat0 (F := Ideal) V c).arrAt 1 cfg0.N) = arr2 (V c main_arg2) :=
  congrArg arr2 (K0.final V c)

end Cert.KernelIdeal.Hand

end
-- ==== Proof.Val.KLib.lean ====
import proofs.«134441_j56014963474691_1_alg».proof.Proof.Gen.KernelIdeal.Skeleton
import proofs.«134441_j56014963474691_1_alg».proof.Proof.Val.Spec
import proofs.«134441_j56014963474691_1_alg».proof.Proof.Val.Math
import proofs.«134441_j56014963474691_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open Cert.Spec

theorem zero_offsets : (![0, 0] : Fin 2 → Nat) = fun _ => 0 := funext fun a => by fin_cases a <;> rfl

/-- A rank-2 index is given by its two coordinates. -/
theorem ix2_eq {n0 n1 : Nat} (x : (⟨2, ![n0, n1]⟩ : Shape).Idx) (a : Fin n0) (b : Fin n1)
    (h0 : (x 0).val = a.val) (h1 : (x 1).val = b.val) : x = ix2 a b :=
  funext fun d => Fin.ext (by match d with | ⟨0, _⟩ => exact h0 | ⟨1, _⟩ => exact h1)

/-- A product into zeros that contracts one axis of extent 2048, at an entry: the sum over that axis. -/
theorem dot_apply {φ₁ φ₂ : FTy} (d : DotDims S2048x2048 S2048x64 S2048x64) (hr : d.contr.rank = 1)
    (hs : d.contr.size ⟨0, by omega⟩ = 2048) (a : FVec Ideal S2048x2048 φ₁) (b : FVec Ideal S2048x64 φ₂)
    (p : Fin 2048) (q : Fin 64) (I : Fin 2048 → S2048x2048.Idx)
    (hl : ∀ k, d.lhsIdx (ix2 p q) k = I (contrEquiv1 d 2048 hr hs k))
    (hrh : ∀ k, d.rhsIdx (ix2 p q) k = ix2 (contrEquiv1 d 2048 hr hs k) q) :
    FloatOps.matmul d none a b (constant S2048x64 .f32 0x00000000#32) (ix2 p q) = ∑ r : Fin 2048, a (I r) * b (ix2 r q) :=
  (Ideal.matmul_constant_zero_apply d none a b (ix2 p q)).trans
    ((Finset.sum_congr rfl fun k _ => by rw [hl, hrh]).trans
      (Equiv.sum_comp (contrEquiv1 d 2048 hr hs) fun r => a (I r) * b (ix2 r q)))

/-- Contracting the rows of both blocks: entry `(p, q)` is `∑ r, a (r, p) * b (r, q)`. -/
theorem dotT_apply {φ₁ φ₂ : FTy} (a : FVec Ideal S2048x2048 φ₁) (b : FVec Ideal S2048x64 φ₂) (p : Fin 2048) (q : Fin 64) :
    FloatOps.matmul dot_S2048x2048_S2048x64_S2048x64_0_0_1_1_n_n none a b (constant S2048x64 .f32 0x00000000#32) (ix2 p q)
      = ∑ r : Fin 2048, a (ix2 r p) * b (ix2 r q) :=
  dot_apply _ rfl rfl a b p q (fun r => ix2 r p)
    (fun k => ix2_eq _ _ _ (dot_S2048x2048_S2048x64_S2048x64_0_0_1_1_n_n.lhsIdx_val_of_single rfl _ k) rfl)
    (fun k => ix2_eq _ _ _ (dot_S2048x2048_S2048x64_S2048x64_0_0_1_1_n_n.rhsIdx_val_of_single rfl _ k) rfl)

/-- Contracting the columns of the left block with the rows of the right: entry `(p, q)` is `∑ r, a (p, r) * b (r, q)`. -/
theorem dotN_apply {φ₁ φ₂ : FTy} (a : FVec Ideal S2048x2048 φ₁) (b : FVec Ideal S2048x64 φ₂) (p : Fin 2048) (q : Fin 64) :
    FloatOps.matmul dot_S2048x2048_S2048x64_S2048x64_1_0_0_1_n_n none a b (constant S2048x64 .f32 0x00000000#32) (ix2 p q)
      = ∑ r : Fin 2048, a (ix2 p r) * b (ix2 r q) :=
  dot_apply _ rfl rfl a b p q (fun r => ix2 p r)
    (fun k => ix2_eq _ _ _ rfl (dot_S2048x2048_S2048x64_S2048x64_1_0_0_1_n_n.lhsIdx_val_of_single rfl _ k))
    (fun k => ix2_eq _ _ _ (dot_S2048x2048_S2048x64_S2048x64_1_0_0_1_n_n.rhsIdx_val_of_single rfl _ k) rfl)

/-- Scaling row by row by a column, at an entry. -/
theorem scale_apply (y : FVec Ideal S2048x64 .f32) (v : FVec Ideal S2048x1 .f32) (p : Fin 2048) (q : Fin 64) :
    mulf y (broadcastTo S2048x64 v broadcasts_S2048x1_S2048x64) (ix2 p q) = y (ix2 p q) * v (ix2 p (0 : Fin 1)) :=
  congrArg (y (ix2 p q) * ·) (Cert.LibColumn.broadcastTo_a1_ab_apply v broadcasts_S2048x1_S2048x64 p q)

/-- A quantity that restarts at the multiples of 4 and adds a term elsewhere is, at a run's fourth point, the sum of the run's terms. -/
theorem run_sum {N : ℕ} {ι : Type} (f : (n : ℕ) → n < N → ι → EReal) (M : ℕ → ι → EReal)
    (h0 : ∀ n h i, n % 4 = 0 → f n h i = M n i)
    (hs : ∀ n (h : n + 1 < N) i, ¬(n + 1) % 4 = 0 → f (n + 1) h i = f n (Nat.lt_of_succ_lt h) i + M (n + 1) i)
    (t : ℕ) (ht : t < N) (h3 : t % 4 = 3) (i : ι) : f t ht i = ∑ s ∈ Finset.range 4, M (4 * (t / 4) + s) i := by
  have h' : 4 * (t / 4) + t % 4 < N := by omega
  have e : t % 4 + 1 = 4 := by omega
  refine (congrFun (Pipeline.eq_accAt_of_mod f 4 (fun n _ => M n) (fun n _ a i => a i + M n i)
    (fun n h e => funext fun i => h0 n h i e) (fun n h e => funext fun i => hs n h i e) (by decide) t ht h') i).trans ?_
  rw [Pipeline.accAt_add_apply _ _ (fun _ => 0) M (4 * (t / 4)) 3 (fun _ _ => (zero_add _).symm)
    (fun _ _ _ _ _ _ => rfl) (t % 4) (by omega) h' i, e, zero_add]

/-- The four runs of 2048 make up the sum over 8192: point `4 m + 3` holds row block `m` of `U Y`, scaled row by row by `v`. -/
theorem blocked_value {N : ℕ} (hN : N = 16) (o a : (n : ℕ) → n < N → Fin 2048 → Fin 64 → EReal)
    (A : Fin N → Fin 2048 → Fin 2048 → EReal) (B : Fin N → Fin 2048 → Fin 64 → EReal) (w : Fin N → Fin 2048 → EReal)
    (U : A2 8192 8192) (Y : A2 8192 64) (v : A1 8192)
    (h0 : ∀ (t : Fin N) p q, t.val % 4 = 0 → a t.val t.isLt p q = ∑ r, A t p r * B t r q)
    (hs : ∀ (t : Fin N) p q, ¬t.val % 4 = 0 →
      a t.val t.isLt p q = a (t.val - 1) (Nat.lt_of_le_of_lt (Nat.sub_le _ _) t.isLt) p q + ∑ r, A t p r * B t r q)
    (hl : ∀ (t : Fin N) p q, t.val % 4 = 3 → o t.val t.isLt p q = a t.val t.isLt p q * w t p)
    (hA : ∀ (t : Fin N) p r (I J : Fin 8192), I.val = t.val / 4 * 2048 + p.val → J.val = t.val % 4 * 2048 + r.val →
      A t p r = U I J)
    (hB : ∀ (t : Fin N) r q (J : Fin 8192), J.val = t.val % 4 * 2048 + r.val → B t r q = Y J q)
    (hw : ∀ (t : Fin N) p (I : Fin 8192), I.val = t.val / 4 * 2048 + p.val → w t p = v I)
    (t : Fin N) (h3 : t.val % 4 = 3) (p : Fin 2048) (q : Fin 64) (I : Fin 8192) (hI : I.val = t.val / 4 * 2048 + p.val) :
    o t.val t.isLt p q = mmN U Y I q * v I := by
  subst hN
  have ht := t.isLt
  rw [hl t p q h3, hw t p I hI]
  refine congrArg (· * v I) ?_
  refine (run_sum (fun n h (pq : Fin 2048 × Fin 64) => a n h pq.1 pq.2)
    (fun n pq => if h : n < 16 then ∑ r, A ⟨n, h⟩ pq.1 r * B ⟨n, h⟩ r pq.2 else 0)
    (fun n h pq e => by beta_reduce; rw [dif_pos h]; exact h0 ⟨n, h⟩ pq.1 pq.2 e)
    (fun n h pq e => by beta_reduce; rw [dif_pos h]; exact hs ⟨n + 1, h⟩ pq.1 pq.2 e)
    t.val ht h3 (p, q)).trans ?_
  unfold mmN
  rw [sum_blocks4]
  refine Finset.sum_congr rfl fun s hs' => ?_
  have hs4 : s < 4 := Finset.mem_range.mp hs'
  have hlt : 4 * (t.val / 4) + s < 16 := by omega
  rw [dif_pos hlt]
  refine Finset.sum_congr rfl fun r _ => ?_
  have hr := r.isLt
  have hb : s * 2048 + r.val < 8192 := by omega
  rw [dif_pos hb]
  exact congrArg₂ (· * ·)
    (hA ⟨_, hlt⟩ p r I ⟨_, hb⟩ (by show I.val = (4 * (t.val / 4) + s) / 4 * 2048 + p.val; omega)
      (by show s * 2048 + r.val = (4 * (t.val / 4) + s) % 4 * 2048 + r.val; omega))
    (hB ⟨_, hlt⟩ r q ⟨_, hb⟩ (by show s * 2048 + r.val = (4 * (t.val / 4) + s) % 4 * 2048 + r.val; omega))

/-- The block indices at point `t = 4 m + k`: `m`, `k` on the matrix's axes `im`, `ik`; `(k, 0)`, `(m, 0)`, `(m, 0)` for the other three. -/
abbrev IdxFacts (N : ℕ) (im ik : Fin 2) (i0 i1 i2 i3 : Fin N → Fin 2 → ℕ) : Prop := ∀ t : Fin N,
  i0 t im = t.val / 4 ∧ i0 t ik = t.val % 4 ∧ i1 t 0 = t.val % 4 ∧ i1 t 1 = 0
    ∧ i2 t 0 = t.val / 4 ∧ i2 t 1 = 0 ∧ i3 t 0 = t.val / 4 ∧ i3 t 1 = 0

/-- Every row of an 8192 x 64 array lies in the row block of 2048 that the last point of some run of four holds. -/
theorem cover_rows {N : ℕ} (hN : N = 16) (idx : Fin N → Fin 2 → ℕ) (h : ∀ t, idx t 0 = t.val / 4 ∧ idx t 1 = 0)
    (i : S8192x64.Idx) : ∃ t : Fin N, t.val % 4 = 3 ∧
      ∀ a : Fin 2, idx t a * S2048x64.size a ≤ (i a).val ∧ (i a).val < idx t a * S2048x64.size a + S2048x64.size a := by
  subst hN
  have hi0 : (i 0).val < 8192 := idx2_lt0 i
  have hi1 : (i 1).val < 64 := idx2_lt1 i
  refine ⟨⟨4 * ((i 0).val / 2048) + 3, by omega⟩, by show (4 * ((i 0).val / 2048) + 3) % 4 = 3; omega, fun a => ?_⟩
  obtain ⟨e0, e1⟩ := h ⟨4 * ((i 0).val / 2048) + 3, by omega⟩
  match a with
  | ⟨0, _⟩ =>
    show idx _ 0 * 2048 ≤ (i 0).val ∧ (i 0).val < idx _ 0 * 2048 + 2048
    rw [e0]; show (4 * ((i 0).val / 2048) + 3) / 4 * 2048 ≤ _ ∧ _ < (4 * ((i 0).val / 2048) + 3) / 4 * 2048 + 2048; omega
  | ⟨1, _⟩ =>
    show idx _ 1 * 64 ≤ (i 1).val ∧ (i 1).val < idx _ 1 * 64 + 64
    rw [e1]; omega

end Cert.KernelIdeal.Hand

end
-- ==== Proof.Val.K1.lean ====
import proofs.«134441_j56014963474691_1_alg».proof.Proof.KI.R1
import proofs.«134441_j56014963474691_1_alg».proof.Proof.Val.KLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

section Pieces
variable {F : FTy → Type} [FloatOps F] (c : Dev nD) (i : grid1.Coords)
  (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole)
  (arg6 : Memref sig .tc .vmem S2048x64 .f32) (harg6 : arg6.IsWhole)
  (x0 : Vec F S2048x2048 .bf16) (x1 : Vec F S2048x64 .f32) (x2 : Vec F S2048x1 .f32) (xs0 : Vec F S2048x64 .f32)

theorem sout1_A_eq (hc0 : cond1_0 i) (hc1 : ¬cond1_1 i) :
    sout1_A_0 c i arg2 harg2 arg3 harg3 arg4 harg4 arg5 harg5 arg6 harg6 hc0 hc1 x0 x1 x2 = k1_pay2 x0 x1 (k1_pay1 (F := F)) := by
  rw [sout1_A_0, View.read_writes_eq_canon _ _ _ (fun y => scover1_A_0 (y := y) ..), kernelRun1_A]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem sout1_B_eq (hc0 : ¬cond1_0 i) (hc1 : ¬cond1_1 i) :
    sout1_B_0 c i arg2 harg2 arg3 harg3 arg4 harg4 arg5 harg5 arg6 harg6 hc0 hc1 x0 x1 x2 xs0 = k1_pay2 x0 x1 xs0 := by
  rw [sout1_B_0, View.read_writes_eq_canon _ _ _ (fun y => scover1_B_0 (y := y) ..), kernelRun1_B]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem sout1_C_eq (hc0 : ¬cond1_0 i) (hc1 : cond1_1 i) :
    sout1_C_0 c i arg2 harg2 arg3 harg3 arg4 harg4 arg5 harg5 arg6 harg6 hc0 hc1 x0 x1 x2 xs0 = k1_pay2 x0 x1 xs0 := by
  rw [sout1_C_0, View.read_writes_eq_canon _ _ _ (fun y => scover1_C_0 (y := y) ..), kernelRun1_C]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem out1_C_eq (hc0 : ¬cond1_0 i) (hc1 : cond1_1 i) :
    out1_C_3 c i arg2 harg2 arg3 harg3 arg4 harg4 arg5 harg5 arg6 harg6 hc0 hc1 x0 x1 x2 xs0 = k1_pay3 (k1_pay2 x0 x1 xs0) x2 := by
  rw [out1_C_3, View.read_writes_eq_canon _ _ _ (fun y => cover1_C_3 (y := y) ..), kernelRun1_C]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

end Pieces

theorem k1_pay1_apply (p : Fin 2048) (q : Fin 64) : (k1_pay1 (F := Ideal)) (ix2 p q) = 0 := by
  unfold k1_pay1
  simp only [shapeCast_self]
  exact Ideal.ofBits_zero_f32

/-- The shape casts are of a shape to itself and the change of format is the identity on the extended reals. -/
theorem k1_pay2_apply (a : FVec Ideal S2048x2048 .bf16) (b acc : FVec Ideal S2048x64 .f32) (p : Fin 2048) (q : Fin 64) :
    k1_pay2 (F := Ideal) a b acc (ix2 p q) = acc (ix2 p q) + ∑ r : Fin 2048, a (ix2 r p) * b (ix2 r q) := by
  unfold k1_pay2
  simp only [shapeCast_self]
  exact congrArg (acc (ix2 p q) + ·) (dotT_apply a _ p q)

theorem k1_pay3_apply (y : FVec Ideal S2048x64 .f32) (v : FVec Ideal S2048x1 .f32) (p : Fin 2048) (q : Fin 64) :
    k1_pay3 (F := Ideal) y v (ix2 p q) = y (ix2 p q) * v (ix2 p (0 : Fin 1)) := by
  unfold k1_pay3
  simp only [shapeCast_self]
  exact scale_apply y v p q

variable (V : (c : Dev nD) → (b : Ref sig .tc) → Buf (Elt Ideal) ((c : Thread nD τ).loc b))

abbrev ublk1 (c : Dev nD) (t : Fin cfg1.N) : FVec Ideal S2048x2048 .bf16 := iblk1 V c 0 t
abbrev xblk1 (c : Dev nD) (t : Fin cfg1.N) : FVec Ideal S2048x64 .f32 := iblk1 V c 1 t
abbrev vblk1 (c : Dev nD) (t : Fin cfg1.N) : FVec Ideal S2048x1 .f32 := iblk1 V c 2 t

theorem acc1_first (c : Dev nD) (t : Fin cfg1.N) (p : Fin 2048) (q : Fin 64) (h0 : t.val % 4 = 0) :
    (outsAt1 V c t.val t.isLt).2 (ix2 p q) = ∑ r : Fin 2048, ublk1 V c t (ix2 r p) * xblk1 V c t (ix2 r q) := by
  rw [outsAt1_A V c t h0 (by omega)]
  dsimp only
  rw [sout1_A_eq, k1_pay2_apply, k1_pay1_apply, zero_add]

theorem acc1_next (c : Dev nD) (t : Fin cfg1.N) (p : Fin 2048) (q : Fin 64) (h0 : ¬t.val % 4 = 0) :
    (outsAt1 V c t.val t.isLt).2 (ix2 p q)
      = (outsAt1 V c (t.val - 1) (Nat.lt_of_le_of_lt (Nat.sub_le _ _) t.isLt)).2 (ix2 p q)
        + ∑ r : Fin 2048, ublk1 V c t (ix2 r p) * xblk1 V c t (ix2 r q) := by
  by_cases h1 : t.val % 4 = 3
  · rw [outsAt1_C V c t h0 h1]
    dsimp only
    rw [sout1_C_eq, k1_pay2_apply]
  · rw [outsAt1_B V c t h0 h1]
    dsimp only
    rw [sout1_B_eq, k1_pay2_apply]

theorem out1_last (c : Dev nD) (t : Fin cfg1.N) (p : Fin 2048) (q : Fin 64) (h3 : t.val % 4 = 3) :
    (outsAt1 V c t.val t.isLt).1 (ix2 p q) = (outsAt1 V c t.val t.isLt).2 (ix2 p q) * vblk1 V c t (ix2 p (0 : Fin 1)) := by
  have h0 : ¬t.val % 4 = 0 := by omega
  rw [outsAt1_C V c t h0 h3]
  dsimp only
  rw [out1_C_eq, sout1_C_eq, k1_pay3_apply]

theorem idx_facts1 : IdxFacts cfg1.N 1 0 win1_0.index win1_1.index win1_2.index win1_3.index :=
  (by decide +kernel : IdxFacts grid1.N 1 0 win1_0.index win1_1.index win1_2.index win1_3.index)

/-- An entry of a block sits, on each axis, at the block index times the block's extent plus its own coordinate. -/
theorem ublk1_apply (c : Dev nD) (t : Fin cfg1.N) (p r : Fin 2048) (I J : Fin 8192)
    (hI : I.val = t.val / 4 * 2048 + p.val) (hJ : J.val = t.val % 4 * 2048 + r.val) :
    ublk1 V c t (ix2 r p) = V c main_v18 (ix2 J I) := by
  obtain ⟨e0, e1, -⟩ := idx_facts1 t
  show V c main_v18 (((cfg1.win 0).blk t).view.emb (ix2 r p)) = _
  exact congrArg _ (ix2_eq _ _ _ (by show win1_0.index t (0 : Fin 2) * 2048 + 1 * r.val = J.val; omega) (by show win1_0.index t (1 : Fin 2) * 2048 + 1 * p.val = I.val; omega))

theorem xblk1_apply (c : Dev nD) (t : Fin cfg1.N) (r : Fin 2048) (q : Fin 64) (J : Fin 8192)
    (hJ : J.val = t.val % 4 * 2048 + r.val) : xblk1 V c t (ix2 r q) = V c main_arg0 (ix2 J q) := by
  obtain ⟨-, -, e0, e1, -⟩ := idx_facts1 t
  show V c main_arg0 (((cfg1.win 1).blk t).view.emb (ix2 r q)) = _
  exact congrArg _ (ix2_eq _ _ _ (by show win1_1.index t (0 : Fin 2) * 2048 + 1 * r.val = J.val; omega)
    (by show win1_1.index t (1 : Fin 2) * 64 + 1 * q.val = q.val; omega))

theorem vblk1_apply (c : Dev nD) (t : Fin cfg1.N) (p : Fin 2048) (I : Fin 8192)
    (hI : I.val = t.val / 4 * 2048 + p.val) : vblk1 V c t (ix2 p (0 : Fin 1)) = V c main_v3 (ix2 I (0 : Fin 1)) := by
  obtain ⟨-, -, -, -, e0, e1, -⟩ := idx_facts1 t
  show V c main_v3 (((cfg1.win 2).blk t).view.emb (ix2 p (0 : Fin 1))) = _
  exact congrArg _ (ix2_eq _ _ _ (by show win1_2.index t (0 : Fin 2) * 2048 + 1 * p.val = I.val; omega)
    (by show win1_2.index t (1 : Fin 2) * 1 + 1 * 0 = 0; omega))

abbrev res1 (c : Dev nD) : FVec Ideal S8192x64 .f32 := fun i =>
  mmT (arr2 (V c main_v18)) (arr2 (V c main_arg0)) (fun j => arr2 (V c main_v3) j 0) (i 0) (i 1)

theorem block1_value (c : Dev nD) (t : Fin cfg1.N) (h3 : t.val % 4 = 3) (p : Fin 2048) (q : Fin 64) (I : Fin 8192)
    (hI : I.val = t.val / 4 * 2048 + p.val) : (outsAt1 V c t.val t.isLt).1 (ix2 p q) = res1 V c (ix2 I q) :=
  (blocked_value N_1 (fun n h p q => (outsAt1 V c n h).1 (ix2 p q)) (fun n h p q => (outsAt1 V c n h).2 (ix2 p q))
    (fun t p r => ublk1 V c t (ix2 r p)) (fun t r q => xblk1 V c t (ix2 r q)) (fun t p => vblk1 V c t (ix2 p (0 : Fin 1)))
    (fun i j => arr2 (V c main_v18) j i) (arr2 (V c main_arg0)) (fun j => arr2 (V c main_v3) j 0)
    (acc1_first V c) (acc1_next V c) (out1_last V c) (ublk1_apply V c) (xblk1_apply V c) (vblk1_apply V c)
    t h3 p q I hI).trans (mul_comm _ _)

theorem flushed1_eq (c : Dev nD) (t : Fin cfg1.N) (hf : (cfg1.win 3).flush t = true) :
    (dat1 (F := Ideal) V c).flushed 3 t = ((cfg1.win 3).blk t).view.read (Elt Ideal) (res1 V c) := by
  have h3 : t.val % 4 = 3 := (flush1_3 t).mp hf
  have ht : t.val < 16 := lt_of_lt_of_eq t.isLt N_1
  obtain ⟨-, -, -, -, -, -, e0, e1⟩ := idx_facts1 t
  show (cfg1.win 3).cut (grid1.coords t) ((dat1 (F := Ideal) V c).after 3 t) = _
  rw [after1_3]
  show (outsAt1 V c t.val t.isLt).1 = (((cfg1.win 3).blk t).view.read (Elt Ideal) (res1 V c) : FVec Ideal S2048x64 .f32)
  funext j
  obtain ⟨p, q, rfl⟩ : ∃ (p : Fin 2048) (q : Fin 64), j = ix2 p q := ⟨j 0, j 1, eq_ix2 j⟩
  have hp := p.isLt
  have hi : t.val / 4 * 2048 + p.val < 8192 := by omega
  show _ = res1 V c (((cfg1.win 3).blk t).view.emb (ix2 p q))
  rw [ix2_eq (((cfg1.win 3).blk t).view.emb (ix2 p q)) ⟨_, hi⟩ q
    (by show win1_3.index t (0 : Fin 2) * 2048 + 1 * p.val = t.val / 4 * 2048 + p.val; omega)
    (by show win1_3.index t (1 : Fin 2) * 64 + 1 * q.val = q.val; omega)]
  exact block1_value V c t h3 p q _ rfl

theorem cover1 (i : S8192x64.Idx) : ∃ t : Fin cfg1.N, (cfg1.win 3).flush t = true ∧ i ∈ ((cfg1.win 3).blk t).view.set := by
  obtain ⟨t, h3, h⟩ := cover_rows N_1 win1_3.index (fun t => (idx_facts1 t).2.2.2.2.2.2) i
  refine ⟨t, (flush1_3 t).mpr h3, ?_⟩
  show i ∈ ((View.whole main_v19).slice (win1_3.rect t)).set
  rw [View.set_slice_whole, Rect.mem_set_unit]
  exact h

theorem val1 (c : Dev nD) :
    arr2 ((dat1 (F := Ideal) V c).arrAt 3 cfg1.N)
      = mmT (arr2 (V c main_v18)) (arr2 (V c main_arg0)) (fun j => arr2 (V c main_v3) j 0) := by
  have e := (dat1 (F := Ideal) V c).arrAt_eq_of_cover 3 (res1 V c) (flushed1_eq V c) cover1
  funext i j
  exact (congrFun e (ix2 i j)).trans rfl

end Cert.KernelIdeal.Hand

end
-- ==== Proof.Val.K2.lean ====
import proofs.«134441_j56014963474691_1_alg».proof.Proof.KI.R2
import proofs.«134441_j56014963474691_1_alg».proof.Proof.Val.KLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

section Pieces
variable {F : FTy → Type} [FloatOps F] (c : Dev nD) (i : grid2.Coords)
  (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole)
  (arg6 : Memref sig .tc .vmem S2048x64 .f32) (harg6 : arg6.IsWhole)
  (x0 : Vec F S2048x2048 .bf16) (x1 : Vec F S2048x64 .f32) (x2 : Vec F S2048x1 .f32) (xs0 : Vec F S2048x64 .f32)

theorem sout2_A_eq (hc0 : cond2_0 i) (hc1 : ¬cond2_1 i) :
    sout2_A_0 c i arg2 harg2 arg3 harg3 arg4 harg4 arg5 harg5 arg6 harg6 hc0 hc1 x0 x1 x2 = k2_pay2 x0 x1 (k2_pay1 (F := F)) := by
  rw [sout2_A_0, View.read_writes_eq_canon _ _ _ (fun y => scover2_A_0 (y := y) ..), kernelRun2_A]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem sout2_B_eq (hc0 : ¬cond2_0 i) (hc1 : ¬cond2_1 i) :
    sout2_B_0 c i arg2 harg2 arg3 harg3 arg4 harg4 arg5 harg5 arg6 harg6 hc0 hc1 x0 x1 x2 xs0 = k2_pay2 x0 x1 xs0 := by
  rw [sout2_B_0, View.read_writes_eq_canon _ _ _ (fun y => scover2_B_0 (y := y) ..), kernelRun2_B]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem sout2_C_eq (hc0 : ¬cond2_0 i) (hc1 : cond2_1 i) :
    sout2_C_0 c i arg2 harg2 arg3 harg3 arg4 harg4 arg5 harg5 arg6 harg6 hc0 hc1 x0 x1 x2 xs0 = k2_pay2 x0 x1 xs0 := by
  rw [sout2_C_0, View.read_writes_eq_canon _ _ _ (fun y => scover2_C_0 (y := y) ..), kernelRun2_C]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem out2_C_eq (hc0 : ¬cond2_0 i) (hc1 : cond2_1 i) :
    out2_C_3 c i arg2 harg2 arg3 harg3 arg4 harg4 arg5 harg5 arg6 harg6 hc0 hc1 x0 x1 x2 xs0 = k2_pay3 (k2_pay2 x0 x1 xs0) x2 := by
  rw [out2_C_3, View.read_writes_eq_canon _ _ _ (fun y => cover2_C_3 (y := y) ..), kernelRun2_C]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

end Pieces

theorem k2_pay1_apply (p : Fin 2048) (q : Fin 64) : (k2_pay1 (F := Ideal)) (ix2 p q) = 0 := by
  unfold k2_pay1
  simp only [shapeCast_self]
  exact Ideal.ofBits_zero_f32

/-- The shape casts are of a shape to itself and the change of format is the identity on the extended reals. -/
theorem k2_pay2_apply (a : FVec Ideal S2048x2048 .bf16) (b acc : FVec Ideal S2048x64 .f32) (p : Fin 2048) (q : Fin 64) :
    k2_pay2 (F := Ideal) a b acc (ix2 p q) = acc (ix2 p q) + ∑ r : Fin 2048, a (ix2 p r) * b (ix2 r q) := by
  unfold k2_pay2
  simp only [shapeCast_self]
  exact congrArg (acc (ix2 p q) + ·) (dotN_apply a _ p q)

theorem k2_pay3_apply (y : FVec Ideal S2048x64 .f32) (v : FVec Ideal S2048x1 .f32) (p : Fin 2048) (q : Fin 64) :
    k2_pay3 (F := Ideal) y v (ix2 p q) = y (ix2 p q) * v (ix2 p (0 : Fin 1)) := by
  unfold k2_pay3
  simp only [shapeCast_self]
  exact scale_apply y v p q

variable (V : (c : Dev nD) → (b : Ref sig .tc) → Buf (Elt Ideal) ((c : Thread nD τ).loc b))

abbrev ublk2 (c : Dev nD) (t : Fin cfg2.N) : FVec Ideal S2048x2048 .bf16 := iblk2 V c 0 t
abbrev xblk2 (c : Dev nD) (t : Fin cfg2.N) : FVec Ideal S2048x64 .f32 := iblk2 V c 1 t
abbrev vblk2 (c : Dev nD) (t : Fin cfg2.N) : FVec Ideal S2048x1 .f32 := iblk2 V c 2 t

theorem acc2_first (c : Dev nD) (t : Fin cfg2.N) (p : Fin 2048) (q : Fin 64) (h0 : t.val % 4 = 0) :
    (outsAt2 V c t.val t.isLt).2 (ix2 p q) = ∑ r : Fin 2048, ublk2 V c t (ix2 p r) * xblk2 V c t (ix2 r q) := by
  rw [outsAt2_A V c t h0 (by omega)]
  dsimp only
  rw [sout2_A_eq, k2_pay2_apply, k2_pay1_apply, zero_add]

theorem acc2_next (c : Dev nD) (t : Fin cfg2.N) (p : Fin 2048) (q : Fin 64) (h0 : ¬t.val % 4 = 0) :
    (outsAt2 V c t.val t.isLt).2 (ix2 p q)
      = (outsAt2 V c (t.val - 1) (Nat.lt_of_le_of_lt (Nat.sub_le _ _) t.isLt)).2 (ix2 p q)
        + ∑ r : Fin 2048, ublk2 V c t (ix2 p r) * xblk2 V c t (ix2 r q) := by
  by_cases h1 : t.val % 4 = 3
  · rw [outsAt2_C V c t h0 h1]
    dsimp only
    rw [sout2_C_eq, k2_pay2_apply]
  · rw [outsAt2_B V c t h0 h1]
    dsimp only
    rw [sout2_B_eq, k2_pay2_apply]

theorem out2_last (c : Dev nD) (t : Fin cfg2.N) (p : Fin 2048) (q : Fin 64) (h3 : t.val % 4 = 3) :
    (outsAt2 V c t.val t.isLt).1 (ix2 p q) = (outsAt2 V c t.val t.isLt).2 (ix2 p q) * vblk2 V c t (ix2 p (0 : Fin 1)) := by
  have h0 : ¬t.val % 4 = 0 := by omega
  rw [outsAt2_C V c t h0 h3]
  dsimp only
  rw [out2_C_eq, sout2_C_eq, k2_pay3_apply]

theorem idx_facts2 : IdxFacts cfg2.N 0 1 win2_0.index win2_1.index win2_2.index win2_3.index :=
  (by decide +kernel : IdxFacts grid2.N 0 1 win2_0.index win2_1.index win2_2.index win2_3.index)

/-- An entry of a block sits, on each axis, at the block index times the block's extent plus its own coordinate. -/
theorem ublk2_apply (c : Dev nD) (t : Fin cfg2.N) (p r : Fin 2048) (I J : Fin 8192)
    (hI : I.val = t.val / 4 * 2048 + p.val) (hJ : J.val = t.val % 4 * 2048 + r.val) :
    ublk2 V c t (ix2 p r) = V c main_v18 (ix2 I J) := by
  obtain ⟨e0, e1, -⟩ := idx_facts2 t
  show V c main_v18 (((cfg2.win 0).blk t).view.emb (ix2 p r)) = _
  exact congrArg _ (ix2_eq _ _ _ (by show win2_0.index t (0 : Fin 2) * 2048 + 1 * p.val = I.val; omega) (by show win2_0.index t (1 : Fin 2) * 2048 + 1 * r.val = J.val; omega))

theorem xblk2_apply (c : Dev nD) (t : Fin cfg2.N) (r : Fin 2048) (q : Fin 64) (J : Fin 8192)
    (hJ : J.val = t.val % 4 * 2048 + r.val) : xblk2 V c t (ix2 r q) = V c main_v19 (ix2 J q) := by
  obtain ⟨-, -, e0, e1, -⟩ := idx_facts2 t
  show V c main_v19 (((cfg2.win 1).blk t).view.emb (ix2 r q)) = _
  exact congrArg _ (ix2_eq _ _ _ (by show win2_1.index t (0 : Fin 2) * 2048 + 1 * r.val = J.val; omega)
    (by show win2_1.index t (1 : Fin 2) * 64 + 1 * q.val = q.val; omega))

theorem vblk2_apply (c : Dev nD) (t : Fin cfg2.N) (p : Fin 2048) (I : Fin 8192)
    (hI : I.val = t.val / 4 * 2048 + p.val) : vblk2 V c t (ix2 p (0 : Fin 1)) = V c main_v17 (ix2 I (0 : Fin 1)) := by
  obtain ⟨-, -, -, -, e0, e1, -⟩ := idx_facts2 t
  show V c main_v17 (((cfg2.win 2).blk t).view.emb (ix2 p (0 : Fin 1))) = _
  exact congrArg _ (ix2_eq _ _ _ (by show win2_2.index t (0 : Fin 2) * 2048 + 1 * p.val = I.val; omega)
    (by show win2_2.index t (1 : Fin 2) * 1 + 1 * 0 = 0; omega))

abbrev res2 (c : Dev nD) : FVec Ideal S8192x64 .f32 := fun i =>
  mmN (arr2 (V c main_v18)) (arr2 (V c main_v19)) (i 0) (i 1) * arr2 (V c main_v17) (i 0) 0

theorem block2_value (c : Dev nD) (t : Fin cfg2.N) (h3 : t.val % 4 = 3) (p : Fin 2048) (q : Fin 64) (I : Fin 8192)
    (hI : I.val = t.val / 4 * 2048 + p.val) : (outsAt2 V c t.val t.isLt).1 (ix2 p q) = res2 V c (ix2 I q) :=
  (blocked_value N_2 (fun n h p q => (outsAt2 V c n h).1 (ix2 p q)) (fun n h p q => (outsAt2 V c n h).2 (ix2 p q))
    (fun t p r => ublk2 V c t (ix2 p r)) (fun t r q => xblk2 V c t (ix2 r q)) (fun t p => vblk2 V c t (ix2 p (0 : Fin 1)))
    (arr2 (V c main_v18)) (arr2 (V c main_v19)) (fun j => arr2 (V c main_v17) j 0)
    (acc2_first V c) (acc2_next V c) (out2_last V c) (ublk2_apply V c) (xblk2_apply V c) (vblk2_apply V c)
    t h3 p q I hI)

theorem flushed2_eq (c : Dev nD) (t : Fin cfg2.N) (hf : (cfg2.win 3).flush t = true) :
    (dat2 (F := Ideal) V c).flushed 3 t = ((cfg2.win 3).blk t).view.read (Elt Ideal) (res2 V c) := by
  have h3 : t.val % 4 = 3 := (flush2_3 t).mp hf
  have ht : t.val < 16 := lt_of_lt_of_eq t.isLt N_2
  obtain ⟨-, -, -, -, -, -, e0, e1⟩ := idx_facts2 t
  show (cfg2.win 3).cut (grid2.coords t) ((dat2 (F := Ideal) V c).after 3 t) = _
  rw [after2_3]
  show (outsAt2 V c t.val t.isLt).1 = (((cfg2.win 3).blk t).view.read (Elt Ideal) (res2 V c) : FVec Ideal S2048x64 .f32)
  funext j
  obtain ⟨p, q, rfl⟩ : ∃ (p : Fin 2048) (q : Fin 64), j = ix2 p q := ⟨j 0, j 1, eq_ix2 j⟩
  have hp := p.isLt
  have hi : t.val / 4 * 2048 + p.val < 8192 := by omega
  show _ = res2 V c (((cfg2.win 3).blk t).view.emb (ix2 p q))
  rw [ix2_eq (((cfg2.win 3).blk t).view.emb (ix2 p q)) ⟨_, hi⟩ q
    (by show win2_3.index t (0 : Fin 2) * 2048 + 1 * p.val = t.val / 4 * 2048 + p.val; omega)
    (by show win2_3.index t (1 : Fin 2) * 64 + 1 * q.val = q.val; omega)]
  exact block2_value V c t h3 p q _ rfl

theorem cover2 (i : S8192x64.Idx) : ∃ t : Fin cfg2.N, (cfg2.win 3).flush t = true ∧ i ∈ ((cfg2.win 3).blk t).view.set := by
  obtain ⟨t, h3, h⟩ := cover_rows N_2 win2_3.index (fun t => (idx_facts2 t).2.2.2.2.2.2) i
  refine ⟨t, (flush2_3 t).mpr h3, ?_⟩
  show i ∈ ((View.whole main_v20).slice (win2_3.rect t)).set
  rw [View.set_slice_whole, Rect.mem_set_unit]
  exact h

theorem val2 (c : Dev nD) :
    arr2 ((dat2 (F := Ideal) V c).arrAt 3 cfg2.N)
      = fun i d => mmN (arr2 (V c main_v18)) (arr2 (V c main_v19)) i d * arr2 (V c main_v17) i 0 := by
  have e := (dat2 (F := Ideal) V c).arrAt_eq_of_cover 3 (res2 V c) (flushed2_eq V c) cover2
  funext i j
  exact (congrFun e (ix2 i j)).trans rfl

end Cert.KernelIdeal.Hand

end
-- ==== Proof.Val.K3.lean ====
import proofs.«134441_j56014963474691_1_alg».proof.Proof.KI.R3
import proofs.«134441_j56014963474691_1_alg».proof.Proof.Val.KLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

section Pieces
variable {F : FTy → Type} [FloatOps F] (c : Dev nD) (i : grid3.Coords)
  (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole)
  (arg6 : Memref sig .tc .vmem S2048x64 .f32) (harg6 : arg6.IsWhole)
  (x0 : Vec F S2048x2048 .bf16) (x1 : Vec F S2048x64 .f32) (x2 : Vec F S2048x1 .f32) (xs0 : Vec F S2048x64 .f32)

theorem sout3_A_eq (hc0 : cond3_0 i) (hc1 : ¬cond3_1 i) :
    sout3_A_0 c i arg2 harg2 arg3 harg3 arg4 harg4 arg5 harg5 arg6 harg6 hc0 hc1 x0 x1 x2 = k3_pay2 x0 x1 (k3_pay1 (F := F)) := by
  rw [sout3_A_0, View.read_writes_eq_canon _ _ _ (fun y => scover3_A_0 (y := y) ..), kernelRun3_A]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem sout3_B_eq (hc0 : ¬cond3_0 i) (hc1 : ¬cond3_1 i) :
    sout3_B_0 c i arg2 harg2 arg3 harg3 arg4 harg4 arg5 harg5 arg6 harg6 hc0 hc1 x0 x1 x2 xs0 = k3_pay2 x0 x1 xs0 := by
  rw [sout3_B_0, View.read_writes_eq_canon _ _ _ (fun y => scover3_B_0 (y := y) ..), kernelRun3_B]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem sout3_C_eq (hc0 : ¬cond3_0 i) (hc1 : cond3_1 i) :
    sout3_C_0 c i arg2 harg2 arg3 harg3 arg4 harg4 arg5 harg5 arg6 harg6 hc0 hc1 x0 x1 x2 xs0 = k3_pay2 x0 x1 xs0 := by
  rw [sout3_C_0, View.read_writes_eq_canon _ _ _ (fun y => scover3_C_0 (y := y) ..), kernelRun3_C]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem out3_C_eq (hc0 : ¬cond3_0 i) (hc1 : cond3_1 i) :
    out3_C_3 c i arg2 harg2 arg3 harg3 arg4 harg4 arg5 harg5 arg6 harg6 hc0 hc1 x0 x1 x2 xs0 = k3_pay3 (k3_pay2 x0 x1 xs0) x2 := by
  rw [out3_C_3, View.read_writes_eq_canon _ _ _ (fun y => cover3_C_3 (y := y) ..), kernelRun3_C]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

end Pieces

theorem k3_pay1_apply (p : Fin 2048) (q : Fin 64) : (k3_pay1 (F := Ideal)) (ix2 p q) = 0 := by
  unfold k3_pay1
  simp only [shapeCast_self]
  exact Ideal.ofBits_zero_f32

/-- The shape casts are of a shape to itself and the change of format is the identity on the extended reals. -/
theorem k3_pay2_apply (a : FVec Ideal S2048x2048 .bf16) (b acc : FVec Ideal S2048x64 .f32) (p : Fin 2048) (q : Fin 64) :
    k3_pay2 (F := Ideal) a b acc (ix2 p q) = acc (ix2 p q) + ∑ r : Fin 2048, a (ix2 r p) * b (ix2 r q) := by
  unfold k3_pay2
  simp only [shapeCast_self]
  exact congrArg (acc (ix2 p q) + ·) (dotT_apply a _ p q)

theorem k3_pay3_apply (y : FVec Ideal S2048x64 .f32) (v : FVec Ideal S2048x1 .f32) (p : Fin 2048) (q : Fin 64) :
    k3_pay3 (F := Ideal) y v (ix2 p q) = y (ix2 p q) * v (ix2 p (0 : Fin 1)) := by
  unfold k3_pay3
  simp only [shapeCast_self]
  exact scale_apply y v p q

variable (V : (c : Dev nD) → (b : Ref sig .tc) → Buf (Elt Ideal) ((c : Thread nD τ).loc b))

abbrev ublk3 (c : Dev nD) (t : Fin cfg3.N) : FVec Ideal S2048x2048 .bf16 := iblk3 V c 0 t
abbrev xblk3 (c : Dev nD) (t : Fin cfg3.N) : FVec Ideal S2048x64 .f32 := iblk3 V c 1 t
abbrev vblk3 (c : Dev nD) (t : Fin cfg3.N) : FVec Ideal S2048x1 .f32 := iblk3 V c 2 t

theorem acc3_first (c : Dev nD) (t : Fin cfg3.N) (p : Fin 2048) (q : Fin 64) (h0 : t.val % 4 = 0) :
    (outsAt3 V c t.val t.isLt).2 (ix2 p q) = ∑ r : Fin 2048, ublk3 V c t (ix2 r p) * xblk3 V c t (ix2 r q) := by
  rw [outsAt3_A V c t h0 (by omega)]
  dsimp only
  rw [sout3_A_eq, k3_pay2_apply, k3_pay1_apply, zero_add]

theorem acc3_next (c : Dev nD) (t : Fin cfg3.N) (p : Fin 2048) (q : Fin 64) (h0 : ¬t.val % 4 = 0) :
    (outsAt3 V c t.val t.isLt).2 (ix2 p q)
      = (outsAt3 V c (t.val - 1) (Nat.lt_of_le_of_lt (Nat.sub_le _ _) t.isLt)).2 (ix2 p q)
        + ∑ r : Fin 2048, ublk3 V c t (ix2 r p) * xblk3 V c t (ix2 r q) := by
  by_cases h1 : t.val % 4 = 3
  · rw [outsAt3_C V c t h0 h1]
    dsimp only
    rw [sout3_C_eq, k3_pay2_apply]
  · rw [outsAt3_B V c t h0 h1]
    dsimp only
    rw [sout3_B_eq, k3_pay2_apply]

theorem out3_last (c : Dev nD) (t : Fin cfg3.N) (p : Fin 2048) (q : Fin 64) (h3 : t.val % 4 = 3) :
    (outsAt3 V c t.val t.isLt).1 (ix2 p q) = (outsAt3 V c t.val t.isLt).2 (ix2 p q) * vblk3 V c t (ix2 p (0 : Fin 1)) := by
  have h0 : ¬t.val % 4 = 0 := by omega
  rw [outsAt3_C V c t h0 h3]
  dsimp only
  rw [out3_C_eq, sout3_C_eq, k3_pay3_apply]

theorem idx_facts3 : IdxFacts cfg3.N 1 0 win3_0.index win3_1.index win3_2.index win3_3.index :=
  (by decide +kernel : IdxFacts grid3.N 1 0 win3_0.index win3_1.index win3_2.index win3_3.index)

/-- An entry of a block sits, on each axis, at the block index times the block's extent plus its own coordinate. -/
theorem ublk3_apply (c : Dev nD) (t : Fin cfg3.N) (p r : Fin 2048) (I J : Fin 8192)
    (hI : I.val = t.val / 4 * 2048 + p.val) (hJ : J.val = t.val % 4 * 2048 + r.val) :
    ublk3 V c t (ix2 r p) = V c main_v18 (ix2 J I) := by
  obtain ⟨e0, e1, -⟩ := idx_facts3 t
  show V c main_v18 (((cfg3.win 0).blk t).view.emb (ix2 r p)) = _
  exact congrArg _ (ix2_eq _ _ _ (by show win3_0.index t (0 : Fin 2) * 2048 + 1 * r.val = J.val; omega) (by show win3_0.index t (1 : Fin 2) * 2048 + 1 * p.val = I.val; omega))

theorem xblk3_apply (c : Dev nD) (t : Fin cfg3.N) (r : Fin 2048) (q : Fin 64) (J : Fin 8192)
    (hJ : J.val = t.val % 4 * 2048 + r.val) : xblk3 V c t (ix2 r q) = V c main_v20 (ix2 J q) := by
  obtain ⟨-, -, e0, e1, -⟩ := idx_facts3 t
  show V c main_v20 (((cfg3.win 1).blk t).view.emb (ix2 r q)) = _
  exact congrArg _ (ix2_eq _ _ _ (by show win3_1.index t (0 : Fin 2) * 2048 + 1 * r.val = J.val; omega)
    (by show win3_1.index t (1 : Fin 2) * 64 + 1 * q.val = q.val; omega))

theorem vblk3_apply (c : Dev nD) (t : Fin cfg3.N) (p : Fin 2048) (I : Fin 8192)
    (hI : I.val = t.val / 4 * 2048 + p.val) : vblk3 V c t (ix2 p (0 : Fin 1)) = V c main_v16 (ix2 I (0 : Fin 1)) := by
  obtain ⟨-, -, -, -, e0, e1, -⟩ := idx_facts3 t
  show V c main_v16 (((cfg3.win 2).blk t).view.emb (ix2 p (0 : Fin 1))) = _
  exact congrArg _ (ix2_eq _ _ _ (by show win3_2.index t (0 : Fin 2) * 2048 + 1 * p.val = I.val; omega)
    (by show win3_2.index t (1 : Fin 2) * 1 + 1 * 0 = 0; omega))

abbrev res3 (c : Dev nD) : FVec Ideal S8192x64 .f32 := fun i =>
  mmT (arr2 (V c main_v18)) (arr2 (V c main_v20)) (fun j => arr2 (V c main_v16) j 0) (i 0) (i 1)

theorem block3_value (c : Dev nD) (t : Fin cfg3.N) (h3 : t.val % 4 = 3) (p : Fin 2048) (q : Fin 64) (I : Fin 8192)
    (hI : I.val = t.val / 4 * 2048 + p.val) : (outsAt3 V c t.val t.isLt).1 (ix2 p q) = res3 V c (ix2 I q) :=
  (blocked_value N_3 (fun n h p q => (outsAt3 V c n h).1 (ix2 p q)) (fun n h p q => (outsAt3 V c n h).2 (ix2 p q))
    (fun t p r => ublk3 V c t (ix2 r p)) (fun t r q => xblk3 V c t (ix2 r q)) (fun t p => vblk3 V c t (ix2 p (0 : Fin 1)))
    (fun i j => arr2 (V c main_v18) j i) (arr2 (V c main_v20)) (fun j => arr2 (V c main_v16) j 0)
    (acc3_first V c) (acc3_next V c) (out3_last V c) (ublk3_apply V c) (xblk3_apply V c) (vblk3_apply V c)
    t h3 p q I hI).trans (mul_comm _ _)

theorem flushed3_eq (c : Dev nD) (t : Fin cfg3.N) (hf : (cfg3.win 3).flush t = true) :
    (dat3 (F := Ideal) V c).flushed 3 t = ((cfg3.win 3).blk t).view.read (Elt Ideal) (res3 V c) := by
  have h3 : t.val % 4 = 3 := (flush3_3 t).mp hf
  have ht : t.val < 16 := lt_of_lt_of_eq t.isLt N_3
  obtain ⟨-, -, -, -, -, -, e0, e1⟩ := idx_facts3 t
  show (cfg3.win 3).cut (grid3.coords t) ((dat3 (F := Ideal) V c).after 3 t) = _
  rw [after3_3]
  show (outsAt3 V c t.val t.isLt).1 = (((cfg3.win 3).blk t).view.read (Elt Ideal) (res3 V c) : FVec Ideal S2048x64 .f32)
  funext j
  obtain ⟨p, q, rfl⟩ : ∃ (p : Fin 2048) (q : Fin 64), j = ix2 p q := ⟨j 0, j 1, eq_ix2 j⟩
  have hp := p.isLt
  have hi : t.val / 4 * 2048 + p.val < 8192 := by omega
  show _ = res3 V c (((cfg3.win 3).blk t).view.emb (ix2 p q))
  rw [ix2_eq (((cfg3.win 3).blk t).view.emb (ix2 p q)) ⟨_, hi⟩ q
    (by show win3_3.index t (0 : Fin 2) * 2048 + 1 * p.val = t.val / 4 * 2048 + p.val; omega)
    (by show win3_3.index t (1 : Fin 2) * 64 + 1 * q.val = q.val; omega)]
  exact block3_value V c t h3 p q _ rfl

theorem cover3 (i : S8192x64.Idx) : ∃ t : Fin cfg3.N, (cfg3.win 3).flush t = true ∧ i ∈ ((cfg3.win 3).blk t).view.set := by
  obtain ⟨t, h3, h⟩ := cover_rows N_3 win3_3.index (fun t => (idx_facts3 t).2.2.2.2.2.2) i
  refine ⟨t, (flush3_3 t).mpr h3, ?_⟩
  show i ∈ ((View.whole main_v21).slice (win3_3.rect t)).set
  rw [View.set_slice_whole, Rect.mem_set_unit]
  exact h

theorem val3 (c : Dev nD) :
    arr2 ((dat3 (F := Ideal) V c).arrAt 3 cfg3.N)
      = mmT (arr2 (V c main_v18)) (arr2 (V c main_v20)) (fun j => arr2 (V c main_v16) j 0) := by
  have e := (dat3 (F := Ideal) V c).arrAt_eq_of_cover 3 (res3 V c) (flushed3_eq V c) cover3
  funext i j
  exact (congrFun e (ix2 i j)).trans rfl

end Cert.KernelIdeal.Hand

end
-- ==== Proof.Val.K4.lean ====
import proofs.«134441_j56014963474691_1_alg».proof.Proof.KI.R4
import proofs.«134441_j56014963474691_1_alg».proof.Proof.Val.KLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

section Pieces
variable {F : FTy → Type} [FloatOps F] (c : Dev nD) (i : grid4.Coords)
  (arg2 : Memref sig .tc .vmem S2048x2048 .bf16) (harg2 : arg2.IsWhole) (arg3 : Memref sig .tc .vmem S2048x64 .f32) (harg3 : arg3.IsWhole)
  (arg4 : Memref sig .tc .vmem S2048x1 .f32) (harg4 : arg4.IsWhole) (arg5 : Memref sig .tc .vmem S2048x64 .f32) (harg5 : arg5.IsWhole)
  (arg6 : Memref sig .tc .vmem S2048x64 .f32) (harg6 : arg6.IsWhole)
  (x0 : Vec F S2048x2048 .bf16) (x1 : Vec F S2048x64 .f32) (x2 : Vec F S2048x1 .f32) (xs0 : Vec F S2048x64 .f32)

theorem sout4_A_eq (hc0 : cond4_0 i) (hc1 : ¬cond4_1 i) :
    sout4_A_0 c i arg2 harg2 arg3 harg3 arg4 harg4 arg5 harg5 arg6 harg6 hc0 hc1 x0 x1 x2 = k4_pay2 x0 x1 (k4_pay1 (F := F)) := by
  rw [sout4_A_0, View.read_writes_eq_canon _ _ _ (fun y => scover4_A_0 (y := y) ..), kernelRun4_A]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem sout4_B_eq (hc0 : ¬cond4_0 i) (hc1 : ¬cond4_1 i) :
    sout4_B_0 c i arg2 harg2 arg3 harg3 arg4 harg4 arg5 harg5 arg6 harg6 hc0 hc1 x0 x1 x2 xs0 = k4_pay2 x0 x1 xs0 := by
  rw [sout4_B_0, View.read_writes_eq_canon _ _ _ (fun y => scover4_B_0 (y := y) ..), kernelRun4_B]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem sout4_C_eq (hc0 : ¬cond4_0 i) (hc1 : cond4_1 i) :
    sout4_C_0 c i arg2 harg2 arg3 harg3 arg4 harg4 arg5 harg5 arg6 harg6 hc0 hc1 x0 x1 x2 xs0 = k4_pay2 x0 x1 xs0 := by
  rw [sout4_C_0, View.read_writes_eq_canon _ _ _ (fun y => scover4_C_0 (y := y) ..), kernelRun4_C]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

theorem out4_C_eq (hc0 : ¬cond4_0 i) (hc1 : cond4_1 i) :
    out4_C_3 c i arg2 harg2 arg3 harg3 arg4 harg4 arg5 harg5 arg6 harg6 hc0 hc1 x0 x1 x2 xs0 = k4_pay3 (k4_pay2 x0 x1 xs0) x2 := by
  rw [out4_C_3, View.read_writes_eq_canon _ _ _ (fun y => cover4_C_3 (y := y) ..), kernelRun4_C]
  sl_unfold_words
  simp only [View.canon_cons_unit_zero (S := S2048x64) zero_offsets, View.readCov_unit_zero (S := S2048x64) _ zero_offsets, View.ld_unit_zero (S := S2048x2048) zero_offsets, View.ld_unit_zero (S := S2048x64) zero_offsets, View.ld_unit_zero (S := S2048x1) zero_offsets, View.readAt_eq_ld, harg2.read_unread, harg3.read_unread, harg4.read_unread, harg6.read_unread]

end Pieces

theorem k4_pay1_apply (p : Fin 2048) (q : Fin 64) : (k4_pay1 (F := Ideal)) (ix2 p q) = 0 := by
  unfold k4_pay1
  simp only [shapeCast_self]
  exact Ideal.ofBits_zero_f32

/-- The shape casts are of a shape to itself and the change of format is the identity on the extended reals. -/
theorem k4_pay2_apply (a : FVec Ideal S2048x2048 .bf16) (b acc : FVec Ideal S2048x64 .f32) (p : Fin 2048) (q : Fin 64) :
    k4_pay2 (F := Ideal) a b acc (ix2 p q) = acc (ix2 p q) + ∑ r : Fin 2048, a (ix2 p r) * b (ix2 r q) := by
  unfold k4_pay2
  simp only [shapeCast_self]
  exact congrArg (acc (ix2 p q) + ·) (dotN_apply a _ p q)

theorem k4_pay3_apply (y : FVec Ideal S2048x64 .f32) (v : FVec Ideal S2048x1 .f32) (p : Fin 2048) (q : Fin 64) :
    k4_pay3 (F := Ideal) y v (ix2 p q) = y (ix2 p q) * v (ix2 p (0 : Fin 1)) := by
  unfold k4_pay3
  simp only [shapeCast_self]
  exact scale_apply y v p q

variable (V : (c : Dev nD) → (b : Ref sig .tc) → Buf (Elt Ideal) ((c : Thread nD τ).loc b))

abbrev ublk4 (c : Dev nD) (t : Fin cfg4.N) : FVec Ideal S2048x2048 .bf16 := iblk4 V c 0 t
abbrev xblk4 (c : Dev nD) (t : Fin cfg4.N) : FVec Ideal S2048x64 .f32 := iblk4 V c 1 t
abbrev vblk4 (c : Dev nD) (t : Fin cfg4.N) : FVec Ideal S2048x1 .f32 := iblk4 V c 2 t

theorem acc4_first (c : Dev nD) (t : Fin cfg4.N) (p : Fin 2048) (q : Fin 64) (h0 : t.val % 4 = 0) :
    (outsAt4 V c t.val t.isLt).2 (ix2 p q) = ∑ r : Fin 2048, ublk4 V c t (ix2 p r) * xblk4 V c t (ix2 r q) := by
  rw [outsAt4_A V c t h0 (by omega)]
  dsimp only
  rw [sout4_A_eq, k4_pay2_apply, k4_pay1_apply, zero_add]

theorem acc4_next (c : Dev nD) (t : Fin cfg4.N) (p : Fin 2048) (q : Fin 64) (h0 : ¬t.val % 4 = 0) :
    (outsAt4 V c t.val t.isLt).2 (ix2 p q)
      = (outsAt4 V c (t.val - 1) (Nat.lt_of_le_of_lt (Nat.sub_le _ _) t.isLt)).2 (ix2 p q)
        + ∑ r : Fin 2048, ublk4 V c t (ix2 p r) * xblk4 V c t (ix2 r q) := by
  by_cases h1 : t.val % 4 = 3
  · rw [outsAt4_C V c t h0 h1]
    dsimp only
    rw [sout4_C_eq, k4_pay2_apply]
  · rw [outsAt4_B V c t h0 h1]
    dsimp only
    rw [sout4_B_eq, k4_pay2_apply]

theorem out4_last (c : Dev nD) (t : Fin cfg4.N) (p : Fin 2048) (q : Fin 64) (h3 : t.val % 4 = 3) :
    (outsAt4 V c t.val t.isLt).1 (ix2 p q) = (outsAt4 V c t.val t.isLt).2 (ix2 p q) * vblk4 V c t (ix2 p (0 : Fin 1)) := by
  have h0 : ¬t.val % 4 = 0 := by omega
  rw [outsAt4_C V c t h0 h3]
  dsimp only
  rw [out4_C_eq, sout4_C_eq, k4_pay3_apply]

theorem idx_facts4 : IdxFacts cfg4.N 0 1 win4_0.index win4_1.index win4_2.index win4_3.index :=
  (by decide +kernel : IdxFacts grid4.N 0 1 win4_0.index win4_1.index win4_2.index win4_3.index)

/-- An entry of a block sits, on each axis, at the block index times the block's extent plus its own coordinate. -/
theorem ublk4_apply (c : Dev nD) (t : Fin cfg4.N) (p r : Fin 2048) (I J : Fin 8192)
    (hI : I.val = t.val / 4 * 2048 + p.val) (hJ : J.val = t.val % 4 * 2048 + r.val) :
    ublk4 V c t (ix2 p r) = V c main_v18 (ix2 I J) := by
  obtain ⟨e0, e1, -⟩ := idx_facts4 t
  show V c main_v18 (((cfg4.win 0).blk t).view.emb (ix2 p r)) = _
  exact congrArg _ (ix2_eq _ _ _ (by show win4_0.index t (0 : Fin 2) * 2048 + 1 * p.val = I.val; omega) (by show win4_0.index t (1 : Fin 2) * 2048 + 1 * r.val = J.val; omega))

theorem xblk4_apply (c : Dev nD) (t : Fin cfg4.N) (r : Fin 2048) (q : Fin 64) (J : Fin 8192)
    (hJ : J.val = t.val % 4 * 2048 + r.val) : xblk4 V c t (ix2 r q) = V c main_v21 (ix2 J q) := by
  obtain ⟨-, -, e0, e1, -⟩ := idx_facts4 t
  show V c main_v21 (((cfg4.win 1).blk t).view.emb (ix2 r q)) = _
  exact congrArg _ (ix2_eq _ _ _ (by show win4_1.index t (0 : Fin 2) * 2048 + 1 * r.val = J.val; omega)
    (by show win4_1.index t (1 : Fin 2) * 64 + 1 * q.val = q.val; omega))

theorem vblk4_apply (c : Dev nD) (t : Fin cfg4.N) (p : Fin 2048) (I : Fin 8192)
    (hI : I.val = t.val / 4 * 2048 + p.val) : vblk4 V c t (ix2 p (0 : Fin 1)) = V c main_v17 (ix2 I (0 : Fin 1)) := by
  obtain ⟨-, -, -, -, e0, e1, -⟩ := idx_facts4 t
  show V c main_v17 (((cfg4.win 2).blk t).view.emb (ix2 p (0 : Fin 1))) = _
  exact congrArg _ (ix2_eq _ _ _ (by show win4_2.index t (0 : Fin 2) * 2048 + 1 * p.val = I.val; omega)
    (by show win4_2.index t (1 : Fin 2) * 1 + 1 * 0 = 0; omega))

abbrev res4 (c : Dev nD) : FVec Ideal S8192x64 .f32 := fun i =>
  mmN (arr2 (V c main_v18)) (arr2 (V c main_v21)) (i 0) (i 1) * arr2 (V c main_v17) (i 0) 0

theorem block4_value (c : Dev nD) (t : Fin cfg4.N) (h3 : t.val % 4 = 3) (p : Fin 2048) (q : Fin 64) (I : Fin 8192)
    (hI : I.val = t.val / 4 * 2048 + p.val) : (outsAt4 V c t.val t.isLt).1 (ix2 p q) = res4 V c (ix2 I q) :=
  (blocked_value N_4 (fun n h p q => (outsAt4 V c n h).1 (ix2 p q)) (fun n h p q => (outsAt4 V c n h).2 (ix2 p q))
    (fun t p r => ublk4 V c t (ix2 p r)) (fun t r q => xblk4 V c t (ix2 r q)) (fun t p => vblk4 V c t (ix2 p (0 : Fin 1)))
    (arr2 (V c main_v18)) (arr2 (V c main_v21)) (fun j => arr2 (V c main_v17) j 0)
    (acc4_first V c) (acc4_next V c) (out4_last V c) (ublk4_apply V c) (xblk4_apply V c) (vblk4_apply V c)
    t h3 p q I hI)

theorem flushed4_eq (c : Dev nD) (t : Fin cfg4.N) (hf : (cfg4.win 3).flush t = true) :
    (dat4 (F := Ideal) V c).flushed 3 t = ((cfg4.win 3).blk t).view.read (Elt Ideal) (res4 V c) := by
  have h3 : t.val % 4 = 3 := (flush4_3 t).mp hf
  have ht : t.val < 16 := lt_of_lt_of_eq t.isLt N_4
  obtain ⟨-, -, -, -, -, -, e0, e1⟩ := idx_facts4 t
  show (cfg4.win 3).cut (grid4.coords t) ((dat4 (F := Ideal) V c).after 3 t) = _
  rw [after4_3]
  show (outsAt4 V c t.val t.isLt).1 = (((cfg4.win 3).blk t).view.read (Elt Ideal) (res4 V c) : FVec Ideal S2048x64 .f32)
  funext j
  obtain ⟨p, q, rfl⟩ : ∃ (p : Fin 2048) (q : Fin 64), j = ix2 p q := ⟨j 0, j 1, eq_ix2 j⟩
  have hp := p.isLt
  have hi : t.val / 4 * 2048 + p.val < 8192 := by omega
  show _ = res4 V c (((cfg4.win 3).blk t).view.emb (ix2 p q))
  rw [ix2_eq (((cfg4.win 3).blk t).view.emb (ix2 p q)) ⟨_, hi⟩ q
    (by show win4_3.index t (0 : Fin 2) * 2048 + 1 * p.val = t.val / 4 * 2048 + p.val; omega)
    (by show win4_3.index t (1 : Fin 2) * 64 + 1 * q.val = q.val; omega)]
  exact block4_value V c t h3 p q _ rfl

theorem cover4 (i : S8192x64.Idx) : ∃ t : Fin cfg4.N, (cfg4.win 3).flush t = true ∧ i ∈ ((cfg4.win 3).blk t).view.set := by
  obtain ⟨t, h3, h⟩ := cover_rows N_4 win4_3.index (fun t => (idx_facts4 t).2.2.2.2.2.2) i
  refine ⟨t, (flush4_3 t).mpr h3, ?_⟩
  show i ∈ ((View.whole main_v22).slice (win4_3.rect t)).set
  rw [View.set_slice_whole, Rect.mem_set_unit]
  exact h

theorem val4 (c : Dev nD) :
    arr2 ((dat4 (F := Ideal) V c).arrAt 3 cfg4.N)
      = fun i d => mmN (arr2 (V c main_v18)) (arr2 (V c main_v21)) i d * arr2 (V c main_v17) i 0 := by
  have e := (dat4 (F := Ideal) V c).arrAt_eq_of_cover 3 (res4 V c) (flushed4_eq V c) cover4
  funext i j
  exact (congrFun e (ix2 i j)).trans rfl

end Cert.KernelIdeal.Hand

end
-- ==== Proof.Val.K5.lean ====
import proofs.«134441_j56014963474691_1_alg».proof.Proof.KI.R5
import proofs.«134441_j56014963474691_1_alg».proof.Proof.Val.Spec
import proofs.«134441_j56014963474691_1_alg».proof.Proof.Val.Math
import proofs.«134441_j56014963474691_1_alg».proof.Proof.LibColumn
import proofs.«134441_j56014963474691_1_alg».proof.Proof.Val.KLib
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (V : (c : Dev nD) → (b : Ref sig .tc) → Buf (Elt Ideal) ((c : Thread nD τ).loc b))

abbrev hidIn (c : Dev nD) : A2 8192 64 :=
  lin (arr2 (V c main_v22)) (arr2 (V c main_arg5)) (fun h => arr2 (V c main_v23) 0 h)

theorem zero_off5 : (![0, 0] : Fin 2 → Nat) = fun _ => 0 := funext fun a => by fin_cases a <;> rfl

theorem index5_zero : ∀ t : Fin cfg5.N,
    (win5_0.index t (0 : Fin 2) = 0 ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0) :=
  (by decide +kernel : ∀ t : Fin grid5.N, _)

theorem read5_0 (t : Fin cfg5.N) (G : S8192x64.Idx → EReal) : ((cfg5.win 0).blk t).view.read (Elt Ideal) G = G := by
  obtain ⟨⟨e0, e1⟩, -, -, -, -, -, -, -, -⟩ := index5_zero t
  funext y
  show G (((cfg5.win 0).blk t).view.emb y) = G y
  congr 1
  funext a; apply Fin.ext
  match a with
  | ⟨0, _⟩ => show win5_0.index t (0 : Fin 2) * 8192 + 1 * (y 0).val = (y 0).val; omega
  | ⟨1, _⟩ => show win5_0.index t (1 : Fin 2) * 64 + 1 * (y 1).val = (y 1).val; omega

theorem read5_1 (t : Fin cfg5.N) (G : S64x64.Idx → EReal) : ((cfg5.win 1).blk t).view.read (Elt Ideal) G = G := by
  obtain ⟨-, ⟨e0, e1⟩, -, -, -, -, -, -, -⟩ := index5_zero t
  funext y
  show G (((cfg5.win 1).blk t).view.emb y) = G y
  congr 1
  funext a; apply Fin.ext
  match a with
  | ⟨0, _⟩ => show win5_1.index t (0 : Fin 2) * 64 + 1 * (y 0).val = (y 0).val; omega
  | ⟨1, _⟩ => show win5_1.index t (1 : Fin 2) * 64 + 1 * (y 1).val = (y 1).val; omega

theorem read5_2 (t : Fin cfg5.N) (G : S1x64.Idx → EReal) : ((cfg5.win 2).blk t).view.read (Elt Ideal) G = G := by
  obtain ⟨-, -, ⟨e0, e1⟩, -, -, -, -, -, -⟩ := index5_zero t
  funext y
  show G (((cfg5.win 2).blk t).view.emb y) = G y
  congr 1
  funext a; apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

theorem read5_3 (t : Fin cfg5.N) (G : S1x64.Idx → EReal) : ((cfg5.win 3).blk t).view.read (Elt Ideal) G = G := by
  obtain ⟨-, -, -, ⟨e0, e1⟩, -, -, -, -, -⟩ := index5_zero t
  funext y
  show G (((cfg5.win 3).blk t).view.emb y) = G y
  congr 1
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

theorem read5_4 (t : Fin cfg5.N) (G : S1x64.Idx → EReal) : ((cfg5.win 4).blk t).view.read (Elt Ideal) G = G := by
  obtain ⟨-, -, -, -, ⟨e0, e1⟩, -, -, -, -⟩ := index5_zero t
  funext y
  show G (((cfg5.win 4).blk t).view.emb y) = G y
  congr 1
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

theorem read5_5 (t : Fin cfg5.N) (G : S32x64.Idx → EReal) : ((cfg5.win 5).blk t).view.read (Elt Ideal) G = G := by
  obtain ⟨-, -, -, -, -, ⟨e0, e1⟩, -, -, -⟩ := index5_zero t
  funext y
  show G (((cfg5.win 5).blk t).view.emb y) = G y
  congr 1
  funext a; apply Fin.ext
  match a with
  | ⟨0, _⟩ => show win5_5.index t (0 : Fin 2) * 32 + 1 * (y 0).val = (y 0).val; omega
  | ⟨1, _⟩ => show win5_5.index t (1 : Fin 2) * 64 + 1 * (y 1).val = (y 1).val; omega

theorem read5_6 (t : Fin cfg5.N) (G : S1x32.Idx → EReal) : ((cfg5.win 6).blk t).view.read (Elt Ideal) G = G := by
  obtain ⟨-, -, -, -, -, -, ⟨e0, e1⟩, -, -⟩ := index5_zero t
  funext y
  show G (((cfg5.win 6).blk t).view.emb y) = G y
  congr 1
  funext a; apply Fin.ext
  match a with
  | ⟨0, _⟩ => show win5_6.index t (0 : Fin 2) * 1 + 1 * (y 0).val = (y 0).val; omega
  | ⟨1, _⟩ => show win5_6.index t (1 : Fin 2) * 32 + 1 * (y 1).val = (y 1).val; omega

theorem read5_7 (t : Fin cfg5.N) (G : S8192x32.Idx → EReal) : ((cfg5.win 7).blk t).view.read (Elt Ideal) G = G := by
  obtain ⟨-, -, -, -, -, -, -, ⟨e0, e1⟩, -⟩ := index5_zero t
  funext y
  show G (((cfg5.win 7).blk t).view.emb y) = G y
  congr 1
  funext a; apply Fin.ext
  match a with
  | ⟨0, _⟩ => show win5_7.index t (0 : Fin 2) * 8192 + 1 * (y 0).val = (y 0).val; omega
  | ⟨1, _⟩ => show win5_7.index t (1 : Fin 2) * 32 + 1 * (y 1).val = (y 1).val; omega

theorem read5_8 (t : Fin cfg5.N) (G : S8192x64.Idx → EReal) : ((cfg5.win 8).blk t).view.read (Elt Ideal) G = G := by
  obtain ⟨-, -, -, -, -, -, -, -, ⟨e0, e1⟩⟩ := index5_zero t
  funext y
  show G (((cfg5.win 8).blk t).view.emb y) = G y
  congr 1
  funext a; apply Fin.ext
  match a with
  | ⟨0, _⟩ => show win5_8.index t (0 : Fin 2) * 8192 + 1 * (y 0).val = (y 0).val; omega
  | ⟨1, _⟩ => show win5_8.index t (1 : Fin 2) * 64 + 1 * (y 1).val = (y 1).val; omega

theorem iblk5_0_eq (c : Dev nD) (t : Fin cfg5.N) : iblk5 V c 0 t = V c main_v22 := read5_0 t _
theorem iblk5_1_eq (c : Dev nD) (t : Fin cfg5.N) : iblk5 V c 1 t = V c main_arg5 := read5_1 t _
theorem iblk5_2_eq (c : Dev nD) (t : Fin cfg5.N) : iblk5 V c 2 t = V c main_v23 := read5_2 t _
theorem iblk5_3_eq (c : Dev nD) (t : Fin cfg5.N) : iblk5 V c 3 t = V c main_v24 := read5_3 t _
theorem iblk5_4_eq (c : Dev nD) (t : Fin cfg5.N) : iblk5 V c 4 t = V c main_v25 := read5_4 t _
theorem iblk5_5_eq (c : Dev nD) (t : Fin cfg5.N) : iblk5 V c 5 t = V c main_arg9 := read5_5 t _
theorem iblk5_6_eq (c : Dev nD) (t : Fin cfg5.N) : iblk5 V c 6 t = V c main_v26 := read5_6 t _

theorem flushed5_8_eq (c : Dev nD) (t : Fin cfg5.N) :
    (dat5 V c).flushed 8 t
      = ((cfg5.win 8).blk t).view.read (Elt Ideal) (k5_pay2 (F := Ideal) (V c main_v22) (V c main_arg5) (V c main_v23)) := by
  show (cfg5.win 8).cut (grid5.coords t) ((dat5 V c).after 8 t) = _
  rw [after5_8]
  unfold out5_8
  rw [View.canon_unit_zero zero_off5]
  simp only [View.ld_unit_zero (S := S8192x64) zero_off5, View.ld_unit_zero (S := S64x64) zero_off5, View.ld_unit_zero (S := S1x64) zero_off5]
  rw [iblk5_0_eq, iblk5_1_eq, iblk5_2_eq, read5_8]
  generalize k5_pay2 (F := Ideal) (V c main_v22) (V c main_arg5) (V c main_v23) = P
  rfl

theorem flushed5_7_eq (c : Dev nD) (t : Fin cfg5.N) :
    (dat5 V c).flushed 7 t
      = ((cfg5.win 7).blk t).view.read (Elt Ideal)
          (k5_pay1 (F := Ideal) (k5_pay3 (V c main_v22) (V c main_arg5) (V c main_v23) (V c main_v24) (V c main_v25))
            (V c main_arg9) (V c main_v26)) := by
  show (cfg5.win 7).cut (grid5.coords t) ((dat5 V c).after 7 t) = _
  rw [after5_7]
  unfold out5_7
  rw [View.canon_unit_zero zero_off5]
  simp only [View.ld_unit_zero (S := S8192x64) zero_off5, View.ld_unit_zero (S := S64x64) zero_off5, View.ld_unit_zero (S := S1x64) zero_off5,
    View.ld_unit_zero (S := S32x64) zero_off5, View.ld_unit_zero (S := S1x32) zero_off5]
  rw [iblk5_0_eq, iblk5_1_eq, iblk5_2_eq, iblk5_3_eq, iblk5_4_eq, iblk5_5_eq, iblk5_6_eq, read5_7]
  generalize k5_pay1 (F := Ideal) (k5_pay3 (V c main_v22) (V c main_arg5) (V c main_v23) (V c main_v24) (V c main_v25))
    (V c main_arg9) (V c main_v26) = P
  rfl

theorem covered5_8 (i : S8192x64.Idx) :
    ∃ t : Fin cfg5.N, (cfg5.win 8).flush t = true ∧ i ∈ ((cfg5.win 8).blk t).view.set := by
  obtain ⟨-, -, -, -, -, -, -, -, ⟨e0, e1⟩⟩ := index5_zero t5_0
  refine ⟨t5_0, flush5_8 t5_0, ?_⟩
  show i ∈ ((View.whole main_v27_1).slice (win5_8.rect t5_0)).set
  rw [View.set_slice_whole, Rect.mem_set_unit]
  intro a
  have h0 := idx2_lt0 i
  have h1 := idx2_lt1 i
  match a with
  | ⟨0, _⟩ => show win5_8.index t5_0 (0 : Fin 2) * 8192 ≤ (i 0).val ∧ (i 0).val < win5_8.index t5_0 (0 : Fin 2) * 8192 + 8192; omega
  | ⟨1, _⟩ => show win5_8.index t5_0 (1 : Fin 2) * 64 ≤ (i 1).val ∧ (i 1).val < win5_8.index t5_0 (1 : Fin 2) * 64 + 64; omega

theorem covered5_7 (i : S8192x32.Idx) :
    ∃ t : Fin cfg5.N, (cfg5.win 7).flush t = true ∧ i ∈ ((cfg5.win 7).blk t).view.set := by
  obtain ⟨-, -, -, -, -, -, -, ⟨e0, e1⟩, -⟩ := index5_zero t5_0
  refine ⟨t5_0, flush5_7 t5_0, ?_⟩
  show i ∈ ((View.whole main_v27_0).slice (win5_7.rect t5_0)).set
  rw [View.set_slice_whole, Rect.mem_set_unit]
  intro a
  have h0 := idx2_lt0 i
  have h1 := idx2_lt1 i
  match a with
  | ⟨0, _⟩ => show win5_7.index t5_0 (0 : Fin 2) * 8192 ≤ (i 0).val ∧ (i 0).val < win5_7.index t5_0 (0 : Fin 2) * 8192 + 8192; omega
  | ⟨1, _⟩ => show win5_7.index t5_0 (1 : Fin 2) * 32 ≤ (i 1).val ∧ (i 1).val < win5_7.index t5_0 (1 : Fin 2) * 32 + 32; omega

theorem final5_8 (c : Dev nD) :
    (dat5 V c).arrAt 8 cfg5.N = k5_pay2 (F := Ideal) (V c main_v22) (V c main_arg5) (V c main_v23) :=
  (dat5 V c).arrAt_eq_of_cover 8 _ (fun t _ => flushed5_8_eq V c t) covered5_8

theorem final5_7 (c : Dev nD) :
    (dat5 V c).arrAt 7 cfg5.N
      = k5_pay1 (F := Ideal) (k5_pay3 (V c main_v22) (V c main_arg5) (V c main_v23) (V c main_v24) (V c main_v25))
          (V c main_arg9) (V c main_v26) :=
  (dat5 V c).arrAt_eq_of_cover 7 _ (fun t _ => flushed5_7_eq V c t) covered5_7

theorem rsqrt5_apply {s : Shape} {φ : FTy} (a : FVec Ideal s φ) (j : s.Idx) : rsqrt a j = Ideal.rsqrt (a j) := rfl
theorem exp5_apply {s : Shape} {φ : FTy} (a : FVec Ideal s φ) (j : s.Idx) : exp a j = Ideal.exp (a j) := rfl
theorem log5_apply {s : Shape} {φ : FTy} (a : FVec Ideal s φ) (j : s.Idx) : log a j = Ideal.log (a j) := rfl

theorem ofBits5_neg_inf : Ideal.ofBits .f32 0xFF800000#32 = ⊥ := by
  simp [Ideal.ofBits, Ideal.ieee]

theorem fold5_max_bot_eq_sup {ι : Type} (s : Finset ι) (f : ι → EReal) : s.fold max ⊥ f = s.sup f := by
  classical
  induction s using Finset.induction_on with
  | empty => rfl
  | insert a s ha ih => rw [Finset.fold_insert ha, Finset.sup_insert, ih]

theorem fold5_max_eq_sup {ι : Type} (s : Finset ι) (b : EReal) (hb : b = ⊥) (f g : ι → EReal) (hfg : ∀ k, f k = g k) :
    s.fold max b f = s.sup g := by
  rw [hb, fold5_max_bot_eq_sup, show f = g from funext hfg]

theorem matmul5_lin1_apply (a : FVec Ideal S8192x64 .f32) (b : FVec Ideal S64x64 .f32) (i : Fin 8192) (h : Fin 64) :
    matmul dot_S8192x64_S64x64_S8192x64_1_0_0_1_n_n none a b (constant (F := Ideal) S8192x64 .f32 0x00000000#32) (ix2 i h)
      = ∑ q : Fin 64, a (ix2 i q) * b (ix2 q h) := by
  simp only [matmul]
  exact (Ideal.matmul_constant_zero_apply dot_S8192x64_S64x64_S8192x64_1_0_0_1_n_n none a b (ix2 i h)).trans
    ((Finset.sum_congr rfl fun k _ => by
        rw [ix2_eq (dot_S8192x64_S64x64_S8192x64_1_0_0_1_n_n.lhsIdx (ix2 i h) k) i (contrEquiv1 dot_S8192x64_S64x64_S8192x64_1_0_0_1_n_n 64 rfl rfl k) rfl
            (dot_S8192x64_S64x64_S8192x64_1_0_0_1_n_n.lhsIdx_val_of_single rfl _ k),
          ix2_eq (dot_S8192x64_S64x64_S8192x64_1_0_0_1_n_n.rhsIdx (ix2 i h) k) (contrEquiv1 dot_S8192x64_S64x64_S8192x64_1_0_0_1_n_n 64 rfl rfl k) h
            (dot_S8192x64_S64x64_S8192x64_1_0_0_1_n_n.rhsIdx_val_of_single rfl _ k) rfl]).trans
      (Equiv.sum_comp (contrEquiv1 dot_S8192x64_S64x64_S8192x64_1_0_0_1_n_n 64 rfl rfl) fun r => a (ix2 i r) * b (ix2 r h)))

theorem matmul5_lin2_apply (a : FVec Ideal S8192x64 .f32) (b : FVec Ideal S64x32 .f32) (i : Fin 8192) (o : Fin 32) :
    matmul dot_S8192x64_S64x32_S8192x32_1_0_0_1_n_n none a b (constant (F := Ideal) S8192x32 .f32 0x00000000#32) (ix2 i o)
      = ∑ q : Fin 64, a (ix2 i q) * b (ix2 q o) := by
  simp only [matmul]
  exact (Ideal.matmul_constant_zero_apply dot_S8192x64_S64x32_S8192x32_1_0_0_1_n_n none a b (ix2 i o)).trans
    ((Finset.sum_congr rfl fun k _ => by
        rw [ix2_eq (dot_S8192x64_S64x32_S8192x32_1_0_0_1_n_n.lhsIdx (ix2 i o) k) i (contrEquiv1 dot_S8192x64_S64x32_S8192x32_1_0_0_1_n_n 64 rfl rfl k) rfl
            (dot_S8192x64_S64x32_S8192x32_1_0_0_1_n_n.lhsIdx_val_of_single rfl _ k),
          ix2_eq (dot_S8192x64_S64x32_S8192x32_1_0_0_1_n_n.rhsIdx (ix2 i o) k) (contrEquiv1 dot_S8192x64_S64x32_S8192x32_1_0_0_1_n_n 64 rfl rfl k) o
            (dot_S8192x64_S64x32_S8192x32_1_0_0_1_n_n.rhsIdx_val_of_single rfl _ k) rfl]).trans
      (Equiv.sum_comp (contrEquiv1 dot_S8192x64_S64x32_S8192x32_1_0_0_1_n_n 64 rfl rfl) fun r => a (ix2 i r) * b (ix2 r o)))

theorem colsum5_apply (src : FVec Ideal S8192x64 .f32) (hφ : FTy.f32 = FTy.f32 ∨ FTy.f32 = FTy.bf16) (hacc : (0x00000000#32 : BitVec 32) = 0x00000000#32)
    (h : Fin 64) :
    multiReduction (F := Ideal) .add [0] S64 src 0x00000000#32 reduces_S8192x64_S64 hφ hacc (ix1 h) = ∑ k : Fin 8192, src (ix2 k h) := by
  refine (Ideal.multiReduction_add_single src 0x00000000#32 reduces_S8192x64_S64 hφ hacc (ix1 h)).trans ?_
  refine Finset.sum_congr rfl fun k _ => congrArg src ?_
  funext ax
  match ax with
  | ⟨0, _⟩ => rfl
  | ⟨1, _⟩ => rfl

theorem rowsum5_apply (src : FVec Ideal S8192x32 .f32) (hφ : FTy.f32 = FTy.f32 ∨ FTy.f32 = FTy.bf16) (hacc : (0x00000000#32 : BitVec 32) = 0x00000000#32)
    (i : Fin 8192) :
    multiReduction (F := Ideal) .add [1] S8192 src 0x00000000#32 reduces_S8192x32_S8192 hφ hacc (ix1 i) = ∑ o : Fin 32, src (ix2 i o) := by
  refine (Ideal.multiReduction_add_single src 0x00000000#32 reduces_S8192x32_S8192 hφ hacc (ix1 i)).trans ?_
  refine Finset.sum_congr rfl fun k _ => congrArg src ?_
  funext ax
  match ax with
  | ⟨0, _⟩ => rfl
  | ⟨1, _⟩ => rfl

theorem rowmax5_apply (src : FVec Ideal S8192x32 .f32) (hφ : FTy.f32 = FTy.f32 ∨ FTy.f32 = FTy.bf16) (hacc : (0xFF800000#32 : BitVec 32) = 0xFF800000#32)
    (i : Fin 8192) :
    multiReduction (F := Ideal) .maximumf [1] S8192 src 0xFF800000#32 reduces_S8192x32_S8192 hφ hacc (ix1 i)
      = Finset.univ.sup fun o : Fin 32 => src (ix2 i o) := by
  refine (Ideal.multiReduction_maximumf_single src 0xFF800000#32 reduces_S8192x32_S8192 hφ hacc (ix1 i)).trans ?_
  refine fold5_max_eq_sup _ _ ofBits5_neg_inf _ _ fun o => congrArg src ?_
  funext ax
  match ax with
  | ⟨0, _⟩ => rfl
  | ⟨1, _⟩ => rfl

theorem pay5_2_apply (x0 : Vec Ideal S8192x64 .f32) (x1 : Vec Ideal S64x64 .f32) (x2 : Vec Ideal S1x64 .f32) (i : Fin 8192) (h : Fin 64) :
    k5_pay2 (F := Ideal) x0 x1 x2 (ix2 i h) = (∑ q : Fin 64, x0 (ix2 i q) * x1 (ix2 h q)) + x2 (ix2 (0 : Fin 1) h) := by
  unfold k5_pay2
  simp only [addf_apply, shapeCast_self, matmul5_lin1_apply, broadcastTo_1b_ab_apply]
  refine congrArg (· + x2 (ix2 (0 : Fin 1) h)) (Finset.sum_congr rfl fun q _ => ?_)
  exact congrArg (x0 (ix2 i q) * ·) (transpose_ix2_apply x1 transposes_S64x64_p1_0_S64x64 q h)

theorem pay5_2_arr (x0 : Vec Ideal S8192x64 .f32) (x1 : Vec Ideal S64x64 .f32) (x2 : Vec Ideal S1x64 .f32) :
    arr2 (k5_pay2 (F := Ideal) x0 x1 x2) = lin (arr2 x0) (arr2 x1) (fun h => arr2 x2 0 h) := by
  funext i h
  show k5_pay2 (F := Ideal) x0 x1 x2 (ix2 i h) = _
  rw [pay5_2_apply]
  rfl

theorem pay5_3_apply (x0 : Vec Ideal S8192x64 .f32) (x1 : Vec Ideal S64x64 .f32) (x2 g b : Vec Ideal S1x64 .f32) (i : Fin 8192) (h : Fin 64) :
    k5_pay3 (F := Ideal) x0 x1 x2 g b (ix2 i h)
      = relu (bn (arr2 (k5_pay2 (F := Ideal) x0 x1 x2)) (fun h => arr2 g 0 h) (fun h => arr2 b 0 h)) i h := by
  unfold k5_pay3
  generalize k5_pay2 (F := Ideal) x0 x1 x2 = P
  simp only [maximumf_apply, addf_apply, mulf_apply, subf_apply, divf_apply, rsqrt5_apply, broadcast_apply, shapeCast_self,
    broadcastTo_1b_ab_apply, shapeCast_a_1a_apply, Ideal.ofBits_def]
  rw [colsum5_apply, colsum5_apply]
  simp only [mulf_apply, subf_apply, divf_apply, broadcast_apply, broadcastTo_1b_ab_apply, shapeCast_a_1a_apply]
  rw [colsum5_apply]
  simp only [relu, bn, cen, var, mean, arr2, cRows, cEpsBn, cZero]

theorem pay5_3_arr (x0 : Vec Ideal S8192x64 .f32) (x1 : Vec Ideal S64x64 .f32) (x2 g b : Vec Ideal S1x64 .f32) :
    arr2 (k5_pay3 (F := Ideal) x0 x1 x2 g b)
      = relu (bn (lin (arr2 x0) (arr2 x1) (fun h => arr2 x2 0 h)) (fun h => arr2 g 0 h) (fun h => arr2 b 0 h)) := by
  funext i h
  show k5_pay3 (F := Ideal) x0 x1 x2 g b (ix2 i h) = _
  rw [pay5_3_apply, pay5_2_arr]

def logitsPay5 (X : FVec Ideal S8192x64 .f32) (x5 : FVec Ideal S32x64 .f32) (x6 : FVec Ideal S1x32 .f32) : FVec Ideal S8192x32 .f32 :=
  addf (matmul dot_S8192x64_S64x32_S8192x32_1_0_0_1_n_n none X (transpose S64x32 [1, 0] x5 transposes_S32x64_p1_0_S64x32)
      (constant S8192x32 .f32 0x00000000#32))
    (broadcastTo S8192x32 (shapeCast S1x32 x6 shapeCasts_S1x32_S1x32) broadcasts_S1x32_S8192x32)

def lsmPay5 (Z : FVec Ideal S8192x32 .f32) : FVec Ideal S8192x32 .f32 :=
  subf Z (broadcastTo S8192x32
    (addf (shapeCast S8192x1 (multiReduction .maximumf [1] S8192 Z 0xFF800000#32 reduces_S8192x32_S8192 (.inl rfl) rfl) shapeCasts_S8192_S8192x1)
      (log (shapeCast S8192x1 (multiReduction .add [1] S8192
          (exp (subf Z (broadcastTo S8192x32
            (shapeCast S8192x1 (multiReduction .maximumf [1] S8192 Z 0xFF800000#32 reduces_S8192x32_S8192 (.inl rfl) rfl) shapeCasts_S8192_S8192x1)
            broadcasts_S8192x1_S8192x32)))
          0x00000000#32 reduces_S8192x32_S8192 (.inl rfl) rfl) shapeCasts_S8192_S8192x1)))
    broadcasts_S8192x1_S8192x32)

theorem pay5_1_eq (X : FVec Ideal S8192x64 .f32) (x5 : Vec Ideal S32x64 .f32) (x6 : Vec Ideal S1x32 .f32) :
    k5_pay1 (F := Ideal) X x5 x6 = lsmPay5 (logitsPay5 X x5 x6) := rfl

theorem logitsPay5_arr (X : FVec Ideal S8192x64 .f32) (x5 : FVec Ideal S32x64 .f32) (x6 : FVec Ideal S1x32 .f32) :
    arr2 (logitsPay5 X x5 x6) = lin (arr2 X) (arr2 x5) (fun o => arr2 x6 0 o) := by
  funext i o
  show logitsPay5 X x5 x6 (ix2 i o) = (∑ q : Fin 64, X (ix2 i q) * x5 (ix2 o q)) + x6 (ix2 (0 : Fin 1) o)
  unfold logitsPay5
  simp only [addf_apply, shapeCast_self, matmul5_lin2_apply, broadcastTo_1b_ab_apply]
  refine congrArg (· + x6 (ix2 (0 : Fin 1) o)) (Finset.sum_congr rfl fun q _ => ?_)
  exact congrArg (X (ix2 i q) * ·) (transpose_ix2_apply x5 transposes_S32x64_p1_0_S64x32 q o)

theorem lsmPay5_apply (Z : FVec Ideal S8192x32 .f32) (i : Fin 8192) (o : Fin 32) : lsmPay5 Z (ix2 i o) = lsmA (arr2 Z) i o := by
  unfold lsmPay5
  simp only [subf_apply, addf_apply, log5_apply, Cert.LibColumn.broadcastTo_a1_ab_apply, Cert.LibColumn.shapeCast_a_a1_apply]
  rw [rowmax5_apply, rowsum5_apply]
  simp only [exp5_apply, subf_apply, Cert.LibColumn.broadcastTo_a1_ab_apply, Cert.LibColumn.shapeCast_a_a1_apply]
  rw [rowmax5_apply]
  simp only [lsmA, lse, rowmax, arr2]

theorem val5_hidden (c : Dev nD) : arr2 ((dat5 (F := Ideal) V c).arrAt 8 cfg5.N) = hidIn V c := by
  rw [final5_8]
  exact pay5_2_arr _ _ _

theorem val5_logsm (c : Dev nD) :
    arr2 ((dat5 (F := Ideal) V c).arrAt 7 cfg5.N)
      = lsmA (logitsOf (hidIn V c) (fun h => arr2 (V c main_v24) 0 h) (fun h => arr2 (V c main_v25) 0 h)
          (arr2 (V c main_arg9)) (fun o => arr2 (V c main_v26) 0 o)) := by
  rw [final5_7, pay5_1_eq]
  funext i o
  show lsmPay5 (logitsPay5 (k5_pay3 (F := Ideal) (V c main_v22) (V c main_arg5) (V c main_v23) (V c main_v24) (V c main_v25))
    (V c main_arg9) (V c main_v26)) (ix2 i o) = _
  rw [lsmPay5_apply, logitsPay5_arr, pay5_3_arr]
  unfold logitsOf
  rfl

end Cert.KernelIdeal.Hand

end
-- ==== Proof.Val.Pro.lean ====
import proofs.«134441_j56014963474691_1_alg».proof.Proof.Gen.KernelIdeal.Launch
import proofs.«134441_j56014963474691_1_alg».proof.Proof.Val.Spec
import proofs.«134441_j56014963474691_1_alg».proof.Proof.Val.Math
import proofs.«134441_j56014963474691_1_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

variable (W : Valuation τ sig (Elt Ideal))

namespace Pro

theorem cOne_eq : cOne = (1 : EReal) := by
  unfold cOne
  simp [Ideal.ofBits, Ideal.ieee, -EReal.coe_mul]; norm_num

theorem spread_apply (x : S_.Idx → EReal) (j : Fin 8192) :
    broadcastInDim S8192 ![] bcast_S_S8192 x (ix1 j) = x ix0 :=
  broadcastInDim_apply _ _ _ (ix1 j) ix0 (fun a => a.elim0)

theorem scalar_apply (x : S1.Idx → EReal) : shapeCast S_ x shapeCasts_S1_S_ ix0 = x (ix1 0) := by
  refine shapeCast_apply _ _ ix0 (ix1 0) ?_
  rw [Shape.rowMajor_val_one]
  exact (Nat.lt_one_iff.mp (S_.rowMajor ix0).isLt).symm

theorem row_apply {a : ℕ} (x : (⟨1, ![a]⟩ : Shape).Idx → EReal) (hc : (⟨1, ![a]⟩ : Shape).ShapeCasts ⟨2, ![1, a]⟩) (h : Fin a) :
    shapeCast ⟨2, ![1, a]⟩ x hc (ix2 (0 : Fin 1) h) = x (ix1 h) := by
  refine shapeCast_apply _ _ (ix2 (0 : Fin 1) h) (ix1 h) ?_
  rw [Shape.rowMajor_val_two, Shape.rowMajor_val_one]
  show h.val = 0 * a + h.val
  omega

theorem row_of {a : ℕ} {y : (⟨2, ![1, a]⟩ : Shape).Idx → EReal} {x : (⟨1, ![a]⟩ : Shape).Idx → EReal}
    {hc : (⟨1, ![a]⟩ : Shape).ShapeCasts ⟨2, ![1, a]⟩} (e : y = shapeCast ⟨2, ![1, a]⟩ x hc) : (fun h : Fin a => arr2 y 0 h) = arr1 x :=
  funext fun h => (congrFun e (ix2 0 h)).trans (row_apply x hc h)

abbrev pow3 (La : S8192.Idx → EReal) (ve : S1.Idx → EReal) : S8192.Idx → EReal :=
  Host.powf (F := Ideal) (s := S8192) (φ := .f32) La
    (broadcastInDim S8192 ![] bcast_S_S8192 (shapeCast S_ ve shapeCasts_S1_S_))

theorem pow3_apply (La : S8192.Idx → EReal) (ve : S1.Idx → EReal) (j : Fin 8192) :
    pow3 La ve (ix1 j) = Ideal.pow (La (ix1 j)) (ve (ix1 0)) := by
  show Ideal.pow (La (ix1 j)) (broadcastInDim S8192 ![] bcast_S_S8192 (shapeCast S_ ve shapeCasts_S1_S_) (ix1 j)) = _
  rw [spread_apply, scalar_apply]

abbrev base16 (La : S8192.Idx → EReal) : S8192.Idx → EReal :=
  subf (F := Ideal) (s := S8192) (φ := .f32)
    (mulf (F := Ideal) (s := S8192) (φ := .f32)
      (broadcastInDim S8192 ![] bcast_S_S8192 (constant (F := Ideal) S_ .f32 0x40000000#32))
      (subf (F := Ideal) (s := S8192) (φ := .f32) La
        (broadcastInDim S8192 ![] bcast_S_S8192 (constant (F := Ideal) S_ .f32 0x322BCC77#32))))
    (broadcastInDim S8192 ![] bcast_S_S8192 (constant (F := Ideal) S_ .f32 0x3F800000#32))

theorem base16_apply (La : S8192.Idx → EReal) (j : Fin 8192) :
    base16 La (ix1 j) = cTwo * (La (ix1 j) - cEpsLa) - cOne := by
  show (broadcastInDim S8192 ![] bcast_S_S8192 (constant (F := Ideal) S_ .f32 0x40000000#32) (ix1 j)
      * (La (ix1 j) - broadcastInDim S8192 ![] bcast_S_S8192 (constant (F := Ideal) S_ .f32 0x322BCC77#32) (ix1 j)))
      - broadcastInDim S8192 ![] bcast_S_S8192 (constant (F := Ideal) S_ .f32 0x3F800000#32) (ix1 j) = _
  rw [spread_apply, spread_apply, spread_apply]
  rfl

abbrev pow16 (La : S8192.Idx → EReal) (ve : S1.Idx → EReal) : S8192.Idx → EReal :=
  Host.powf (F := Ideal) (s := S8192) (φ := .f32)
    (addf (F := Ideal) (s := S8192) (φ := .f32)
      (mulf (F := Ideal) (s := S8192) (φ := .f32) (base16 La) (base16 La))
      (broadcastInDim S8192 ![] bcast_S_S8192 (constant (F := Ideal) S_ .f32 0x3F800000#32)))
    (broadcastInDim S8192 ![] bcast_S_S8192 (shapeCast S_ ve shapeCasts_S1_S_))

theorem pow16_apply (La : S8192.Idx → EReal) (ve : S1.Idx → EReal) (j : Fin 8192) :
    pow16 La ve (ix1 j)
      = Ideal.pow ((cTwo * (La (ix1 j) - cEpsLa) - cOne) * (cTwo * (La (ix1 j) - cEpsLa) - cOne) + cOne) (ve (ix1 0)) := by
  show Ideal.pow (base16 La (ix1 j) * base16 La (ix1 j)
      + broadcastInDim S8192 ![] bcast_S_S8192 (constant (F := Ideal) S_ .f32 0x3F800000#32) (ix1 j))
      (broadcastInDim S8192 ![] bcast_S_S8192 (shapeCast S_ ve shapeCasts_S1_S_) (ix1 j)) = _
  rw [base16_apply, spread_apply, spread_apply, scalar_apply]
  rfl

end Pro

theorem after0_v3 :
    (fun j : Fin 8192 => arr2 (StableHlo.after (hostOps0 (F := Ideal)) W (Proc.devRef .tc main_v3)) j 0)
      = vla (arr1 (W (Proc.devRef .tc main_arg1))) (W (Proc.devRef .tc main_arg3) (ix1 0)) := by
  have e : (StableHlo.after (hostOps0 (F := Ideal)) W (Proc.devRef .tc main_v3) : S8192x1.Idx → EReal)
      = shapeCast S8192x1 (Pro.pow3 (W (Proc.devRef .tc main_arg1)) (W (Proc.devRef .tc main_arg3))) shapeCasts_S8192_S8192x1 := by
    simp only [hostOps0]; after_results; rfl
  funext j
  refine (congrFun e (ix2 j 0)).trans ?_
  refine (Cert.LibColumn.shapeCast_a_a1_apply _ _ j 0).trans ?_
  exact Pro.pow3_apply _ _ j

theorem after0_v16 :
    (fun j : Fin 8192 => arr2 (StableHlo.after (hostOps0 (F := Ideal)) W (Proc.devRef .tc main_v16)) j 0)
      = vla2 (arr1 (W (Proc.devRef .tc main_arg1))) (W (Proc.devRef .tc main_arg4) (ix1 0)) := by
  have e : (StableHlo.after (hostOps0 (F := Ideal)) W (Proc.devRef .tc main_v16) : S8192x1.Idx → EReal)
      = shapeCast S8192x1 (Pro.pow16 (W (Proc.devRef .tc main_arg1)) (W (Proc.devRef .tc main_arg4))) shapeCasts_S8192_S8192x1 := by
    simp only [hostOps0]; after_results; rfl
  funext j
  refine (congrFun e (ix2 j 0)).trans ?_
  refine (Cert.LibColumn.shapeCast_a_a1_apply _ _ j 0).trans ?_
  exact Pro.pow16_apply _ _ j

theorem after0_v17 (j : Fin 8192) :
    arr2 (StableHlo.after (hostOps0 (F := Ideal)) W (Proc.devRef .tc main_v17)) j 0 = (1 : EReal) := by
  have e : (StableHlo.after (hostOps0 (F := Ideal)) W (Proc.devRef .tc main_v17) : S8192x1.Idx → EReal)
      = broadcastInDim S8192x1 ![] bcast_S_S8192x1 (constant (F := Ideal) S_ .f32 0x3F800000#32) := by
    simp only [hostOps0]; after_results
  refine (congrFun e (ix2 j 0)).trans ?_
  refine (broadcastInDim_apply _ _ _ (ix2 j 0) ix0 (fun a => a.elim0)).trans ?_
  exact Pro.cOne_eq

theorem after5_v23 : (fun h : Fin 64 => arr2 (StableHlo.after (hostOps5 (F := Ideal)) W (Proc.devRef .tc main_v23)) 0 h) = arr1 (W (Proc.devRef .tc main_arg6)) :=
  Pro.row_of (hc := shapeCasts_S64_S1x64) (by simp only [hostOps5]; after_results; rfl)
theorem after5_v24 : (fun h : Fin 64 => arr2 (StableHlo.after (hostOps5 (F := Ideal)) W (Proc.devRef .tc main_v24)) 0 h) = arr1 (W (Proc.devRef .tc main_arg7)) :=
  Pro.row_of (hc := shapeCasts_S64_S1x64) (by simp only [hostOps5]; after_results; rfl)
theorem after5_v25 : (fun h : Fin 64 => arr2 (StableHlo.after (hostOps5 (F := Ideal)) W (Proc.devRef .tc main_v25)) 0 h) = arr1 (W (Proc.devRef .tc main_arg8)) :=
  Pro.row_of (hc := shapeCasts_S64_S1x64) (by simp only [hostOps5]; after_results; rfl)
theorem after5_v26 : (fun o : Fin 32 => arr2 (StableHlo.after (hostOps5 (F := Ideal)) W (Proc.devRef .tc main_v26)) 0 o) = arr1 (W (Proc.devRef .tc main_arg10)) :=
  Pro.row_of (hc := shapeCasts_S32_S1x32) (by simp only [hostOps5]; after_results; rfl)

end Cert.KernelIdeal.Hand

end
-- ==== Proof.Val.Chain.lean ====
import proofs.«134441_j56014963474691_1_alg».proof.Proof.KI.Run
import proofs.«134441_j56014963474691_1_alg».proof.Proof.Val.K0
import proofs.«134441_j56014963474691_1_alg».proof.Proof.Val.K1
import proofs.«134441_j56014963474691_1_alg».proof.Proof.Val.K2
import proofs.«134441_j56014963474691_1_alg».proof.Proof.Val.K3
import proofs.«134441_j56014963474691_1_alg».proof.Proof.Val.K4
import proofs.«134441_j56014963474691_1_alg».proof.Proof.Val.K5
import proofs.«134441_j56014963474691_1_alg».proof.Proof.Val.Pro

set_option maxRecDepth 16384

noncomputable section

namespace Cert.KernelIdeal.Hand

open Cert.KernelIdeal Cert.KernelIdeal.Gen Cert.LibRegion
open Idealize.ShloMosaic Idealize.ShloMosaic.TcCoe Idealize.ShloMosaic.ValueIdx
open Idealize.SL.Sem
open Idealize.ShloMosaic.Pipeline (Dat Cfg Window)
open Cert.Spec

variable (m : (ℓ : Loc nD τ sig) → Buf (Elt Ideal) ℓ) (ρ : Dev nD → PrngReg) (c : Dev nD)

abbrev aX : A2 8192 64 := arr2 (m ((c : Thread nD τ).loc main_arg0))
abbrev aLa : A1 8192 := arr1 (m ((c : Thread nD τ).loc main_arg1))
abbrev aU : A2 8192 8192 := arr2 (m ((c : Thread nD τ).loc main_arg2))
abbrev aVe : EReal := m ((c : Thread nD τ).loc main_arg3) (ix1 0)
abbrev aVe2 : EReal := m ((c : Thread nD τ).loc main_arg4) (ix1 0)
abbrev aWw : A2 64 64 := arr2 (m ((c : Thread nD τ).loc main_arg5))
abbrev aWb : A1 64 := arr1 (m ((c : Thread nD τ).loc main_arg6))
abbrev aG : A1 64 := arr1 (m ((c : Thread nD τ).loc main_arg7))
abbrev aB : A1 64 := arr1 (m ((c : Thread nD τ).loc main_arg8))
abbrev aMw : A2 32 64 := arr2 (m ((c : Thread nD τ).loc main_arg9))
abbrev aMb : A1 32 := arr1 (m ((c : Thread nD τ).loc main_arg10))

section Steps

variable (b : Ref sig .tc)

theorem W1_arg (h : b ∉ hostOps0_W) : W1 m ρ c (Proc.devRef .tc b) = m ((c : Thread nD τ).loc b) :=
  StableHlo.after_of_writes_sub hostOps0 _ hostOps0_writes h
/-- A region changes only its outputs: any other buffer is after it what it was before. -/
theorem s2 (h : inOnly cfg0 b) : W2 m ρ c (Proc.devRef .tc b) = W1 m ρ c (Proc.devRef .tc b) :=
  exitW_in (W1 m ρ) (dat0 (V1 m ρ)) c (A_eq0 (V1 m ρ) c) launch0.win.arr_inj b h
theorem s3 (h : inOnly cfg1 b) : W3 m ρ c (Proc.devRef .tc b) = W2 m ρ c (Proc.devRef .tc b) :=
  exitW_in (W2 m ρ) (dat1 (V2 m ρ)) c (A_eq1 (V2 m ρ) c) launch1.win.arr_inj b h
theorem s4 (h : inOnly cfg2 b) : W4 m ρ c (Proc.devRef .tc b) = W3 m ρ c (Proc.devRef .tc b) :=
  exitW_in (W3 m ρ) (dat2 (V3 m ρ)) c (A_eq2 (V3 m ρ) c) launch2.win.arr_inj b h
theorem s5 (h : inOnly cfg3 b) : W5 m ρ c (Proc.devRef .tc b) = W4 m ρ c (Proc.devRef .tc b) :=
  exitW_in (W4 m ρ) (dat3 (V4 m ρ)) c (A_eq3 (V4 m ρ) c) launch3.win.arr_inj b h
theorem s6 (h : inOnly cfg4 b) : W6 m ρ c (Proc.devRef .tc b) = W5 m ρ c (Proc.devRef .tc b) :=
  exitW_in (W5 m ρ) (dat4 (V5 m ρ)) c (A_eq4 (V5 m ρ) c) launch4.win.arr_inj b h

end Steps

theorem e_arg2_1 : V1 m ρ c main_arg2 = m ((c : Thread nD τ).loc main_arg2) := W1_arg m ρ c main_arg2 (by decide)

theorem e18_2 : arr2 (V2 m ρ c main_v18) = aU m c := by
  have h := val0 (V1 m ρ) c
  rw [e_arg2_1] at h
  exact (congrArg arr2 (exitW_arr (W1 m ρ) (dat0 (V1 m ρ)) launch0.win.arr_inj c 1)).trans h
theorem e18_3 : arr2 (V3 m ρ c main_v18) = aU m c := (congrArg arr2 (s3 m ρ c main_v18 (by decide))).trans (e18_2 m ρ c)
theorem e18_4 : arr2 (V4 m ρ c main_v18) = aU m c := (congrArg arr2 (s4 m ρ c main_v18 (by decide))).trans (e18_3 m ρ c)
theorem e18_5 : arr2 (V5 m ρ c main_v18) = aU m c := (congrArg arr2 (s5 m ρ c main_v18 (by decide))).trans (e18_4 m ρ c)

theorem e_arg0_2 : arr2 (V2 m ρ c main_arg0) = aX m c :=
  congrArg arr2 ((s2 m ρ c main_arg0 (by decide)).trans (W1_arg m ρ c main_arg0 (by decide)))

theorem e3_2 : (fun j : Fin 8192 => arr2 (V2 m ρ c main_v3) j 0) = vla (aLa m c) (aVe m c) := by
  have h : V2 m ρ c main_v3 = W1 m ρ c (Proc.devRef .tc main_v3) := s2 m ρ c main_v3 (by decide)
  rw [h]
  exact after0_v3 (W0 m ρ c)

theorem e16_4 : (fun j : Fin 8192 => arr2 (V4 m ρ c main_v16) j 0) = vla2 (aLa m c) (aVe2 m c) := by
  have h : V4 m ρ c main_v16 = W1 m ρ c (Proc.devRef .tc main_v16) :=
    (s4 m ρ c main_v16 (by decide)).trans ((s3 m ρ c main_v16 (by decide)).trans (s2 m ρ c main_v16 (by decide)))
  rw [h]
  exact after0_v16 (W0 m ρ c)

theorem k17_3 : V3 m ρ c main_v17 = W1 m ρ c (Proc.devRef .tc main_v17) :=
  (s3 m ρ c main_v17 (by decide)).trans (s2 m ρ c main_v17 (by decide))
theorem e17_3 (i : Fin 8192) : arr2 (V3 m ρ c main_v17) i 0 = 1 := by
  rw [k17_3]; exact after0_v17 (W0 m ρ c) i
theorem k17_5 : V5 m ρ c main_v17 = V3 m ρ c main_v17 :=
  (s5 m ρ c _ (by decide)).trans (s4 m ρ c _ (by decide))
theorem e17_5 (i : Fin 8192) : arr2 (V5 m ρ c main_v17) i 0 = 1 := by
  rw [k17_5]; exact e17_3 m ρ c i

theorem e19_3 : arr2 (V3 m ρ c main_v19) = mmT (aU m c) (aX m c) (vla (aLa m c) (aVe m c)) := by
  have h := val1 (V2 m ρ) c
  rw [e18_2, e_arg0_2, e3_2] at h
  exact (congrArg arr2 (exitW_arr (W2 m ρ) (dat1 (V2 m ρ)) launch1.win.arr_inj c 3)).trans h

theorem e20_4 : arr2 (V4 m ρ c main_v20) = mmN (aU m c) (mmT (aU m c) (aX m c) (vla (aLa m c) (aVe m c))) := by
  have h := val2 (V3 m ρ) c
  rw [e18_3, e19_3] at h
  refine (congrArg arr2 (exitW_arr (W3 m ρ) (dat2 (V3 m ρ)) launch2.win.arr_inj c 3)).trans (h.trans ?_)
  funext i d
  rw [e17_3, mul_one]

theorem e21_5 : arr2 (V5 m ρ c main_v21)
    = mmT (aU m c) (mmN (aU m c) (mmT (aU m c) (aX m c) (vla (aLa m c) (aVe m c)))) (vla2 (aLa m c) (aVe2 m c)) := by
  have h := val3 (V4 m ρ) c
  rw [e18_4, e20_4, e16_4] at h
  exact (congrArg arr2 (exitW_arr (W4 m ρ) (dat3 (V4 m ρ)) launch3.win.arr_inj c 3)).trans h

theorem e22_6 : arr2 (V6 m ρ c main_v22) = filt (aU m c) (aX m c) (aLa m c) (aVe m c) (aVe2 m c) := by
  have h := val4 (V5 m ρ) c
  rw [e18_5, e21_5] at h
  refine (congrArg arr2 (exitW_arr (W5 m ρ) (dat4 (V5 m ρ)) launch4.win.arr_inj c 3)).trans (h.trans ?_)
  funext i d
  rw [e17_5, mul_one]
  rfl

theorem W6_arg (b : Ref sig .tc) (h : b ∉ hostOps0_W ∧ inOnly cfg0 b ∧ inOnly cfg1 b ∧ inOnly cfg2 b ∧ inOnly cfg3 b ∧ inOnly cfg4 b) :
    W6 m ρ c (Proc.devRef .tc b) = m ((c : Thread nD τ).loc b) :=
  (s6 m ρ c b h.2.2.2.2.2).trans <| (s5 m ρ c b h.2.2.2.2.1).trans <| (s4 m ρ c b h.2.2.2.1).trans <| (s3 m ρ c b h.2.2.1).trans <|
  (s2 m ρ c b h.2.1).trans (W1_arg m ρ c b h.1)

theorem e22_7 : arr2 (V7 m ρ c main_v22) = filt (aU m c) (aX m c) (aLa m c) (aVe m c) (aVe2 m c) := by
  have h : V7 m ρ c main_v22 = V6 m ρ c main_v22 := StableHlo.after_of_writes_sub hostOps5 _ hostOps5_writes (by decide)
  rw [h]; exact e22_6 m ρ c
theorem e_arg5_7 : arr2 (V7 m ρ c main_arg5) = aWw m c :=
  congrArg arr2 ((StableHlo.after_of_writes_sub hostOps5 _ hostOps5_writes (by decide)).trans (W6_arg m ρ c main_arg5 (by decide)))
theorem e_arg9_7 : arr2 (V7 m ρ c main_arg9) = aMw m c :=
  congrArg arr2 ((StableHlo.after_of_writes_sub hostOps5 _ hostOps5_writes (by decide)).trans (W6_arg m ρ c main_arg9 (by decide)))
theorem e23_7 : (fun h : Fin 64 => arr2 (V7 m ρ c main_v23) 0 h) = aWb m c := by
  refine (after5_v23 (W6 m ρ c)).trans ?_
  rw [W6_arg m ρ c main_arg6 (by decide)]
theorem e24_7 : (fun h : Fin 64 => arr2 (V7 m ρ c main_v24) 0 h) = aG m c := by
  refine (after5_v24 (W6 m ρ c)).trans ?_
  rw [W6_arg m ρ c main_arg7 (by decide)]
theorem e25_7 : (fun h : Fin 64 => arr2 (V7 m ρ c main_v25) 0 h) = aB m c := by
  refine (after5_v25 (W6 m ρ c)).trans ?_
  rw [W6_arg m ρ c main_arg8 (by decide)]
theorem e26_7 : (fun o : Fin 32 => arr2 (V7 m ρ c main_v26) 0 o) = aMb m c := by
  refine (after5_v26 (W6 m ρ c)).trans ?_
  rw [W6_arg m ρ c main_arg10 (by decide)]

abbrev kHid : A2 8192 64 :=
  Cert.Spec.hidden (aU m c) (aX m c) (aLa m c) (aVe m c) (aVe2 m c) (aWw m c) (aWb m c)

theorem hidIn_eq : hidIn (V7 m ρ) c = kHid m c := by
  unfold hidIn kHid Cert.Spec.hidden
  rw [e22_7, e_arg5_7, e23_7]

theorem res_hidden : arr2 (W8 m ρ c (Proc.devRef .tc main_v27_1)) = kHid m c :=
  (congrArg arr2 (exitW_arr (W7 m ρ) (dat5 (V7 m ρ)) launch5.win.arr_inj c 8)).trans ((val5_hidden (V7 m ρ) c).trans (hidIn_eq m ρ c))

theorem res_logsm : arr2 (W8 m ρ c (Proc.devRef .tc main_v27_0))
    = lsmA (logitsOf (kHid m c) (aG m c) (aB m c) (aMw m c) (aMb m c)) := by
  have h := val5_logsm (V7 m ρ) c
  rw [hidIn_eq, e24_7, e25_7, e_arg9_7, e26_7] at h
  exact (congrArg arr2 (exitW_arr (W7 m ρ) (dat5 (V7 m ρ)) launch5.win.arr_inj c 7)).trans h

end Cert.KernelIdeal.Hand

end
-- ==== Proof.Val.Ref.lean ====
import proofs.«134441_j56014963474691_1_alg».proof.Proof.Ref.Gen
import proofs.«134441_j56014963474691_1_alg».proof.Proof.Val.Spec
import proofs.«134441_j56014963474691_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx
open Cert.Spec

variable (x0 : (⟨S8192x64, .f32⟩ : BufTy).Contents (Elt Ideal)) (x1 : (⟨S8192, .f32⟩ : BufTy).Contents (Elt Ideal))
  (x2 : (⟨S8192x8192, .f32⟩ : BufTy).Contents (Elt Ideal)) (x3 x4 : (⟨S1, .f32⟩ : BufTy).Contents (Elt Ideal))
  (x5 : (⟨S64x64, .f32⟩ : BufTy).Contents (Elt Ideal)) (x6 x7 x8 : (⟨S64, .f32⟩ : BufTy).Contents (Elt Ideal))
  (x9 : (⟨S32x64, .f32⟩ : BufTy).Contents (Elt Ideal)) (x10 : (⟨S32, .f32⟩ : BufTy).Contents (Elt Ideal))

abbrev hid : A2 8192 64 :=
  hidden (arr2 x2) (arr2 x0) (arr1 x1) (x3 (ix1 0)) (x4 (ix1 0)) (arr2 x5) (arr1 x6)

theorem ve_scalar (i : S_.Idx) : val_main_v0 (F := Ideal) x3 i = x3 (ix1 0) := by
  unfold val_main_v0
  refine shapeCast_apply x3 shapeCasts_S1_S_ i (ix1 0) ?_
  have h1 : (S1.rowMajor (ix1 0)).val < 1 := (S1.rowMajor (ix1 0)).isLt
  have h2 : (S_.rowMajor i).val < 1 := (S_.rowMajor i).isLt
  show (S1.rowMajor (ix1 0)).val = (S_.rowMajor i).val
  omega

theorem ve2_scalar (i : S_.Idx) : val_main_v12 (F := Ideal) x4 i = x4 (ix1 0) := by
  unfold val_main_v12
  refine shapeCast_apply x4 shapeCasts_S1_S_ i (ix1 0) ?_
  have h1 : (S1.rowMajor (ix1 0)).val < 1 := (S1.rowMajor (ix1 0)).isLt
  have h2 : (S_.rowMajor i).val < 1 := (S_.rowMajor i).isLt
  show (S1.rowMajor (ix1 0)).val = (S_.rowMajor i).val
  omega

theorem scale1 (j : Fin 8192) : val_main_v2 (F := Ideal) x1 x3 (ix1 j) = vla (arr1 x1) (x3 (ix1 0)) j := by
  rw [val_main_v2_apply, val_main_v1_apply, ve_scalar]
  rfl

theorem scale2 (j : Fin 8192) : val_main_v14 (F := Ideal) x1 x4 (ix1 j) = vla2 (arr1 x1) (x4 (ix1 0)) j := by
  rw [val_main_v14_apply, val_main_v13_apply, ve2_scalar, val_main_v11_apply, val_main_v10_apply, val_main_cst_2_apply,
    val_main_v9_apply, val_main_v8_apply, val_main_v7_apply, val_main_cst_1_apply, val_main_v6_apply, val_main_v5_apply,
    val_main_cst_0_apply, val_main_v4_apply, val_main_v3_apply, val_main_cst_apply]
  rfl

theorem e15 (p : Fin 8192) (u : Fin 1) : idx_main_v15 (ix2 p u) = ix1 p :=
  Cert.LibColumn.eq_ix1_of _ _ rfl
theorem e18 (p : Fin 8192) (q : Fin 64) : idx_main_v18 (ix2 p q) = ix2 p (0 : Fin 1) :=
  Cert.LibColumn.eq_ix2_of _ _ _ rfl rfl
theorem e16 (p : Fin 8192) (q : Fin 64) (k : Fin 8192) : idx_main_v16 (lidx_main_v17 (ix2 p q) k) = ix2 k p :=
  Cert.LibColumn.eq_ix2_of _ _ _ rfl rfl
theorem er17 (p : Fin 8192) (q : Fin 64) (k : Fin 8192) : ridx_main_v17 (ix2 p q) k = ix2 k q :=
  Cert.LibColumn.eq_ix2_of _ _ _ rfl rfl
theorem el20 (p : Fin 8192) (q : Fin 64) (k : Fin 8192) : lidx_main_v20 (ix2 p q) k = ix2 p k :=
  Cert.LibColumn.eq_ix2_of _ _ _ rfl rfl
theorem er20 (p : Fin 8192) (q : Fin 64) (k : Fin 8192) : ridx_main_v20 (ix2 p q) k = ix2 k q :=
  Cert.LibColumn.eq_ix2_of _ _ _ rfl rfl
theorem e21 (p : Fin 8192) (u : Fin 1) : idx_main_v21 (ix2 p u) = ix1 p :=
  Cert.LibColumn.eq_ix1_of _ _ rfl
theorem e24 (p : Fin 8192) (q : Fin 64) : idx_main_v24 (ix2 p q) = ix2 p (0 : Fin 1) :=
  Cert.LibColumn.eq_ix2_of _ _ _ rfl rfl
theorem e22 (p : Fin 8192) (q : Fin 64) (k : Fin 8192) : idx_main_v22 (lidx_main_v23 (ix2 p q) k) = ix2 k p :=
  Cert.LibColumn.eq_ix2_of _ _ _ rfl rfl
theorem er23 (p : Fin 8192) (q : Fin 64) (k : Fin 8192) : ridx_main_v23 (ix2 p q) k = ix2 k q :=
  Cert.LibColumn.eq_ix2_of _ _ _ rfl rfl
theorem el26 (p : Fin 8192) (q : Fin 64) (k : Fin 8192) : lidx_main_v26 (ix2 p q) k = ix2 p k :=
  Cert.LibColumn.eq_ix2_of _ _ _ rfl rfl
theorem er26 (p : Fin 8192) (q : Fin 64) (k : Fin 8192) : ridx_main_v26 (ix2 p q) k = ix2 k q :=
  Cert.LibColumn.eq_ix2_of _ _ _ rfl rfl
theorem el28 (p : Fin 8192) (q : Fin 64) (k : Fin 64) : lidx_main_v28 (ix2 p q) k = ix2 p k :=
  Cert.LibColumn.eq_ix2_of _ _ _ rfl rfl
theorem e27 (p : Fin 8192) (q : Fin 64) (k : Fin 64) : idx_main_v27 (ridx_main_v28 (ix2 p q) k) = ix2 q k :=
  Cert.LibColumn.eq_ix2_of _ _ _ rfl rfl
theorem e29 (p : Fin 8192) (q : Fin 64) : idx_main_v29 (idx_main_v30 (ix2 p q)) = ix1 q :=
  Cert.LibColumn.eq_ix1_of _ _ rfl

theorem prod1 : arr2 (val_main_v19 (F := Ideal) x0 x1 x2 x3)
    = mmT (arr2 x2) (arr2 x0) (vla (arr1 x1) (x3 (ix1 0))) := by
  funext p q
  show val_main_v19 (F := Ideal) x0 x1 x2 x3 (ix2 p q) = _
  rw [val_main_v19_apply, val_main_v18_apply, e18, val_main_v15_apply, e15, scale1, val_main_v17_apply]
  simp only [val_main_v16_apply, e16, er17]
  rfl

theorem prod2 : arr2 (val_main_v20 (F := Ideal) x0 x1 x2 x3)
    = mmN (arr2 x2) (arr2 (val_main_v19 (F := Ideal) x0 x1 x2 x3)) := by
  funext p q
  show val_main_v20 (F := Ideal) x0 x1 x2 x3 (ix2 p q) = _
  rw [val_main_v20_apply]
  generalize val_main_v19 (F := Ideal) x0 x1 x2 x3 = y
  simp only [el20, er20]
  rfl

theorem prod3 : arr2 (val_main_v25 (F := Ideal) x0 x1 x2 x3 x4)
    = mmT (arr2 x2) (arr2 (val_main_v20 (F := Ideal) x0 x1 x2 x3)) (vla2 (arr1 x1) (x4 (ix1 0))) := by
  funext p q
  show val_main_v25 (F := Ideal) x0 x1 x2 x3 x4 (ix2 p q) = _
  rw [val_main_v25_apply, val_main_v24_apply, e24, val_main_v21_apply, e21, scale2, val_main_v23_apply]
  generalize val_main_v20 (F := Ideal) x0 x1 x2 x3 = y
  simp only [val_main_v22_apply, e22, er23]
  rfl

theorem prod4 : arr2 (val_main_v26 (F := Ideal) x0 x1 x2 x3 x4)
    = mmN (arr2 x2) (arr2 (val_main_v25 (F := Ideal) x0 x1 x2 x3 x4)) := by
  funext p q
  show val_main_v26 (F := Ideal) x0 x1 x2 x3 x4 (ix2 p q) = _
  rw [val_main_v26_apply]
  generalize val_main_v25 (F := Ideal) x0 x1 x2 x3 x4 = y
  simp only [el26, er26]
  rfl

theorem lin1 : arr2 (val_main_v31 (F := Ideal) x0 x1 x2 x3 x4 x5 x6)
    = lin (arr2 (val_main_v26 (F := Ideal) x0 x1 x2 x3 x4)) (arr2 x5) (arr1 x6) := by
  funext p q
  show val_main_v31 (F := Ideal) x0 x1 x2 x3 x4 x5 x6 (ix2 p q) = _
  rw [val_main_v31_apply, val_main_v30_apply, val_main_v29_apply, e29, val_main_v28_apply]
  generalize val_main_v26 (F := Ideal) x0 x1 x2 x3 x4 = y
  simp only [val_main_v27_apply, el28, e27]
  rfl

theorem ref_hidden : arr2 (val_main_v31 (F := Ideal) x0 x1 x2 x3 x4 x5 x6) = hid x0 x1 x2 x3 x4 x5 x6 := by
  rw [lin1, prod4, prod3, prod2, prod1]
  rfl

theorem e32 (h : Fin 64) (k : Fin 8192) : idx_main_v32 (ix1 h) k = ix2 k h :=
  Cert.LibColumn.eq_ix2_of _ _ _ rfl rfl
theorem e39 (h : Fin 64) (k : Fin 8192) : idx_main_v39 (ix1 h) k = ix2 k h :=
  Cert.LibColumn.eq_ix2_of _ _ _ rfl rfl
theorem e35 (p : Fin 8192) (h : Fin 64) : idx_main_v35 (idx_main_v36 (ix2 p h)) = ix1 h :=
  Cert.LibColumn.eq_ix1_of _ _ rfl
theorem e42 (p : Fin 8192) (h : Fin 64) : idx_main_v42 (idx_main_v43 (ix2 p h)) = ix1 h :=
  Cert.LibColumn.eq_ix1_of _ _ rfl
theorem e48 (p : Fin 8192) (h : Fin 64) : idx_main_v48 (idx_main_v49 (ix2 p h)) = ix1 h :=
  Cert.LibColumn.eq_ix1_of _ _ rfl
theorem e51 (p : Fin 8192) (h : Fin 64) : idx_main_v51 (idx_main_v52 (ix2 p h)) = ix1 h :=
  Cert.LibColumn.eq_ix1_of _ _ rfl
theorem e54 (p : Fin 8192) (h : Fin 64) : idx_main_v54 (idx_main_v55 (ix2 p h)) = ix1 h :=
  Cert.LibColumn.eq_ix1_of _ _ rfl

theorem mean1 (h : Fin 64) : val_main_v34 (F := Ideal) x0 x1 x2 x3 x4 x5 x6 (ix1 h)
    = mean (arr2 (val_main_v31 (F := Ideal) x0 x1 x2 x3 x4 x5 x6)) h := by
  rw [val_main_v34_apply, val_main_v32_apply, val_main_cst_3_apply, val_main_v33_apply, val_main_cst_4_apply]
  generalize val_main_v31 (F := Ideal) x0 x1 x2 x3 x4 x5 x6 = y
  simp only [e32, Ideal.ofBits_def, Ideal.ofBits_zero_f32, zero_add]
  rfl

theorem cen1 (p : Fin 8192) (h : Fin 64) : val_main_v37 (F := Ideal) x0 x1 x2 x3 x4 x5 x6 (ix2 p h)
    = cen (arr2 (val_main_v31 (F := Ideal) x0 x1 x2 x3 x4 x5 x6)) p h := by
  rw [val_main_v37_apply, val_main_v36_apply, val_main_v35_apply, e35, mean1]
  rfl

theorem cen2 (p : Fin 8192) (h : Fin 64) : val_main_v44 (F := Ideal) x0 x1 x2 x3 x4 x5 x6 (ix2 p h)
    = cen (arr2 (val_main_v31 (F := Ideal) x0 x1 x2 x3 x4 x5 x6)) p h := by
  rw [val_main_v44_apply, val_main_v43_apply, val_main_v42_apply, e42, mean1]
  rfl

theorem var1 (h : Fin 64) : val_main_v41 (F := Ideal) x0 x1 x2 x3 x4 x5 x6 (ix1 h)
    = var (arr2 (val_main_v31 (F := Ideal) x0 x1 x2 x3 x4 x5 x6)) h := by
  rw [val_main_v41_apply, val_main_v39_apply, val_main_cst_5_apply, val_main_v40_apply, val_main_cst_6_apply]
  simp only [val_main_v38_apply, e39, cen1, Ideal.ofBits_def, Ideal.ofBits_zero_f32, zero_add]
  rfl

theorem bn1 : arr2 (val_main_v56 (F := Ideal) x0 x1 x2 x3 x4 x5 x6 x7 x8)
    = bn (arr2 (val_main_v31 (F := Ideal) x0 x1 x2 x3 x4 x5 x6)) (arr1 x7) (arr1 x8) := by
  funext p h
  show val_main_v56 (F := Ideal) x0 x1 x2 x3 x4 x5 x6 x7 x8 (ix2 p h) = _
  rw [val_main_v56_apply, val_main_v53_apply, val_main_v50_apply, cen2, val_main_v49_apply, val_main_v48_apply, e48,
    val_main_v47_apply, val_main_v46_apply, var1, val_main_v45_apply, val_main_cst_7_apply,
    val_main_v52_apply, val_main_v51_apply, e51, val_main_v55_apply, val_main_v54_apply, e54]
  rfl

theorem el59 (p : Fin 8192) (o : Fin 32) (k : Fin 64) : lidx_main_v59 (ix2 p o) k = ix2 p k :=
  Cert.LibColumn.eq_ix2_of _ _ _ rfl rfl
theorem e58 (p : Fin 8192) (o : Fin 32) (k : Fin 64) : idx_main_v58 (ridx_main_v59 (ix2 p o) k) = ix2 o k :=
  Cert.LibColumn.eq_ix2_of _ _ _ rfl rfl
theorem e60 (p : Fin 8192) (o : Fin 32) : idx_main_v60 (idx_main_v61 (ix2 p o)) = ix1 o :=
  Cert.LibColumn.eq_ix1_of _ _ rfl

theorem relu1 : arr2 (val_main_v57 (F := Ideal) x0 x1 x2 x3 x4 x5 x6 x7 x8)
    = relu (arr2 (val_main_v56 (F := Ideal) x0 x1 x2 x3 x4 x5 x6 x7 x8)) := by
  funext p h
  show val_main_v57 (F := Ideal) x0 x1 x2 x3 x4 x5 x6 x7 x8 (ix2 p h) = _
  rw [val_main_v57_apply, val_main_call0_v0_apply, val_main_call0_cst_apply]
  rfl

theorem lin2 : arr2 (val_main_v62 (F := Ideal) x0 x1 x2 x3 x4 x5 x6 x7 x8 x9 x10)
    = lin (arr2 (val_main_v57 (F := Ideal) x0 x1 x2 x3 x4 x5 x6 x7 x8)) (arr2 x9) (arr1 x10) := by
  funext p o
  show val_main_v62 (F := Ideal) x0 x1 x2 x3 x4 x5 x6 x7 x8 x9 x10 (ix2 p o) = _
  rw [val_main_v62_apply, val_main_v61_apply, val_main_v60_apply, e60, val_main_v59_apply]
  generalize val_main_v57 (F := Ideal) x0 x1 x2 x3 x4 x5 x6 x7 x8 = y
  simp only [val_main_v58_apply, el59, e58]
  rfl

theorem ref_logits : arr2 (val_main_v62 (F := Ideal) x0 x1 x2 x3 x4 x5 x6 x7 x8 x9 x10)
    = logitsOf (hid x0 x1 x2 x3 x4 x5 x6) (arr1 x7) (arr1 x8) (arr2 x9) (arr1 x10) := by
  rw [lin2, relu1, bn1, ref_hidden]
  rfl

theorem e3 (p : Fin 8192) (o : Fin 32) : idx_main_call1_v3 (idx_main_call1_v4 (ix2 p o)) = ix1 p :=
  Cert.LibColumn.eq_ix1_of _ _ rfl
theorem e7 (p : Fin 8192) (k : Fin 32) : idx_main_call1_v7 (ix1 p) k = ix2 p k :=
  Cert.LibColumn.eq_ix2_of _ _ _ rfl rfl
theorem e10 (p : Fin 8192) (o : Fin 32) : idx_main_call1_v10 (ix2 p o) = ix2 p (0 : Fin 1) :=
  Cert.LibColumn.eq_ix2_of _ _ _ rfl rfl
theorem e8 (p : Fin 8192) (u : Fin 1) : idx_main_call1_v8 (ix2 p u) = ix1 p :=
  Cert.LibColumn.eq_ix1_of _ _ rfl

theorem negInf_eq : Ideal.ofBits .f32 0xFF800000#32 = (⊥ : EReal) := by
  simp [Ideal.ofBits, Ideal.ieee]

theorem lift_row (h : S8192x32.Reduces [1] S8192) (p : Fin 8192) (k : Fin (S8192x32.size 1)) :
    h.lift (ix1 p) k = ix2 p (⟨k.val, k.isLt⟩ : Fin 32) := by
  funext c; apply Fin.ext
  fin_cases c <;> rfl

theorem max0 (p : Fin 8192) : val_main_call1_v0 (F := Ideal) x0 x1 x2 x3 x4 x5 x6 x7 x8 x9 x10 (ix1 p)
    = rowmax (arr2 (val_main_v62 (F := Ideal) x0 x1 x2 x3 x4 x5 x6 x7 x8 x9 x10)) p := by
  unfold val_main_call1_v0
  generalize val_main_v62 (F := Ideal) x0 x1 x2 x3 x4 x5 x6 x7 x8 x9 x10 = z
  have h : S8192x32.Reduces [1] S8192 := by decide
  refine (Host.reduce_eq_fold_single _ _ _ _ h h_S_ _).trans ?_
  have hf : (z ∘ h.lift (ix1 p)) = fun k : Fin 32 => z (ix2 p k) := funext fun k => congrArg z (lift_row h p k)
  rw [hf, val_main_call1_cst_apply, Ideal.ofBits_def, negInf_eq]
  rfl

theorem max1 (p : Fin 8192) : val_main_call1_v2 (F := Ideal) x0 x1 x2 x3 x4 x5 x6 x7 x8 x9 x10 (ix1 p)
    = rowmax (arr2 (val_main_v62 (F := Ideal) x0 x1 x2 x3 x4 x5 x6 x7 x8 x9 x10)) p := by
  rw [val_main_call1_v2_apply, val_main_call1_v1_apply, val_main_call1_cst_0_apply, max0, Ideal.maximumf_def,
    Ideal.ofBits_def, negInf_eq]
  exact max_bot_left _

theorem sub1 (p : Fin 8192) (o : Fin 32) : val_main_call1_v5 (F := Ideal) x0 x1 x2 x3 x4 x5 x6 x7 x8 x9 x10 (ix2 p o)
    = arr2 (val_main_v62 (F := Ideal) x0 x1 x2 x3 x4 x5 x6 x7 x8 x9 x10) p o
      - rowmax (arr2 (val_main_v62 (F := Ideal) x0 x1 x2 x3 x4 x5 x6 x7 x8 x9 x10)) p := by
  rw [val_main_call1_v5_apply, val_main_call1_v4_apply, val_main_call1_v3_apply, e3, max1]
  rfl

theorem lse1 (p : Fin 8192) : val_main_call1_v7 (F := Ideal) x0 x1 x2 x3 x4 x5 x6 x7 x8 x9 x10 (ix1 p)
    = ∑ o : Fin 32, Ideal.exp (arr2 (val_main_v62 (F := Ideal) x0 x1 x2 x3 x4 x5 x6 x7 x8 x9 x10) p o
      - rowmax (arr2 (val_main_v62 (F := Ideal) x0 x1 x2 x3 x4 x5 x6 x7 x8 x9 x10)) p) := by
  rw [val_main_call1_v7_apply, val_main_call1_cst_1_apply]
  simp only [val_main_call1_v6_apply, e7, sub1, Ideal.ofBits_def, Ideal.ofBits_zero_f32, zero_add, Ideal.hostUnary_exp_def]

theorem lsm1 : arr2 (val_main_v63 (F := Ideal) x0 x1 x2 x3 x4 x5 x6 x7 x8 x9 x10)
    = lsmB (arr2 (val_main_v62 (F := Ideal) x0 x1 x2 x3 x4 x5 x6 x7 x8 x9 x10)) := by
  funext p o
  show val_main_v63 (F := Ideal) x0 x1 x2 x3 x4 x5 x6 x7 x8 x9 x10 (ix2 p o) = _
  rw [val_main_v63_apply, sub1, val_main_call1_v10_apply, e10, val_main_call1_v9_apply, val_main_call1_v8_apply, e8, lse1]
  rfl

theorem ref_logsm :
    arr2 (val_main_v63 (F := Ideal) x0 x1 x2 x3 x4 x5 x6 x7 x8 x9 x10)
      = lsmB (logitsOf (hid x0 x1 x2 x3 x4 x5 x6) (arr1 x7) (arr1 x8) (arr2 x9) (arr1 x10)) := by
  rw [lsm1, ref_logits]

end Cert.ReferenceIdeal.RefValue

end
-- ==== Proof.Val.Pre.lean ====
import proofs.«134441_j56014963474691_1_alg».proof.Pre_finite_inputs
import Idealize.ShloMosaic.PureOps.Ideal
import Idealize.ShloMosaic.Lib.ValueIdx
import Idealize.ShloMosaic.Lib.ReduceAll

noncomputable section

namespace Cert.PreReal

open Idealize.ShloMosaic Idealize.ShloMosaic.ValueIdx Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_bit {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ r : ℝ, a i = (r : EReal) := by
  refine real_of_abs_lt_top (a i) ?_
  have h' : BitVec.ofBool (decide (max (a i) (-(a i)) < Ideal.ofBits .f32 0x7F800000#32)) = 1#1 := h
  rw [ofBits_inf] at h'
  by_contra hn
  rw [decide_eq_false hn] at h'
  exact absurd h' (by decide)

theorem real_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant S_ .f32 0x7F800000#32)))
        (constantI S_ 1 1#1) hr hu ix0 = 1#1) (i : s.Idx) : ∃ r : ℝ, a i = (r : EReal) :=
  real_of_bit a hb i (Host.reduce_andi_all _ _ hr hu ix0 h i)

theorem andi_ix0 (x y : IVec S_ 1) (h : andi x y ix0 = 1#1) : x ix0 = 1#1 ∧ y ix0 = 1#1 :=
  IntOp.andi_eq_one.1 h

variable [Cert.Pre_finite_inputs.Facts]

theorem real_of_pre (a0 : FVec Ideal S8192x64 .f32) (a1 : FVec Ideal S8192 .f32) (a2 : FVec Ideal S8192x8192 .f32)
    (a3 a4 : FVec Ideal S1 .f32) (a5 : FVec Ideal S64x64 .f32) (a6 a7 a8 : FVec Ideal S64 .f32)
    (a9 : FVec Ideal S32x64 .f32) (a10 : FVec Ideal S32 .f32)
    (h : Cert.Pre_finite_inputs.fn (F := Ideal) a0 a1 a2 a3 a4 a5 a6 a7 a8 a9 a10 = (fun _ => 1#1)) :
    (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) := by
  have h0 := congrFun h ix0
  dsimp only [fn, fn_part1, fn_part2, fn_part3] at h0

  obtain ⟨h9, p10⟩ := andi_ix0 _ _ h0
  obtain ⟨h8, p9⟩ := andi_ix0 _ _ h9
  obtain ⟨h7, p8⟩ := andi_ix0 _ _ h8
  obtain ⟨-, p7⟩ := andi_ix0 _ _ h7
  exact ⟨real_of_all a7 _ _ _ p7, real_of_all a8 _ _ _ p8, real_of_all a9 _ _ _ p9, real_of_all a10 _ _ _ p10⟩

end Cert.PreReal

end
-- ==== Proof.lean ====
import proofs.«134441_j56014963474691_1_alg».proof.Defs
import proofs.«134441_j56014963474691_1_alg».proof.Proof.Gen.Kernel
import proofs.«134441_j56014963474691_1_alg».proof.Proof.Gen.KernelIdeal
import proofs.«134441_j56014963474691_1_alg».proof.Proof.Gen.ReferenceIdeal
import proofs.«134441_j56014963474691_1_alg».proof.Proof.Gen.Pre_finite_inputs
import proofs.«134441_j56014963474691_1_alg».proof.Proof.K.Run
import proofs.«134441_j56014963474691_1_alg».proof.Proof.KI.Run
import proofs.«134441_j56014963474691_1_alg».proof.Proof.Ref.Gen
import proofs.«134441_j56014963474691_1_alg».proof.Proof.Val.Math
import proofs.«134441_j56014963474691_1_alg».proof.Proof.Val.Chain
import proofs.«134441_j56014963474691_1_alg».proof.Proof.Val.Ref
import proofs.«134441_j56014963474691_1_alg».proof.Proof.Val.Pre
import Idealize.ShloMosaic.Adequacy
import Idealize.ShloMosaic.Init

noncomputable section

namespace Cert.Proof

open Idealize.ShloMosaic Idealize.ShloMosaic.TcCoe Idealize.ShloMosaic.ValueIdx Idealize.SL.Sem
open Cert.Spec Cert.KernelIdeal Cert.KernelIdeal.Hand

-- A rank-2 array is determined by its entries read by coordinates.
theorem arr2_inj {a b : Nat} {x y : (⟨2, ![a, b]⟩ : Shape).Idx → EReal} (h : arr2 x = arr2 y) : x = y := by
  funext i
  rw [eq_ix2 i]
  exact congrFun (congrFun h (i 0)) (i 1)

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.ValueP.run (F := Ideal) m ρ)

-- The logits are real because the normalisation's scale and shift and the second layer's weights and bias are finite.
theorem logits_real (m : (ℓ : Loc nD τ sig) → Buf (Elt Ideal) ℓ) (c : Dev nD) (hpre : Cert.Pre_KernelIdeal m) :
    ∀ i o, ∃ r : ℝ, logitsOf (kHid m c) (aG m c) (aB m c) (aMw m c) (aMb m c) i o = r := by
  obtain ⟨h7, h8, h9, h10⟩ := Cert.PreReal.real_of_pre _ _ _ _ _ _ _ _ _ _ _ (hpre c)
  exact logitsOf_real _ _ _ _ _ (fun h => h7 (ix1 h)) (fun h => h8 (ix1 h)) (fun o q => h9 (ix2 o q)) (fun o => h10 (ix1 o))

-- Both sides are the same sums regrouped; the two arrangements of the log-softmax agree on real logits.
theorem algebraic : Cert.algebraic_KernelIdeal_ReferenceIdeal := by
  intro m ρ m' ρ' hpre hagree
  refine ⟨fun c => W8 m ρ c (Proc.devRef .tc main_v27_0), fun c => W8 m ρ c (Proc.devRef .tc main_v27_1), ?_, ?_⟩
  · refine (θ_run Cert.KernelIdeal.defs _ _).mono (fun r h c => ?_) (run_main (F := Ideal) m ρ)
    exact ⟨h c _ (mem_uc main_v27_0 (by decide)), h c _ (mem_uc main_v27_1 (by decide)),
      (h c _ (mem_uc main_arg0 (by decide))).trans (W8_arg m ρ c main_arg0 (by decide)),
      (h c _ (mem_uc main_arg1 (by decide))).trans (W8_arg m ρ c main_arg1 (by decide)),
      (h c _ (mem_uc main_arg2 (by decide))).trans (W8_arg m ρ c main_arg2 (by decide)),
      (h c _ (mem_uc main_arg3 (by decide))).trans (W8_arg m ρ c main_arg3 (by decide)),
      (h c _ (mem_uc main_arg4 (by decide))).trans (W8_arg m ρ c main_arg4 (by decide)),
      (h c _ (mem_uc main_arg5 (by decide))).trans (W8_arg m ρ c main_arg5 (by decide)),
      (h c _ (mem_uc main_arg6 (by decide))).trans (W8_arg m ρ c main_arg6 (by decide)),
      (h c _ (mem_uc main_arg7 (by decide))).trans (W8_arg m ρ c main_arg7 (by decide)),
      (h c _ (mem_uc main_arg8 (by decide))).trans (W8_arg m ρ c main_arg8 (by decide)),
      (h c _ (mem_uc main_arg9 (by decide))).trans (W8_arg m ρ c main_arg9 (by decide)),
      (h c _ (mem_uc main_arg10 (by decide))).trans (W8_arg m ρ c main_arg10 (by decide))⟩
  · refine (θ_run Cert.ReferenceIdeal.defs _ _).mono (fun r h c => ?_) (Cert.ReferenceIdeal.ValueP.run (F := Ideal) m' ρ')
    obtain ⟨a0, a1, a2, a3, a4, a5, a6, a7, a8, a9, a10⟩ := hagree c
    refine ⟨(h c).1.trans ?_, (h c).2.1.trans ?_, (h c).2.2⟩
    · rw [Cert.ReferenceIdeal.ReadP.val_main_v63_eq, a0, a1, a2, a3, a4, a5, a6, a7, a8, a9, a10]
      refine arr2_inj ?_
      rw [Cert.ReferenceIdeal.RefValue.ref_logsm, res_logsm]
      exact (lsm_eq _ (logits_real m c hpre)).symm
    · rw [a0, a1, a2, a3, a4, a5, a6]
      refine arr2_inj ?_
      rw [res_hidden]
      exact (congrArg arr2 (Cert.ReferenceIdeal.ReadP.val_main_v31_eq _ _ _ _ _ _ _)).trans (Cert.ReferenceIdeal.RefValue.ref_hidden _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
